-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S800000x1 : Shape := ⟨2, ![800000, 1]⟩
abbrev S100x128 : Shape := ⟨2, ![100, 128]⟩
abbrev S3x100x1 : Shape := ⟨3, ![3, 100, 1]⟩
abbrev S3x128x128 : Shape := ⟨3, ![3, 128, 128]⟩
abbrev S3x128 : Shape := ⟨2, ![3, 128]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S_ : Shape := ⟨0, ![]⟩

class Facts : Prop where
  bcast_S_S800000x1 : S_.BroadcastsInDim S800000x1 (![] : Fin 0 → Fin S800000x1.rank)
  reducesTo_S800000x1_S_d0_1 : S800000x1.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S3x100x1 : S_.BroadcastsInDim S3x100x1 (![] : Fin 0 → Fin S3x100x1.rank)
  reducesTo_S3x100x1_S_d0_1_2 : S3x100x1.ReducesTo [0, 1, 2] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg0 : IVec S50000 32) (main_arg10 : FVec F S128x1 .f32) (main_arg11 : FVec F S1 .f32) (main_v33 : IVec S_ 1) : IVec S_ 1 :=
  let main_v34 : FVec F S128x1 .f32 := Host.absf main_arg10
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S50000 32 := broadcastInDim S50000 ![] bcast_S_S50000 main_c_16
  let main_v45 : IVec S50000 1 := cmpi .sge main_arg0 main_v44
  let main_c_17 : IVec S_ 32 := constantI S_ 32 100#32
  let main_v46 : IVec S50000 32 := broadcastInDim S50000 ![] bcast_S_S50000 main_c_17
  let main_v47 : IVec S50000 1 := cmpi .slt main_arg0 main_v46
  let main_v48 : IVec S50000 1 := andi main_v45 main_v47
  let main_c_18 : IVec S_ 1 := constantI S_ 1 1#1
  let main_v49 : IVec S_ 1 := (fun x v => Host.reduce IntOp.andi x v reducesTo_S50000_S_d0 h_S_) main_v48 main_c_18
  let main_v50 : IVec S_ 1 := andi main_v43 main_v49
  main_v50

def fn_part1 {F : FTy → Type} [FloatOps F] (main_arg0 : IVec S50000 32) (main_arg7 : FVec F S3x128 .f32) (main_arg8 : FVec F S2x128x128 .f32) (main_arg9 : FVec F S2x128 .f32) (main_arg10 : FVec F S128x1 .f32) (main_arg11 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg7
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S2x128x128 .f32 := Host.absf main_arg8
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg9
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg0 main_arg10 main_arg11 main_v33

def fn {F : FTy → Type} [FloatOps F] (main_arg0 : IVec S50000 32) (main_arg1 : IVec S2x800000 32) (main_arg2 : FVec F S800000x1 .f32) (main_arg3 : IVec S50000 32) (main_arg4 : FVec F S100x128 .f32) (main_arg5 : FVec F S3x100x1 .f32) (main_arg6 : FVec F S3x128x128 .f32) (main_arg7 : FVec F S3x128 .f32) (main_arg8 : FVec F S2x128x128 .f32) (main_arg9 : FVec F S2x128 .f32) (main_arg10 : FVec F S128x1 .f32) (main_arg11 : FVec F S1 .f32) : IVec S_ 1 :=
  let main_v0 : FVec F S800000x1 .f32 := Host.absf main_arg2
  let main_cst : FVec F S_ .f32 := constant S_ .f32 0x7F800000#32
  let main_v1 : FVec F S800000x1 .f32 := broadcastInDim S800000x1 ![] bcast_S_S800000x1 main_cst
  let main_v2 : IVec S800000x1 1 := cmpf .olt main_v0 main_v1
  let main_c : IVec S_ 1 := constantI S_ 1 1#1
  let main_v3 : IVec S_ 1 := (fun x v => Host.reduce IntOp.andi x v reducesTo_S800000x1_S_d0_1 h_S_) main_v2 main_c
  let main_v4 : FVec F S100x128 .f32 := Host.absf main_arg4
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S3x100x1 .f32 := Host.absf main_arg5
  let main_cst_2 : FVec F S_ .f32 := constant S_ .f32 0x7F800000#32
  let main_v10 : FVec F S3x100x1 .f32 := broadcastInDim S3x100x1 ![] bcast_S_S3x100x1 main_cst_2
  let main_v11 : IVec S3x100x1 1 := cmpf .olt main_v9 main_v10
  let main_c_3 : IVec S_ 1 := constantI S_ 1 1#1
  let main_v12 : IVec S_ 1 := (fun x v => Host.reduce IntOp.andi x v reducesTo_S3x100x1_S_d0_1_2 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg0 main_arg7 main_arg8 main_arg9 main_arg10 main_arg11 main_v13 main_v16
-- ==== Kernel.lean ====
abbrev S50000 : Shape := ⟨1, ![50000]⟩
abbrev S2x800000 : Shape := ⟨2, ![2, 800000]⟩
abbrev S800000x1 : Shape := ⟨2, ![800000, 1]⟩
abbrev S100x128 : Shape := ⟨2, ![100, 128]⟩
abbrev S3x100x1 : Shape := ⟨3, ![3, 100, 1]⟩
abbrev S3x128x128 : Shape := ⟨3, ![3, 128, 128]⟩
abbrev S3x128 : Shape := ⟨2, ![3, 128]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S128x128 : Shape := ⟨2, ![128, 128]⟩
abbrev S50000x128 : Shape := ⟨2, ![50000, 128]⟩
abbrev S5000x1 : Shape := ⟨2, ![5000, 1]⟩
abbrev S5000x128 : Shape := ⟨2, ![5000, 128]⟩
abbrev S3x100 : Shape := ⟨2, ![3, 100]⟩
abbrev S100x3 : Shape := ⟨2, ![100, 3]⟩
abbrev S50000x3 : Shape := ⟨2, ![50000, 3]⟩
abbrev S1x128x128 : Shape := ⟨3, ![1, 128, 128]⟩
abbrev S1x128 : Shape := ⟨2, ![1, 128]⟩
abbrev S128 : Shape := ⟨1, ![128]⟩
abbrev S800000x128 : Shape := ⟨2, ![800000, 128]⟩
abbrev S2000x128 : Shape := ⟨2, ![2000, 128]⟩
abbrev S2000 : Shape := ⟨1, ![2000]⟩
abbrev S2000x1 : Shape := ⟨2, ![2000, 1]⟩
abbrev S1x1 : Shape := ⟨2, ![1, 1]⟩
abbrev S1024x1 : Shape := ⟨2, ![1024, 1]⟩
abbrev S128x1024 : Shape := ⟨2, ![128, 1024]⟩
abbrev S2000x1024 : Shape := ⟨2, ![2000, 1024]⟩
abbrev S128x2000 : Shape := ⟨2, ![128, 2000]⟩
abbrev S1024x128 : Shape := ⟨2, ![1024, 128]⟩
abbrev S1024 : Shape := ⟨1, ![1024]⟩

abbrev nBuf : Space → Nat
  | .hbm => 170
  | .vmem => 53
  | .smem => 0
  | _ => 0

abbrev hbmTy0_0 (i : Nat) : BufTy := match i % 128 with
  | 0 => ⟨S50000, .i32⟩
  | 1 => ⟨S2x800000, .i32⟩
  | 2 => ⟨S800000x1, .f32⟩
  | 3 => ⟨S50000, .i32⟩
  | 4 => ⟨S100x128, .f32⟩
  | 5 => ⟨S3x100x1, .f32⟩
  | 6 => ⟨S3x128x128, .f32⟩
  | 7 => ⟨S3x128, .f32⟩
  | 8 => ⟨S2x128x128, .f32⟩
  | 9 => ⟨S2x128, .f32⟩
  | 10 => ⟨S128x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S50000x1, .i32⟩
  | 17 => ⟨S50000x1, .i32⟩
  | 18 => ⟨S_, .i32⟩
  | 19 => ⟨S_, .f32⟩
  | 20 => ⟨S128x128, .f32⟩
  | 21 => ⟨S128x128, .bf16⟩
  | 22 => ⟨S50000x128, .f32⟩
  | 23 => ⟨S3x100x1, .f32⟩
  | 24 => ⟨S3x100x1, .f32⟩
  | 25 => ⟨S_, .f32⟩
  | 26 => ⟨S3x100x1, .f32⟩
  | 27 => ⟨S3x100x1, .f32⟩
  | 28 => ⟨S_, .f32⟩
  | 29 => ⟨S3x100x1, .f32⟩
  | 30 => ⟨S3x100x1, .f32⟩
  | 31 => ⟨S3x100, .f32⟩
  | 32 => ⟨S100x3, .f32⟩
  | 33 => ⟨S_, .i32⟩
  | 34 => ⟨S50000, .i32⟩
  | 35 => ⟨S50000, .i1⟩
  | 36 => ⟨S_, .i32⟩
  | 37 => ⟨S50000, .i32⟩
  | 38 => ⟨S50000, .i32⟩
  | 39 => ⟨S50000, .i32⟩
  | 40 => ⟨S50000x1, .i32⟩
  | 41 => ⟨S50000x3, .f32⟩
  | 42 => ⟨S1x128x128, .f32⟩
  | 43 => ⟨S128x128, .f32⟩
  | 44 => ⟨S128x128, .bf16⟩
  | 45 => ⟨S1x128, .f32⟩
  | 46 => ⟨S128, .f32⟩
  | 47 => ⟨S1x128, .f32⟩
  | 48 => ⟨S50000x128, .f32⟩
  | 49 => ⟨S50000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x1, .f32⟩
  | 59 => ⟨S800000x1, .f32⟩
  | 60 => ⟨S800000x1, .f32⟩
  | 61 => ⟨S800000x1, .f32⟩
  | 62 => ⟨S800000x1, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S800000x128, .f32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S1x128x128, .f32⟩
  | 79 => ⟨S128x128, .f32⟩
  | 80 => ⟨S128x128, .bf16⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S50000x1, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x1, .f32⟩
  | 96 => ⟨S800000x1, .f32⟩
  | 97 => ⟨S800000x1, .f32⟩
  | 98 => ⟨S800000x1, .f32⟩
  | 99 => ⟨S800000x1, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S800000x128, .f32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S1x128x128, .f32⟩
  | 116 => ⟨S128x128, .f32⟩
  | 117 => ⟨S128x128, .bf16⟩
  | 118 => ⟨S1x128, .f32⟩
  | 119 => ⟨S128, .f32⟩
  | 120 => ⟨S1x128, .f32⟩
  | 121 => ⟨S50000x128, .f32⟩
  | 122 => ⟨S50000x128, .f32⟩
  | 123 => ⟨S50000x1, .f32⟩
  | 124 => ⟨S_, .i32⟩
  | 125 => ⟨S800000, .i32⟩
  | 126 => ⟨S800000, .i1⟩
  | 127 => ⟨S_, .i32⟩
  | _ => ⟨S50000, .i32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x1, .f32⟩
  | 5 => ⟨S800000x1, .f32⟩
  | 6 => ⟨S800000x1, .f32⟩
  | 7 => ⟨S800000x1, .f32⟩
  | 8 => ⟨S800000x1, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S800000x128, .f32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S1x128x128, .f32⟩
  | 25 => ⟨S128x128, .f32⟩
  | 26 => ⟨S128x128, .bf16⟩
  | 27 => ⟨S1x128, .f32⟩
  | 28 => ⟨S128, .f32⟩
  | 29 => ⟨S1x128, .f32⟩
  | 30 => ⟨S50000x128, .f32⟩
  | 31 => ⟨S1x128x128, .f32⟩
  | 32 => ⟨S128x128, .f32⟩
  | 33 => ⟨S128x128, .bf16⟩
  | 34 => ⟨S1x128, .f32⟩
  | 35 => ⟨S128, .f32⟩
  | 36 => ⟨S1x128, .f32⟩
  | 37 => ⟨S50000x128, .f32⟩
  | 38 => ⟨S128x1, .bf16⟩
  | 39 => ⟨S1x1, .f32⟩
  | 40 => ⟨S1024x1, .f32⟩
  | 41 => ⟨S1024, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S5000x1, .i32⟩
  | .local _ .vmem, ⟨1, _⟩ => ⟨S5000x1, .i32⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .bf16⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S128x128, .bf16⟩
  | .local _ .vmem, ⟨26, _⟩ => ⟨S1x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S128x128, .bf16⟩
  | .local _ .vmem, ⟨36, _⟩ => ⟨S1x128, .f32⟩
  | .local _ .vmem, ⟨37, _⟩ => ⟨S2000x128, .f32⟩
  | .local _ .vmem, ⟨38, _⟩ => ⟨S2000x128, .f32⟩
  | .local _ .vmem, ⟨39, _⟩ => ⟨S5000x128, .f32⟩
  | .local _ .vmem, ⟨40, _⟩ => ⟨S5000x128, .f32⟩
  | .local _ .vmem, ⟨41, _⟩ => ⟨S128x128, .bf16⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S2000x128, .f32⟩
  | .local _ .vmem, ⟨46, _⟩ => ⟨S2000x128, .f32⟩
  | .local _ .vmem, ⟨47, _⟩ => ⟨S2000x1, .i32⟩
  | .local _ .vmem, ⟨48, _⟩ => ⟨S2000x1, .i32⟩
  | .local _ .vmem, ⟨49, _⟩ => ⟨S128x1, .bf16⟩
  | .local _ .vmem, ⟨50, _⟩ => ⟨S1x1, .f32⟩
  | .local _ .vmem, ⟨51, _⟩ => ⟨S1024x1, .f32⟩
  | .local _ .vmem, ⟨52, _⟩ => ⟨S128x1024, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_3 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_c_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61_0 : Ref sig .tc := ⟨.hbm, 84, rfl⟩
abbrev main_v61_1 : Ref sig .tc := ⟨.hbm, 85, rfl⟩
abbrev main_v62 : Ref sig .tc := ⟨.hbm, 86, rfl⟩
abbrev main_c_8 : Ref sig .tc := ⟨.hbm, 87, rfl⟩
abbrev main_v63 : Ref sig .tc := ⟨.hbm, 88, rfl⟩
abbrev main_v64 : Ref sig .tc := ⟨.hbm, 89, rfl⟩
abbrev main_c_9 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_10 : Ref sig .tc := ⟨.hbm, 100, rfl⟩
abbrev main_v74 : Ref sig .tc := ⟨.hbm, 101, rfl⟩
abbrev main_v75 : Ref sig .tc := ⟨.hbm, 102, rfl⟩
abbrev main_c_11 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_12 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92_0 : Ref sig .tc := ⟨.hbm, 121, rfl⟩
abbrev main_v92_1 : Ref sig .tc := ⟨.hbm, 122, rfl⟩
abbrev main_v93 : Ref sig .tc := ⟨.hbm, 123, rfl⟩
abbrev main_c_13 : Ref sig .tc := ⟨.hbm, 124, rfl⟩
abbrev main_v94 : Ref sig .tc := ⟨.hbm, 125, rfl⟩
abbrev main_v95 : Ref sig .tc := ⟨.hbm, 126, rfl⟩
abbrev main_c_14 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_c_15 : Ref sig .tc := ⟨.hbm, 137, rfl⟩
abbrev main_v105 : Ref sig .tc := ⟨.hbm, 138, rfl⟩
abbrev main_v106 : Ref sig .tc := ⟨.hbm, 139, rfl⟩
abbrev main_c_16 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_17 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc3_stg5_0 : Ref sig .tc := ⟨.vmem, 29, rfl⟩
abbrev cc3_stg5_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg4_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_scratch0 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem4_1 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem4_1 : DmaSem sig := 28
abbrev cc3_sem5_0 : DmaSem sig := 29
abbrev cc3_sem5_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem4_0 : DmaSem sig := 37
abbrev cc4_sem4_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem3_0 : DmaSem sig := 43
abbrev cc5_sem3_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem3_0 : DmaSem sig := 50
abbrev cc6_sem4_0 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def k6_cond2 (i : grid6.Coords) : BitVec 1 :=
  let arg0 : BitVec 32 := BitVec.ofNat 32 (i 0).val
  let c24_i32 : BitVec 32 := 24#32
  let v21 : BitVec 1 := Scalar.cmpi .eq arg0 c24_i32
  let v22 : BitVec 32 := Scalar.extui v21
  let c0_i32_8 : BitVec 32 := 0#32
  let v23 : BitVec 1 := Scalar.cmpi .ne v22 c0_i32_8
  v23

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x1 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1024x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  pads_S100x128_S128x128_0280_000 : S100x128.Pads (![0, 0] : Fin 2 → Nat) ![28, 0] ![0, 0] S128x128
  h_S_ : 0 < S_.numel
  bitsLt_bf16_f32 : FTy.bits .bf16 < FTy.bits .f32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x128_S5000x128_0_0 : ∀ a, (![0, 0] : Fin 2 → Nat) a + S5000x128.size a ≤ S5000x128.size a
  h_S5000x128 : 0 < S5000x128.numel
  bcast_S_S3x100x1 : S_.BroadcastsInDim S3x100x1 (![] : Fin 0 → Fin S3x100x1.rank)
  shapeCasts_S3x100x1_S3x100 : S3x100x1.ShapeCasts S3x100
  transposes_S3x100_S100x3_1_0 : S3x100.Transposes [1, 0] S100x3
  bcast_S_S50000 : S_.BroadcastsInDim S50000 (![] : Fin 0 → Fin S50000.rank)
  bcast_S50000_S50000x1_0 : S50000.BroadcastsInDim S50000x1 (![0] : Fin 1 → Fin S50000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S50000x3_S50000x1_0_0 : S50000x3.Slices ![0, 0] S50000x1
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_1_0_0 : S3x128x128.Slices ![1, 0, 0] S1x128x128
  slices_S3x128_S1x128_1_0 : S3x128.Slices ![1, 0] S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  broadcasts_S1x128_S2000x128 : S1x128.Broadcasts S2000x128
  slices_S50000x3_S50000x1_0_1 : S50000x3.Slices ![0, 1] S50000x1
  slices_S3x128x128_S1x128x128_2_0_0 : S3x128x128.Slices ![2, 0, 0] S1x128x128
  slices_S3x128_S1x128_2_0 : S3x128.Slices ![2, 0] S1x128
  slices_S50000x3_S50000x1_0_2 : S50000x3.Slices ![0, 2] S50000x1
  slices_S2x128x128_S1x128x128_0_0_0 : S2x128x128.Slices ![0, 0, 0] S1x128x128
  slices_S2x128_S1x128_0_0 : S2x128.Slices ![0, 0] S1x128
  slices_S2x128x128_S1x128x128_1_0_0 : S2x128x128.Slices ![1, 0, 0] S1x128x128
  slices_S2x128_S1x128_1_0 : S2x128.Slices ![1, 0] S1x128
  shapeCasts_S1_S1x1 : S1.ShapeCasts S1x1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x1024_d1_w32 : S2000x1024.Iotas .tc 32 [1]
  broadcasts_S2000x1_S2000x1024 : S2000x1.Broadcasts S2000x1024
  transposes_S2000x128_p1_0_S128x2000 : S2000x128.Transposes [1, 0] S128x2000
  transposes_S128x1024_p1_0_S1024x128 : S128x1024.Transposes [1, 0] S1024x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S1024x1_S1024 : S1024x1.ShapeCasts S1024
  dot_S5000x128_S128x128_S5000x128_1_0_0_1_n_n_wf : DotDims.WF S5000x128 S128x128 S5000x128 [1] [0] [0] [1] [] []
  gather_S100x3_S50000x1_S50000x3_1_0_n_n_0_1_13_wf : GatherDims.WF S100x3 S50000x1 S50000x3 [1] [0] [] [0] [] 1 ![1, 3]
  gather_S50000x1_S800000x1_S800000x1_1_0_n_n_0_1_11_wf : GatherDims.WF S50000x1 S800000x1 S800000x1 [1] [0] [] [0] [] 1 ![1, 1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S128x2000_S2000x1024_S128x1024_1_0_0_1_n_n_wf : DotDims.WF S128x2000 S2000x1024 S128x1024 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .i32 = 32 ∨ (Rect.block (s := S50000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .bf16 = 32 ∨ (Rect.block (s := S128x128) S128x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S50000x1.size a
  hwx6_1 : ∀ i : grid6.Coords, EltTy.bits .i32 = 32 ∨ (Rect.block (s := S50000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x1.size a ≤ S128x1.size a
  hwx6_2 : ∀ i : grid6.Coords, EltTy.bits .bf16 = 32 ∨ (Rect.block (s := S128x1) S128x1.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1024x1.size a ≤ S1024x1.size a
  hwx6_4 : ∀ i : grid6.Coords, EltTy.bits .f32 = 32 ∨ (Rect.block (s := S1024x1) S1024x1.size (cc6_transform_4 i) (hinb6_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100x3_S50000x1_S50000x3_1_0_n_n_0_1_13 : GatherDims S100x3 S50000x1 S50000x3 where
  offsetDims := [1]
  collapsedSliceDims := [0]
  operandBatchingDims := []
  startIndicesBatchingDims := []
  startIndexMap := [0]
  indexVectorDim := 1
  sliceSizes := ![1, 3]
  wf := gather_S100x3_S50000x1_S50000x3_1_0_n_n_0_1_13_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S128x2000_S2000x1024_S128x1024_1_0_0_1_n_n : DotDims S128x2000 S2000x1024 S128x1024 where
  lhsContracting := [1]
  rhsContracting := [0]
  lhsNonContracting := [0]
  rhsNonContracting := [1]
  lhsBatch := []
  rhsBatch := []
  wf := dot_S128x2000_S2000x1024_S128x1024_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_v4) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v61_1) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v85) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v88) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v92_0) S2000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v92_1) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v116) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92_0) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v119) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v122) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v123) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v123) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v126) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v129) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v130) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v130) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v5) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v131) S128x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v132) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v133) S1024x1.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

class Facts : Prop extends Facts₀ where

variable [Facts]
-- ==== ReferenceIdeal.lean ====
abbrev S50000 : Shape := ⟨1, ![50000]⟩
abbrev S2x800000 : Shape := ⟨2, ![2, 800000]⟩
abbrev S800000x1 : Shape := ⟨2, ![800000, 1]⟩
abbrev S100x128 : Shape := ⟨2, ![100, 128]⟩
abbrev S3x100x1 : Shape := ⟨3, ![3, 100, 1]⟩
abbrev S3x128x128 : Shape := ⟨3, ![3, 128, 128]⟩
abbrev S3x128 : Shape := ⟨2, ![3, 128]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x128 : Shape := ⟨2, ![50000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x100x1 : Shape := ⟨3, ![1, 100, 1]⟩
abbrev S100x1 : Shape := ⟨2, ![100, 1]⟩
abbrev S800000x128 : Shape := ⟨2, ![800000, 128]⟩
abbrev S1024x128 : Shape := ⟨2, ![1024, 128]⟩
abbrev S1024x1 : Shape := ⟨2, ![1024, 1]⟩
abbrev S1x1 : Shape := ⟨2, ![1, 1]⟩
abbrev S1024 : Shape := ⟨1, ![1024]⟩

abbrev nBuf : Space → Nat
  | .hbm => 263
  | .vmem => 0
  | .smem => 0
  | _ => 0

abbrev hbmTy0_0 (i : Nat) : BufTy := match i % 128 with
  | 0 => ⟨S50000, .i32⟩
  | 1 => ⟨S2x800000, .i32⟩
  | 2 => ⟨S800000x1, .f32⟩
  | 3 => ⟨S50000, .i32⟩
  | 4 => ⟨S100x128, .f32⟩
  | 5 => ⟨S3x100x1, .f32⟩
  | 6 => ⟨S3x128x128, .f32⟩
  | 7 => ⟨S3x128, .f32⟩
  | 8 => ⟨S2x128x128, .f32⟩
  | 9 => ⟨S2x128, .f32⟩
  | 10 => ⟨S128x1, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S50000, .i32⟩
  | 18 => ⟨S50000, .i1⟩
  | 19 => ⟨S_, .i32⟩
  | 20 => ⟨S50000, .i32⟩
  | 21 => ⟨S50000, .i32⟩
  | 22 => ⟨S50000, .i32⟩
  | 23 => ⟨S50000x1, .i32⟩
  | 24 => ⟨S50000x128, .f32⟩
  | 25 => ⟨S1x128x128, .f32⟩
  | 26 => ⟨S128x128, .f32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S1x100x1, .f32⟩
  | 37 => ⟨S100x1, .f32⟩
  | 38 => ⟨S100x1, .f32⟩
  | 39 => ⟨S100x1, .f32⟩
  | 40 => ⟨S_, .f32⟩
  | 41 => ⟨S100x1, .f32⟩
  | 42 => ⟨S100x1, .f32⟩
  | 43 => ⟨S_, .f32⟩
  | 44 => ⟨S100x1, .f32⟩
  | 45 => ⟨S100x1, .f32⟩
  | 46 => ⟨S_, .i32⟩
  | 47 => ⟨S50000, .i32⟩
  | 48 => ⟨S50000, .i1⟩
  | 49 => ⟨S_, .i32⟩
  | 50 => ⟨S50000, .i32⟩
  | 51 => ⟨S50000, .i32⟩
  | 52 => ⟨S50000, .i32⟩
  | 53 => ⟨S50000x1, .i32⟩
  | 54 => ⟨S50000x1, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x1, .f32⟩
  | 64 => ⟨S800000x1, .f32⟩
  | 65 => ⟨S800000x1, .f32⟩
  | 66 => ⟨S800000x1, .f32⟩
  | 67 => ⟨S800000x1, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S800000x128, .f32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S50000x128, .f32⟩
  | 84 => ⟨S50000x128, .f32⟩
  | 85 => ⟨S_, .f32⟩
  | 86 => ⟨S50000, .f32⟩
  | 87 => ⟨S50000x1, .f32⟩
  | 88 => ⟨S50000x1, .f32⟩
  | 89 => ⟨S_, .f32⟩
  | 90 => ⟨S50000x1, .f32⟩
  | 91 => ⟨S50000x1, .f32⟩
  | 92 => ⟨S50000x128, .f32⟩
  | 93 => ⟨S50000x128, .f32⟩
  | 94 => ⟨S1x128x128, .f32⟩
  | 95 => ⟨S128x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S1x100x1, .f32⟩
  | 106 => ⟨S100x1, .f32⟩
  | 107 => ⟨S100x1, .f32⟩
  | 108 => ⟨S100x1, .f32⟩
  | 109 => ⟨S_, .f32⟩
  | 110 => ⟨S100x1, .f32⟩
  | 111 => ⟨S100x1, .f32⟩
  | 112 => ⟨S_, .f32⟩
  | 113 => ⟨S100x1, .f32⟩
  | 114 => ⟨S100x1, .f32⟩
  | 115 => ⟨S_, .i32⟩
  | 116 => ⟨S50000, .i32⟩
  | 117 => ⟨S50000, .i1⟩
  | 118 => ⟨S_, .i32⟩
  | 119 => ⟨S50000, .i32⟩
  | 120 => ⟨S50000, .i32⟩
  | 121 => ⟨S50000, .i32⟩
  | 122 => ⟨S50000x1, .i32⟩
  | 123 => ⟨S50000x1, .f32⟩
  | 124 => ⟨S_, .i32⟩
  | 125 => ⟨S800000, .i32⟩
  | 126 => ⟨S800000, .i1⟩
  | 127 => ⟨S_, .i32⟩
  | _ => ⟨S50000, .i32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x1, .f32⟩
  | 5 => ⟨S800000x1, .f32⟩
  | 6 => ⟨S800000x1, .f32⟩
  | 7 => ⟨S800000x1, .f32⟩
  | 8 => ⟨S800000x1, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S800000x128, .f32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S50000x128, .f32⟩
  | 25 => ⟨S50000x128, .f32⟩
  | 26 => ⟨S_, .f32⟩
  | 27 => ⟨S50000, .f32⟩
  | 28 => ⟨S50000x1, .f32⟩
  | 29 => ⟨S50000x1, .f32⟩
  | 30 => ⟨S_, .f32⟩
  | 31 => ⟨S50000x1, .f32⟩
  | 32 => ⟨S50000x1, .f32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S1x100x1, .f32⟩
  | 47 => ⟨S100x1, .f32⟩
  | 48 => ⟨S100x1, .f32⟩
  | 49 => ⟨S100x1, .f32⟩
  | 50 => ⟨S_, .f32⟩
  | 51 => ⟨S100x1, .f32⟩
  | 52 => ⟨S100x1, .f32⟩
  | 53 => ⟨S_, .f32⟩
  | 54 => ⟨S100x1, .f32⟩
  | 55 => ⟨S100x1, .f32⟩
  | 56 => ⟨S_, .i32⟩
  | 57 => ⟨S50000, .i32⟩
  | 58 => ⟨S50000, .i1⟩
  | 59 => ⟨S_, .i32⟩
  | 60 => ⟨S50000, .i32⟩
  | 61 => ⟨S50000, .i32⟩
  | 62 => ⟨S50000, .i32⟩
  | 63 => ⟨S50000x1, .i32⟩
  | 64 => ⟨S50000x1, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x1, .f32⟩
  | 74 => ⟨S800000x1, .f32⟩
  | 75 => ⟨S800000x1, .f32⟩
  | 76 => ⟨S800000x1, .f32⟩
  | 77 => ⟨S800000x1, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S800000x128, .f32⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S50000x128, .f32⟩
  | 94 => ⟨S50000x128, .f32⟩
  | 95 => ⟨S_, .f32⟩
  | 96 => ⟨S50000, .f32⟩
  | 97 => ⟨S50000x1, .f32⟩
  | 98 => ⟨S50000x1, .f32⟩
  | 99 => ⟨S_, .f32⟩
  | 100 => ⟨S50000x1, .f32⟩
  | 101 => ⟨S50000x1, .f32⟩
  | 102 => ⟨S50000x128, .f32⟩
  | 103 => ⟨S50000x128, .f32⟩
  | 104 => ⟨S1x128x128, .f32⟩
  | 105 => ⟨S128x128, .f32⟩
  | 106 => ⟨S50000x128, .f32⟩
  | 107 => ⟨S1x128, .f32⟩
  | 108 => ⟨S128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S1x128x128, .f32⟩
  | 116 => ⟨S128x128, .f32⟩
  | 117 => ⟨S50000x128, .f32⟩
  | 118 => ⟨S1x128, .f32⟩
  | 119 => ⟨S128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S_, .f32⟩
  | 127 => ⟨S1024x128, .f32⟩
  | _ => ⟨S50000, .i32⟩

abbrev hbmTy0_2 (i : Nat) : BufTy := match i % 128 with
  | 0 => ⟨S50000x1, .i32⟩
  | 1 => ⟨S1024x128, .f32⟩
  | 2 => ⟨S1024x1, .f32⟩
  | 3 => ⟨S1x1, .f32⟩
  | 4 => ⟨S1024x1, .f32⟩
  | 5 => ⟨S1024x1, .f32⟩
  | 6 => ⟨S1024, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_c_2 : Ref sig .tc := ⟨.hbm, 46, rfl⟩
abbrev main_v28 : Ref sig .tc := ⟨.hbm, 47, rfl⟩
abbrev main_v29 : Ref sig .tc := ⟨.hbm, 48, rfl⟩
abbrev main_c_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_6 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_v0 : Ref sig .tc := ⟨.hbm, 84, rfl⟩
abbrev main_call1_cst : Ref sig .tc := ⟨.hbm, 85, rfl⟩
abbrev main_call1_v1 : Ref sig .tc := ⟨.hbm, 86, rfl⟩
abbrev main_call1_v2 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call2_cst : Ref sig .tc := ⟨.hbm, 102, rfl⟩
abbrev main_call2_v0 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_10 : Ref sig .tc := ⟨.hbm, 109, rfl⟩
abbrev main_v77 : Ref sig .tc := ⟨.hbm, 110, rfl⟩
abbrev main_v78 : Ref sig .tc := ⟨.hbm, 111, rfl⟩
abbrev main_cst_11 : Ref sig .tc := ⟨.hbm, 112, rfl⟩
abbrev main_v79 : Ref sig .tc := ⟨.hbm, 113, rfl⟩
abbrev main_v80 : Ref sig .tc := ⟨.hbm, 114, rfl⟩
abbrev main_c_12 : Ref sig .tc := ⟨.hbm, 115, rfl⟩
abbrev main_v81 : Ref sig .tc := ⟨.hbm, 116, rfl⟩
abbrev main_v82 : Ref sig .tc := ⟨.hbm, 117, rfl⟩
abbrev main_c_13 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_14 : Ref sig .tc := ⟨.hbm, 124, rfl⟩
abbrev main_v88 : Ref sig .tc := ⟨.hbm, 125, rfl⟩
abbrev main_v89 : Ref sig .tc := ⟨.hbm, 126, rfl⟩
abbrev main_c_15 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_16 : Ref sig .tc := ⟨.hbm, 137, rfl⟩
abbrev main_v99 : Ref sig .tc := ⟨.hbm, 138, rfl⟩
abbrev main_v100 : Ref sig .tc := ⟨.hbm, 139, rfl⟩
abbrev main_c_17 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_18 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_call3_v0 : Ref sig .tc := ⟨.hbm, 153, rfl⟩
abbrev main_call3_cst : Ref sig .tc := ⟨.hbm, 154, rfl⟩
abbrev main_call3_v1 : Ref sig .tc := ⟨.hbm, 155, rfl⟩
abbrev main_call3_v2 : Ref sig .tc := ⟨.hbm, 156, rfl⟩
abbrev main_v112 : Ref sig .tc := ⟨.hbm, 157, rfl⟩
abbrev main_cst_19 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_call4_cst : Ref sig .tc := ⟨.hbm, 171, rfl⟩
abbrev main_call4_v0 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_20 : Ref sig .tc := ⟨.hbm, 178, rfl⟩
abbrev main_v130 : Ref sig .tc := ⟨.hbm, 179, rfl⟩
abbrev main_v131 : Ref sig .tc := ⟨.hbm, 180, rfl⟩
abbrev main_cst_21 : Ref sig .tc := ⟨.hbm, 181, rfl⟩
abbrev main_v132 : Ref sig .tc := ⟨.hbm, 182, rfl⟩
abbrev main_v133 : Ref sig .tc := ⟨.hbm, 183, rfl⟩
abbrev main_c_22 : Ref sig .tc := ⟨.hbm, 184, rfl⟩
abbrev main_v134 : Ref sig .tc := ⟨.hbm, 185, rfl⟩
abbrev main_v135 : Ref sig .tc := ⟨.hbm, 186, rfl⟩
abbrev main_c_23 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_c_24 : Ref sig .tc := ⟨.hbm, 193, rfl⟩
abbrev main_v141 : Ref sig .tc := ⟨.hbm, 194, rfl⟩
abbrev main_v142 : Ref sig .tc := ⟨.hbm, 195, rfl⟩
abbrev main_c_25 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_c_26 : Ref sig .tc := ⟨.hbm, 206, rfl⟩
abbrev main_v152 : Ref sig .tc := ⟨.hbm, 207, rfl⟩
abbrev main_v153 : Ref sig .tc := ⟨.hbm, 208, rfl⟩
abbrev main_c_27 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_cst_28 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_call5_v0 : Ref sig .tc := ⟨.hbm, 222, rfl⟩
abbrev main_call5_cst : Ref sig .tc := ⟨.hbm, 223, rfl⟩
abbrev main_call5_v1 : Ref sig .tc := ⟨.hbm, 224, rfl⟩
abbrev main_call5_v2 : Ref sig .tc := ⟨.hbm, 225, rfl⟩
abbrev main_v165 : Ref sig .tc := ⟨.hbm, 226, rfl⟩
abbrev main_cst_29 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_call6_cst : Ref sig .tc := ⟨.hbm, 240, rfl⟩
abbrev main_call6_v0 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_call7_cst : Ref sig .tc := ⟨.hbm, 251, rfl⟩
abbrev main_call7_v0 : Ref sig .tc := ⟨.hbm, 252, rfl⟩
abbrev main_v187 : Ref sig .tc := ⟨.hbm, 253, rfl⟩
abbrev main_cst_30 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x100x1_S1x100x1_0_0_0 : S3x100x1.Slices ![0, 0, 0] S1x100x1
  shapeCasts_S1x100x1_S100x1 : S1x100x1.ShapeCasts S100x1
  bcast_S_S100x1 : S_.BroadcastsInDim S100x1 (![] : Fin 0 → Fin S100x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x100x1_S1x100x1_1_0_0 : S3x100x1.Slices ![1, 0, 0] S1x100x1
  slices_S3x128x128_S1x128x128_2_0_0 : S3x128x128.Slices ![2, 0, 0] S1x128x128
  slices_S3x128_S1x128_2_0 : S3x128.Slices ![2, 0] S1x128
  slices_S3x100x1_S1x100x1_2_0_0 : S3x100x1.Slices ![2, 0, 0] S1x100x1
  slices_S2x128x128_S1x128x128_0_0_0 : S2x128x128.Slices ![0, 0, 0] S1x128x128
  slices_S2x128_S1x128_0_0 : S2x128.Slices ![0, 0] S1x128
  slices_S2x128x128_S1x128x128_1_0_0 : S2x128x128.Slices ![1, 0, 0] S1x128x128
  slices_S2x128_S1x128_1_0 : S2x128.Slices ![1, 0] S1x128
  bcast_S_S1024x128 : S_.BroadcastsInDim S1024x128 (![] : Fin 0 → Fin S1024x128.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  gather_S100x128_S50000x1_S50000x128_1_0_n_n_0_1_1128_wf : GatherDims.WF S100x128 S50000x1 S50000x128 [1] [0] [] [0] [] 1 ![1, 128]
  dot_S50000x128_S128x128_S50000x128_1_0_0_1_n_n_wf : DotDims.WF S50000x128 S128x128 S50000x128 [1] [0] [0] [1] [] []
  gather_S100x1_S50000x1_S50000x1_1_0_n_n_0_1_11_wf : GatherDims.WF S100x1 S50000x1 S50000x1 [1] [0] [] [0] [] 1 ![1, 1]
  gather_S50000x1_S800000x1_S800000x1_1_0_n_n_0_1_11_wf : GatherDims.WF S50000x1 S800000x1 S800000x1 [1] [0] [] [0] [] 1 ![1, 1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S1024x128_S50000x1_S50000x128_1_0_0_1_wf : ScatterDims.WF S1024x128 S50000x1 S50000x128 [1] [0] [0] 1
  dot_S1024x128_S128x1_S1024x1_1_0_0_1_n_n_wf : DotDims.WF S1024x128 S128x1 S1024x1 [1] [0] [0] [1] [] []

variable [Facts₀]

def gather_S100x128_S50000x1_S50000x128_1_0_n_n_0_1_1128 : GatherDims S100x128 S50000x1 S50000x128 where
  offsetDims := [1]
  collapsedSliceDims := [0]
  operandBatchingDims := []
  startIndicesBatchingDims := []
  startIndexMap := [0]
  indexVectorDim := 1
  sliceSizes := ![1, 128]
  wf := gather_S100x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S100x1_S50000x1_S50000x1_1_0_n_n_0_1_11 : GatherDims S100x1 S50000x1 S50000x1 where
  offsetDims := [1]
  collapsedSliceDims := [0]
  operandBatchingDims := []
  startIndicesBatchingDims := []
  startIndexMap := [0]
  indexVectorDim := 1
  sliceSizes := ![1, 1]
  wf := gather_S100x1_S50000x1_S50000x1_1_0_n_n_0_1_11_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

class Facts : Prop extends Facts₀ where

variable [Facts]
-- ==== Proof.RefRun.W0.lean ====
import proofs.«425171_j32186484916934_3_alg».proof.Proof.RefRun.Ops
import proofs.«425171_j32186484916934_3_alg».proof.Proof.RefRead

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
theorem val1_v1 (V0 : Valuation τ sig (Elt F)) :
    val1 V0 (Proc.devRef .tc main_v1) = Cert.ReferenceIdeal.Read.val_main_v1 (F := F) (V0 (Proc.devRef .tc main_arg1)) := by
  unfold val1
  simp only [ops_part0]
  (try dsimp only [Matrix.cons_val])
  after_results_simp
  simp only [val0] <;> rfl

set_option maxRecDepth 8192 in
set_option maxHeartbeats 2000000 in
theorem val1_v3 (V0 : Valuation τ sig (Elt F)) :
    val1 V0 (Proc.devRef .tc main_v3) = Cert.ReferenceIdeal.Read.val_main_v3 (F := F) (V0 (Proc.devRef .tc main_arg1)) := by
  unfold val1
  simp only [ops_part0]
  (try dsimp only [Matrix.cons_val])
  after_results_simp
  simp only [val0] <;> rfl

set_option maxRecDepth 8192 in
set_option maxHeartbeats 2000000 in
theorem val1_v10 (V0 : Valuation τ sig (Elt F)) :
    val1 V0 (Proc.devRef .tc main_v10) = Cert.ReferenceIdeal.Read.val_main_v10 (F := F) (V0 (Proc.devRef .tc main_arg0)) (V0 (Proc.devRef .tc main_arg4)) := by
  unfold val1
  simp only [ops_part0]
  (try dsimp only [Matrix.cons_val])
  after_results_simp
  simp only [val0] <;> rfl

set_option maxRecDepth 8192 in
set_option maxHeartbeats 2000000 in
theorem val1_v19 (V0 : Valuation τ sig (Elt F)) :
    val1 V0 (Proc.devRef .tc main_v19) = Cert.ReferenceIdeal.Read.val_main_v19 (F := F) (V0 (Proc.devRef .tc main_arg0)) (V0 (Proc.devRef .tc main_arg4)) (V0 (Proc.devRef .tc main_arg6)) (V0 (Proc.devRef .tc main_arg7)) := by
  unfold val1
  simp only [ops_part0]
  (try dsimp only [Matrix.cons_val])
  after_results_simp
  simp only [val0] <;> rfl

set_option maxRecDepth 8192 in
set_option maxHeartbeats 2000000 in
theorem val1_v45 (V0 : Valuation τ sig (Elt F)) :
    val1 V0 (Proc.devRef .tc main_v45) = Cert.ReferenceIdeal.Read.val_main_v45 (F := F) (V0 (Proc.devRef .tc main_arg0)) (V0 (Proc.devRef .tc main_arg1)) (V0 (Proc.devRef .tc main_arg2)) (V0 (Proc.devRef .tc main_arg5)) := by
  unfold val1
  simp only [ops_part0]
  (try dsimp only [Matrix.cons_val])
  after_results_simp
  simp only [val0] <;> rfl

set_option maxRecDepth 8192 in
set_option maxHeartbeats 2000000 in
theorem val1_v47 (V0 : Valuation τ sig (Elt F)) :
    val1 V0 (Proc.devRef .tc main_v47) = Cert.ReferenceIdeal.Read.val_main_v47 (F := F) (V0 (Proc.devRef .tc main_arg1)) := by
  unfold val1
  simp only [ops_part0]
  (try dsimp only [Matrix.cons_val])
  after_results_simp
  simp only [val0] <;> rfl

set_option maxRecDepth 8192 in
set_option maxHeartbeats 2000000 in
theorem val1_v49 (V0 : Valuation τ sig (Elt F)) :
    val1 V0 (Proc.devRef .tc main_v49) = Cert.ReferenceIdeal.Read.val_main_v49 (F := F) (V0 (Proc.devRef .tc main_arg1)) := by
  unfold val1
  simp only [ops_part0]
  (try dsimp only [Matrix.cons_val])
  after_results_simp
  simp only [val0] <;> rfl

end Cert.ReferenceIdeal.RunW

end
-- ==== Proof.RefRun.W1.lean ====
import proofs.«425171_j32186484916934_3_alg».proof.Proof.RefRun.Ops
import proofs.«425171_j32186484916934_3_alg».proof.Proof.RefRead
import proofs.«425171_j32186484916934_3_alg».proof.Proof.RefRun.W0

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

private theorem r1_v1 (V0 : Valuation τ sig (Elt F)) : val1 V0 (no_index (Proc.devRef .tc main_v1)) = Cert.ReferenceIdeal.Read.val_main_v1 (F := F) (V0 (Proc.devRef .tc main_arg1)) := val1_v1 V0
private theorem r1_v3 (V0 : Valuation τ sig (Elt F)) : val1 V0 (no_index (Proc.devRef .tc main_v3)) = Cert.ReferenceIdeal.Read.val_main_v3 (F := F) (V0 (Proc.devRef .tc main_arg1)) := val1_v3 V0
private theorem r1_v10 (V0 : Valuation τ sig (Elt F)) : val1 V0 (no_index (Proc.devRef .tc main_v10)) = Cert.ReferenceIdeal.Read.val_main_v10 (F := F) (V0 (Proc.devRef .tc main_arg0)) (V0 (Proc.devRef .tc main_arg4)) := val1_v10 V0
private theorem r1_v19 (V0 : Valuation τ sig (Elt F)) : val1 V0 (no_index (Proc.devRef .tc main_v19)) = Cert.ReferenceIdeal.Read.val_main_v19 (F := F) (V0 (Proc.devRef .tc main_arg0)) (V0 (Proc.devRef .tc main_arg4)) (V0 (Proc.devRef .tc main_arg6)) (V0 (Proc.devRef .tc main_arg7)) := val1_v19 V0
private theorem r1_v45 (V0 : Valuation τ sig (Elt F)) : val1 V0 (no_index (Proc.devRef .tc main_v45)) = Cert.ReferenceIdeal.Read.val_main_v45 (F := F) (V0 (Proc.devRef .tc main_arg0)) (V0 (Proc.devRef .tc main_arg1)) (V0 (Proc.devRef .tc main_arg2)) (V0 (Proc.devRef .tc main_arg5)) := val1_v45 V0
private theorem r1_v47 (V0 : Valuation τ sig (Elt F)) : val1 V0 (no_index (Proc.devRef .tc main_v47)) = Cert.ReferenceIdeal.Read.val_main_v47 (F := F) (V0 (Proc.devRef .tc main_arg1)) := val1_v47 V0
private theorem r1_v49 (V0 : Valuation τ sig (Elt F)) : val1 V0 (no_index (Proc.devRef .tc main_v49)) = Cert.ReferenceIdeal.Read.val_main_v49 (F := F) (V0 (Proc.devRef .tc main_arg1)) := val1_v49 V0

private theorem r1_arg0 (V0 : Valuation τ sig (Elt F)) : val1 V0 (no_index (Proc.devRef .tc main_arg0)) = V0 (Proc.devRef .tc main_arg0) :=
  val1_keep V0 main_arg0 (by decide)
private theorem r1_arg2 (V0 : Valuation τ sig (Elt F)) : val1 V0 (no_index (Proc.devRef .tc main_arg2)) = V0 (Proc.devRef .tc main_arg2) :=
  val1_keep V0 main_arg2 (by decide)
private theorem r1_arg5 (V0 : Valuation τ sig (Elt F)) : val1 V0 (no_index (Proc.devRef .tc main_arg5)) = V0 (Proc.devRef .tc main_arg5) :=
  val1_keep V0 main_arg5 (by decide)
private theorem r1_arg6 (V0 : Valuation τ sig (Elt F)) : val1 V0 (no_index (Proc.devRef .tc main_arg6)) = V0 (Proc.devRef .tc main_arg6) :=
  val1_keep V0 main_arg6 (by decide)
private theorem r1_arg7 (V0 : Valuation τ sig (Elt F)) : val1 V0 (no_index (Proc.devRef .tc main_arg7)) = V0 (Proc.devRef .tc main_arg7) :=
  val1_keep V0 main_arg7 (by decide)

theorem val2_v1 (V0 : Valuation τ sig (Elt F)) : val2 V0 (Proc.devRef .tc main_v1) = Cert.ReferenceIdeal.Read.val_main_v1 (F := F) (V0 (Proc.devRef .tc main_arg1)) :=
  (val2_keep V0 main_v1 (by decide)).trans (val1_v1 V0)
theorem val2_v3 (V0 : Valuation τ sig (Elt F)) : val2 V0 (Proc.devRef .tc main_v3) = Cert.ReferenceIdeal.Read.val_main_v3 (F := F) (V0 (Proc.devRef .tc main_arg1)) :=
  (val2_keep V0 main_v3 (by decide)).trans (val1_v3 V0)

set_option maxRecDepth 8192 in
set_option maxHeartbeats 2000000 in
theorem val2_v63 (V0 : Valuation τ sig (Elt F)) : val2 V0 (Proc.devRef .tc main_v63) = Cert.ReferenceIdeal.Read.val_main_v63 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) := by
  unfold val2
  simp only [ops_part1]
  after_results_simp
  simp only [r1_v1, r1_v3, r1_v10, r1_v19, r1_v45, r1_v47, r1_v49, r1_arg0, r1_arg2, r1_arg5, r1_arg6, r1_arg7] <;> rfl

set_option maxRecDepth 8192 in
set_option maxHeartbeats 2000000 in
theorem val2_v72 (V0 : Valuation τ sig (Elt F)) : val2 V0 (Proc.devRef .tc main_v72) = Cert.ReferenceIdeal.Read.val_main_v72 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) := by
  unfold val2
  simp only [ops_part1]
  after_results_simp
  simp only [r1_v1, r1_v3, r1_v10, r1_v19, r1_v45, r1_v47, r1_v49, r1_arg0, r1_arg2, r1_arg5, r1_arg6, r1_arg7] <;> rfl

set_option maxRecDepth 8192 in
set_option maxHeartbeats 2000000 in
theorem val2_v98 (V0 : Valuation τ sig (Elt F)) : val2 V0 (Proc.devRef .tc main_v98) = Cert.ReferenceIdeal.Read.val_main_v98 (F := F) (V0 (Proc.devRef .tc main_arg0)) (V0 (Proc.devRef .tc main_arg1)) (V0 (Proc.devRef .tc main_arg2)) (V0 (Proc.devRef .tc main_arg5)) := by
  unfold val2
  simp only [ops_part1]
  after_results_simp
  simp only [r1_v1, r1_v3, r1_v10, r1_v19, r1_v45, r1_v47, r1_v49, r1_arg0, r1_arg2, r1_arg5, r1_arg6, r1_arg7] <;> rfl

set_option maxRecDepth 8192 in
set_option maxHeartbeats 2000000 in
theorem val2_v100 (V0 : Valuation τ sig (Elt F)) : val2 V0 (Proc.devRef .tc main_v100) = Cert.ReferenceIdeal.Read.val_main_v100 (F := F) (V0 (Proc.devRef .tc main_arg1)) := by
  unfold val2
  simp only [ops_part1]
  after_results_simp
  simp only [r1_v1, r1_v3, r1_v10, r1_v19, r1_v45, r1_v47, r1_v49, r1_arg0, r1_arg2, r1_arg5, r1_arg6, r1_arg7] <;> rfl

end Cert.ReferenceIdeal.RunW

end
-- ==== Proof.RefRun.W2.lean ====
import proofs.«425171_j32186484916934_3_alg».proof.Proof.RefRun.Ops
import proofs.«425171_j32186484916934_3_alg».proof.Proof.RefRead
import proofs.«425171_j32186484916934_3_alg».proof.Proof.RefRun.W1

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

theorem w2_kept (V0 : Valuation τ sig (Elt F)) (r : Ref sig .tc) (h0 : r ∉ ops_part0_W) (h1 : r ∉ ops_part1_W) :
    val2 V0 (Proc.devRef .tc r) = V0 (Proc.devRef .tc r) :=
  (val2_keep V0 r h1).trans (val1_keep V0 r h0)

theorem w2_arg0 (V0 : Valuation τ sig (Elt F)) : val2 V0 (no_index (Proc.devRef .tc main_arg0)) = V0 (Proc.devRef .tc main_arg0) :=
  w2_kept V0 main_arg0 (by decide) (by decide)
theorem w2_arg2 (V0 : Valuation τ sig (Elt F)) : val2 V0 (no_index (Proc.devRef .tc main_arg2)) = V0 (Proc.devRef .tc main_arg2) :=
  w2_kept V0 main_arg2 (by decide) (by decide)
theorem w2_arg5 (V0 : Valuation τ sig (Elt F)) : val2 V0 (no_index (Proc.devRef .tc main_arg5)) = V0 (Proc.devRef .tc main_arg5) :=
  w2_kept V0 main_arg5 (by decide) (by decide)
theorem w2_arg6 (V0 : Valuation τ sig (Elt F)) : val2 V0 (no_index (Proc.devRef .tc main_arg6)) = V0 (Proc.devRef .tc main_arg6) :=
  w2_kept V0 main_arg6 (by decide) (by decide)
theorem w2_arg7 (V0 : Valuation τ sig (Elt F)) : val2 V0 (no_index (Proc.devRef .tc main_arg7)) = V0 (Proc.devRef .tc main_arg7) :=
  w2_kept V0 main_arg7 (by decide) (by decide)

theorem w2_v1 (V0 : Valuation τ sig (Elt F)) : val2 V0 (no_index (Proc.devRef .tc main_v1)) = Cert.ReferenceIdeal.Read.val_main_v1 (F := F) (V0 (Proc.devRef .tc main_arg1)) := val2_v1 V0
theorem w2_v3 (V0 : Valuation τ sig (Elt F)) : val2 V0 (no_index (Proc.devRef .tc main_v3)) = Cert.ReferenceIdeal.Read.val_main_v3 (F := F) (V0 (Proc.devRef .tc main_arg1)) := val2_v3 V0
theorem w2_v63 (V0 : Valuation τ sig (Elt F)) : val2 V0 (no_index (Proc.devRef .tc main_v63)) = Cert.ReferenceIdeal.Read.val_main_v63 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) := val2_v63 V0
theorem w2_v72 (V0 : Valuation τ sig (Elt F)) : val2 V0 (no_index (Proc.devRef .tc main_v72)) = Cert.ReferenceIdeal.Read.val_main_v72 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) := val2_v72 V0
theorem w2_v98 (V0 : Valuation τ sig (Elt F)) : val2 V0 (no_index (Proc.devRef .tc main_v98)) = Cert.ReferenceIdeal.Read.val_main_v98 (F := F) (V0 (Proc.devRef .tc main_arg0)) (V0 (Proc.devRef .tc main_arg1)) (V0 (Proc.devRef .tc main_arg2)) (V0 (Proc.devRef .tc main_arg5)) := val2_v98 V0
theorem w2_v100 (V0 : Valuation τ sig (Elt F)) : val2 V0 (no_index (Proc.devRef .tc main_v100)) = Cert.ReferenceIdeal.Read.val_main_v100 (F := F) (V0 (Proc.devRef .tc main_arg1)) := val2_v100 V0

theorem val3_v1 (V0 : Valuation τ sig (Elt F)) :
    val3 V0 (Proc.devRef .tc main_v1) = Cert.ReferenceIdeal.Read.val_main_v1 (F := F) (V0 (Proc.devRef .tc main_arg1)) :=
  (val3_keep V0 main_v1 (by decide)).trans (val2_v1 V0)

theorem val3_v3 (V0 : Valuation τ sig (Elt F)) :
    val3 V0 (Proc.devRef .tc main_v3) = Cert.ReferenceIdeal.Read.val_main_v3 (F := F) (V0 (Proc.devRef .tc main_arg1)) :=
  (val3_keep V0 main_v3 (by decide)).trans (val2_v3 V0)

set_option maxRecDepth 8192 in
set_option maxHeartbeats 2000000 in
theorem val3_v116 (V0 : Valuation τ sig (Elt F)) :
    val3 V0 (Proc.devRef .tc main_v116) = Cert.ReferenceIdeal.Read.val_main_v116 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) := by
  unfold val3
  simp only [ops_part2]
  (try dsimp only [Matrix.cons_val])
  after_results_simp
  simp only [w2_v1, w2_v3, w2_v63, w2_v72, w2_v98, w2_v100] <;> rfl

set_option maxRecDepth 8192 in
set_option maxHeartbeats 2000000 in
theorem val3_v125 (V0 : Valuation τ sig (Elt F)) :
    val3 V0 (Proc.devRef .tc main_v125) = Cert.ReferenceIdeal.Read.val_main_v125 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) := by
  unfold val3
  simp only [ops_part2]
  (try dsimp only [Matrix.cons_val])
  after_results_simp
  simp only [w2_v1, w2_v3, w2_v63, w2_v72, w2_v98, w2_v100, w2_arg6, w2_arg7] <;> rfl

set_option maxRecDepth 8192 in
set_option maxHeartbeats 2000000 in
theorem val3_v151 (V0 : Valuation τ sig (Elt F)) :
    val3 V0 (Proc.devRef .tc main_v151) = Cert.ReferenceIdeal.Read.val_main_v151 (F := F) (V0 (Proc.devRef .tc main_arg0)) (V0 (Proc.devRef .tc main_arg1)) (V0 (Proc.devRef .tc main_arg2)) (V0 (Proc.devRef .tc main_arg5)) := by
  unfold val3
  simp only [ops_part2]
  (try dsimp only [Matrix.cons_val])
  after_results_simp
  simp only [w2_v3, w2_arg0, w2_arg2, w2_arg5] <;> rfl

end Cert.ReferenceIdeal.RunW

end
-- ==== Proof.RefRun.W3.lean ====
import proofs.«425171_j32186484916934_3_alg».proof.Proof.RefRun.Ops
import proofs.«425171_j32186484916934_3_alg».proof.Proof.RefRead
import proofs.«425171_j32186484916934_3_alg».proof.Proof.RefRun.W2

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

private theorem val3_of_kept (V0 : Valuation τ sig (Elt F)) (r : Ref sig .tc)
    (h0 : r ∉ ops_part0_W) (h1 : r ∉ ops_part1_W) (h2 : r ∉ ops_part2_W) :
    val3 V0 (Proc.devRef .tc r) = V0 (Proc.devRef .tc r) :=
  (val3_keep V0 r h2).trans <| (val2_keep V0 r h1).trans <| (val1_keep V0 r h0).trans rfl

set_option maxRecDepth 8192 in
set_option maxHeartbeats 2000000 in
theorem val4_v195 (V0 : Valuation τ sig (Elt F)) : val4 V0 (Proc.devRef .tc main_v195) = Cert.ReferenceIdeal.Read.val_main_v195 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  have e1 : val3 V0 (no_index (Proc.devRef .tc main_v1)) = _ := val3_v1 V0
  have e3 : val3 V0 (no_index (Proc.devRef .tc main_v3)) = _ := val3_v3 V0
  have e116 : val3 V0 (no_index (Proc.devRef .tc main_v116)) = _ := val3_v116 V0
  have e125 : val3 V0 (no_index (Proc.devRef .tc main_v125)) = _ := val3_v125 V0
  have e151 : val3 V0 (no_index (Proc.devRef .tc main_v151)) = _ := val3_v151 V0
  have a3 : val3 V0 (no_index (Proc.devRef .tc main_arg3)) = V0 (Proc.devRef .tc main_arg3) :=
    val3_of_kept V0 main_arg3 (by decide) (by decide) (by decide)
  have a8 : val3 V0 (no_index (Proc.devRef .tc main_arg8)) = V0 (Proc.devRef .tc main_arg8) :=
    val3_of_kept V0 main_arg8 (by decide) (by decide) (by decide)
  have a9 : val3 V0 (no_index (Proc.devRef .tc main_arg9)) = V0 (Proc.devRef .tc main_arg9) :=
    val3_of_kept V0 main_arg9 (by decide) (by decide) (by decide)
  have a10 : val3 V0 (no_index (Proc.devRef .tc main_arg10)) = V0 (Proc.devRef .tc main_arg10) :=
    val3_of_kept V0 main_arg10 (by decide) (by decide) (by decide)
  have a11 : val3 V0 (no_index (Proc.devRef .tc main_arg11)) = V0 (Proc.devRef .tc main_arg11) :=
    val3_of_kept V0 main_arg11 (by decide) (by decide) (by decide)
  unfold val4
  simp only [ops_part3]
  (try dsimp only [Matrix.cons_val])
  after_results_simp
  simp only [e1, e3, e116, e125, e151, a3, a8, a9, a10, a11] <;> rfl

end Cert.ReferenceIdeal.RunW

end
-- ==== Proof.RefRun.Run.lean ====
import proofs.«425171_j32186484916934_3_alg».proof.Proof.RefRun.W3

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v195) = Cert.ReferenceIdeal.Read.val_main_v195 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v195).trans (val4_v195 (launchContents m c)),
      (h c main_arg0).trans (val4_arg (launchContents m c) main_arg0),
      (h c main_arg1).trans (val4_arg (launchContents m c) main_arg1),
      (h c main_arg2).trans (val4_arg (launchContents m c) main_arg2),
      (h c main_arg3).trans (val4_arg (launchContents m c) main_arg3),
      (h c main_arg4).trans (val4_arg (launchContents m c) main_arg4),
      (h c main_arg5).trans (val4_arg (launchContents m c) main_arg5),
      (h c main_arg6).trans (val4_arg (launchContents m c) main_arg6),
      (h c main_arg7).trans (val4_arg (launchContents m c) main_arg7),
      (h c main_arg8).trans (val4_arg (launchContents m c) main_arg8),
      (h c main_arg9).trans (val4_arg (launchContents m c) main_arg9),
      (h c main_arg10).trans (val4_arg (launchContents m c) main_arg10),
      (h c main_arg11).trans (val4_arg (launchContents m c) main_arg11)⟩)
    (run_fold m ρ)

end Cert.ReferenceIdeal.RunW

end
-- ==== Proof.Fr.R0.lean ====
import proofs.«425171_j32186484916934_3_alg».proof.Proof.Gen.KernelIdeal.Launch
import proofs.«425171_j32186484916934_3_alg».proof.Proof.Gen.KernelIdeal.Skeleton
import proofs.«425171_j32186484916934_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S5000x1 := Rect.unit (s := S5000x1) ![0, 0] S5000x1.size inb_S5000x1_S5000x1_0_0
abbrev rt0 : Rect S128x128 := Rect.unit (s := S128x128) ![0, 0] S128x128.size inb_S128x128_S128x128_0_0
abbrev ro0 : Rect S5000x128 := Rect.unit (s := S5000x128) ![0, 0] S5000x128.size inb_S5000x128_S5000x128_0_0

def out0_2 (x0 : Vec F S5000x1 .i32) (x1 : Vec F S128x128 .bf16) : Vec F S5000x128 .f32 :=
  View.canon [⟨ro0, k0_pay1 (View.ld x0 rx0) (View.ld x1 rt0)⟩]

theorem cover0_2 (p0 : Vec F S5000x128 .f32) (y : S5000x128.Idx) :
    ∃ pc ∈ ([⟨ro0, p0⟩] : List (View.Piece (Elt F) S5000x128 .f32)), y ∈ pc.1.set :=
  View.cover_of_tiled [⟨ro0, p0⟩] S5000x128.size (by rfl) y

set_option maxHeartbeats 1000000 in
theorem sound_kernel0 (c : Dev nD) (E : Set ℕ) (i : grid0.Coords)
    (arg1 : Memref sig .tc .vmem S5000x1 .i32) (harg1 : arg1.IsWhole) (arg2 : Memref sig .tc .vmem S128x128 .bf16) (harg2 : arg2.IsWhole)
    (arg3 : Memref sig .tc .vmem S5000x128 .f32) (harg3 : arg3.IsWhole)
    (x0 : Vec F S5000x1 .i32) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__embed_kernel i arg1 harg1 arg2 harg2 arg3 harg3) K := by
  simp only [cc0__embed_kernel_eq_skeleton]; unfold cc0__embed_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Fr.R1.lean ====
import proofs.«425171_j32186484916934_3_alg».proof.Proof.Gen.KernelIdeal.Launch
import proofs.«425171_j32186484916934_3_alg».proof.Proof.Gen.KernelIdeal.Skeleton
import proofs.«425171_j32186484916934_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rx1 : Rect S5000x128 := Rect.unit (s := S5000x128) ![0, 0] S5000x128.size inb_S5000x128_S5000x128_0_0
abbrev rw1 : Rect S128x128 := Rect.unit (s := S128x128) ![0, 0] S128x128.size inb_S128x128_S128x128_0_0
abbrev rb1 : Rect S1x128 := Rect.unit (s := S1x128) ![0, 0] S1x128.size inb_S1x128_S1x128_0_0
abbrev ro1 : Rect S5000x128 := Rect.unit (s := S5000x128) ![0, 0] S5000x128.size inb_S5000x128_S5000x128_0_0

def out1_3 (x0 : Vec F S5000x128 .f32) (x1 : Vec F S128x128 .bf16) (x2 : Vec F S1x128 .f32) : Vec F S5000x128 .f32 :=
  View.canon [⟨ro1, k1_pay1 (View.ld x0 rx1) (View.ld x1 rw1) (View.ld x2 rb1)⟩]

theorem cover1_3 (p0 : Vec F S5000x128 .f32) (y : S5000x128.Idx) :
    ∃ pc ∈ ([⟨ro1, p0⟩] : List (View.Piece (Elt F) S5000x128 .f32)), y ∈ pc.1.set :=
  View.cover_of_tiled [⟨ro1, p0⟩] S5000x128.size (by rfl) y

set_option maxHeartbeats 1000000 in
theorem sound_kernel1 (c : Dev nD) (E : Set ℕ) (i : grid1.Coords)
    (arg1 : Memref sig .tc .vmem S5000x128 .f32) (harg1 : arg1.IsWhole) (arg2 : Memref sig .tc .vmem S128x128 .bf16) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_relu_kernel i arg1 harg1 arg2 harg2 arg3 harg3 arg4 harg4) K := by
  simp only [cc1__linear_relu_kernel_eq_skeleton]; unfold cc1__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Fr.R2.lean ====
import proofs.«425171_j32186484916934_3_alg».proof.Proof.Gen.KernelIdeal.Launch
import proofs.«425171_j32186484916934_3_alg».proof.Proof.Gen.KernelIdeal.Skeleton
import proofs.«425171_j32186484916934_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev rr2 : Rect S2000x128 := Rect.unit (s := S2000x128) ![0, 0] S2000x128.size inb_S2000x128_S2000x128_0_0
abbrev rw2 : Rect S128x128 := Rect.unit (s := S128x128) ![0, 0] S128x128.size inb_S128x128_S128x128_0_0
abbrev rb2 : Rect S1x128 := Rect.unit (s := S1x128) ![0, 0] S1x128.size inb_S1x128_S1x128_0_0

def out2_4 (x0 : Vec F S2000x128 .f32) (x1 : Vec F S2000x128 .f32) : Vec F S2000x128 .f32 :=
  View.canon [⟨rr2, k2_pay1 (View.ld x0 rr2) (View.ld x1 rr2)⟩]

def out2_5 (x0 : Vec F S2000x128 .f32) (x1 : Vec F S2000x128 .f32) (x2 : Vec F S128x128 .bf16) (x3 : Vec F S1x128 .f32) : Vec F S2000x128 .f32 :=
  View.canon [⟨rr2, k2_pay2 (View.ld x0 rr2) (View.ld x1 rr2) (View.ld x2 rw2) (View.ld x3 rb2)⟩]

theorem cover2_4 (p0 : Vec F S2000x128 .f32) (y : S2000x128.Idx) :
    ∃ pc ∈ ([⟨rr2, p0⟩] : List (View.Piece (Elt F) S2000x128 .f32)), y ∈ pc.1.set :=
  View.cover_of_tiled [⟨rr2, p0⟩] S2000x128.size (by rfl) y
theorem cover2_5 (p0 : Vec F S2000x128 .f32) (y : S2000x128.Idx) :
    ∃ pc ∈ ([⟨rr2, p0⟩] : List (View.Piece (Elt F) S2000x128 .f32)), y ∈ pc.1.set :=
  View.cover_of_tiled [⟨rr2, p0⟩] S2000x128.size (by rfl) y

set_option maxHeartbeats 1000000 in
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S2000x128 .f32) (harg5 : arg5.IsWhole) (arg6 : Memref sig .tc .vmem S2000x128 .f32) (harg6 : arg6.IsWhole)
    (x0 : Vec F S2000x128 .f32) (x1 : Vec F S2000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1) ∗ owns (c : Thread nD τ) arg6 fullShare (out2_5 x0 x1 x2 x3)) -∗ K ⟨⟩))
      ⊢ wp frame (wpE (defs₀ (F := F)) Variants.none c none) E (cc2__normalize_linear_kernel i arg1 harg1 arg2 harg2 arg3 harg3 arg4 harg4 arg5 harg5 arg6 harg6) K := by
  simp only [cc2__normalize_linear_kernel_eq_skeleton]; unfold cc2__normalize_linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.Fr.R3.lean ====
import proofs.«425171_j32186484916934_3_alg».proof.Proof.Gen.KernelIdeal.Launch
import proofs.«425171_j32186484916934_3_alg».proof.Proof.Gen.KernelIdeal.Skeleton
import proofs.«425171_j32186484916934_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev rr3 : Rect S2000x128 := Rect.unit (s := S2000x128) ![0, 0] S2000x128.size inb_S2000x128_S2000x128_0_0
abbrev rw3 : Rect S128x128 := Rect.unit (s := S128x128) ![0, 0] S128x128.size inb_S128x128_S128x128_0_0
abbrev rb3 : Rect S1x128 := Rect.unit (s := S1x128) ![0, 0] S1x128.size inb_S1x128_S1x128_0_0

def out3_4 (x0 : Vec F S2000x128 .f32) (x1 : Vec F S2000x128 .f32) : Vec F S2000x128 .f32 :=
  View.canon [⟨rr3, k3_pay1 (View.ld x0 rr3) (View.ld x1 rr3)⟩]

def out3_5 (x0 : Vec F S2000x128 .f32) (x1 : Vec F S2000x128 .f32) (x2 : Vec F S128x128 .bf16) (x3 : Vec F S1x128 .f32) : Vec F S2000x128 .f32 :=
  View.canon [⟨rr3, k3_pay2 (View.ld x0 rr3) (View.ld x1 rr3) (View.ld x2 rw3) (View.ld x3 rb3)⟩]

theorem cover3_4 (p0 : Vec F S2000x128 .f32) (y : S2000x128.Idx) :
    ∃ pc ∈ ([⟨rr3, p0⟩] : List (View.Piece (Elt F) S2000x128 .f32)), y ∈ pc.1.set :=
  View.cover_of_tiled [⟨rr3, p0⟩] S2000x128.size (by rfl) y
theorem cover3_5 (p0 : Vec F S2000x128 .f32) (y : S2000x128.Idx) :
    ∃ pc ∈ ([⟨rr3, p0⟩] : List (View.Piece (Elt F) S2000x128 .f32)), y ∈ pc.1.set :=
  View.cover_of_tiled [⟨rr3, p0⟩] S2000x128.size (by rfl) y

set_option maxHeartbeats 1000000 in
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S2000x128 .f32) (harg5 : arg5.IsWhole) (arg6 : Memref sig .tc .vmem S2000x128 .f32) (harg6 : arg6.IsWhole)
    (x0 : Vec F S2000x128 .f32) (x1 : Vec F S2000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1) ∗ owns (c : Thread nD τ) arg6 fullShare (out3_5 x0 x1 x2 x3)) -∗ K ⟨⟩))
      ⊢ wp frame (wpE (defs₀ (F := F)) Variants.none c none) E (cc3__normalize_linear_kernel i arg1 harg1 arg2 harg2 arg3 harg3 arg4 harg4 arg5 harg5 arg6 harg6) K := by
  simp only [cc3__normalize_linear_kernel_eq_skeleton]; unfold cc3__normalize_linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _)
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.Fr.R4.lean ====
import proofs.«425171_j32186484916934_3_alg».proof.Proof.Gen.KernelIdeal.Launch
import proofs.«425171_j32186484916934_3_alg».proof.Proof.Gen.KernelIdeal.Skeleton
import proofs.«425171_j32186484916934_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev rr4 : Rect S2000x128 := Rect.unit (s := S2000x128) ![0, 0] S2000x128.size inb_S2000x128_S2000x128_0_0
abbrev rw4 : Rect S128x128 := Rect.unit (s := S128x128) ![0, 0] S128x128.size inb_S128x128_S128x128_0_0
abbrev rb4 : Rect S1x128 := Rect.unit (s := S1x128) ![0, 0] S1x128.size inb_S1x128_S1x128_0_0

def out4_4 (x0 : Vec F S2000x128 .f32) (x1 : Vec F S2000x128 .f32) (x2 : Vec F S128x128 .bf16) (x3 : Vec F S1x128 .f32) : Vec F S2000x128 .f32 :=
  View.canon [⟨rr4, k4_pay1 (View.ld x0 rr4) (View.ld x1 rr4) (View.ld x2 rw4) (View.ld x3 rb4)⟩]

theorem cover4_4 (p0 : Vec F S2000x128 .f32) (y : S2000x128.Idx) :
    ∃ pc ∈ ([⟨rr4, p0⟩] : List (View.Piece (Elt F) S2000x128 .f32)), y ∈ pc.1.set :=
  View.cover_of_tiled [⟨rr4, p0⟩] S2000x128.size (by rfl) y

set_option maxHeartbeats 1000000 in
theorem sound_kernel4 (c : Dev nD) (E : Set ℕ) (i : grid4.Coords)
    (arg1 : Memref sig .tc .vmem S2000x128 .f32) (harg1 : arg1.IsWhole) (arg2 : Memref sig .tc .vmem S2000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__normalize_linear_h_only_kernel i arg1 harg1 arg2 harg2 arg3 harg3 arg4 harg4 arg5 harg5) K := by
  simp only [cc4__normalize_linear_h_only_kernel_eq_skeleton]; unfold cc4__normalize_linear_h_only_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.Fr.R5.lean ====
import proofs.«425171_j32186484916934_3_alg».proof.Proof.Gen.KernelIdeal.Launch
import proofs.«425171_j32186484916934_3_alg».proof.Proof.Gen.KernelIdeal.Skeleton
import proofs.«425171_j32186484916934_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev rx5 : Rect S5000x128 := Rect.unit (s := S5000x128) ![0, 0] S5000x128.size inb_S5000x128_S5000x128_0_0
abbrev rw5 : Rect S128x128 := Rect.unit (s := S128x128) ![0, 0] S128x128.size inb_S128x128_S128x128_0_0
abbrev rb5 : Rect S1x128 := Rect.unit (s := S1x128) ![0, 0] S1x128.size inb_S1x128_S1x128_0_0
abbrev ro5 : Rect S5000x128 := Rect.unit (s := S5000x128) ![0, 0] S5000x128.size inb_S5000x128_S5000x128_0_0

def out5_3 (x0 : Vec F S5000x128 .f32) (x1 : Vec F S128x128 .bf16) (x2 : Vec F S1x128 .f32) : Vec F S5000x128 .f32 :=
  View.canon [⟨ro5, k5_pay1 (View.ld x0 rx5) (View.ld x1 rw5) (View.ld x2 rb5)⟩]

theorem cover5_3 (p0 : Vec F S5000x128 .f32) (y : S5000x128.Idx) :
    ∃ pc ∈ ([⟨ro5, p0⟩] : List (View.Piece (Elt F) S5000x128 .f32)), y ∈ pc.1.set :=
  View.cover_of_tiled [⟨ro5, p0⟩] S5000x128.size (by rfl) y

set_option maxHeartbeats 1000000 in
theorem sound_kernel5 (c : Dev nD) (E : Set ℕ) (i : grid5.Coords)
    (arg1 : Memref sig .tc .vmem S5000x128 .f32) (harg1 : arg1.IsWhole) (arg2 : Memref sig .tc .vmem S128x128 .bf16) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__linear_relu_kernel i arg1 harg1 arg2 harg2 arg3 harg3 arg4 harg4) K := by
  simp only [cc5__linear_relu_kernel_eq_skeleton]; unfold cc5__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.Fr.R6.lean ====
import proofs.«425171_j32186484916934_3_alg».proof.Proof.Gen.KernelIdeal.Launch
import proofs.«425171_j32186484916934_3_alg».proof.Proof.Gen.KernelIdeal.Skeleton
import proofs.«425171_j32186484916934_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

abbrev rr6 : Rect S2000x128 := Rect.unit (s := S2000x128) ![0, 0] S2000x128.size inb_S2000x128_S2000x128_0_0
abbrev rg6 : Rect S2000x1 := Rect.unit (s := S2000x1) ![0, 0] S2000x1.size inb_S2000x1_S2000x1_0_0
abbrev rw6 : Rect S128x1 := Rect.unit (s := S128x1) ![0, 0] S128x1.size inb_S128x1_S128x1_0_0
abbrev rb6 : Rect S1x1 := Rect.unit (s := S1x1) ![0, 0] S1x1.size inb_S1x1_S1x1_0_0
abbrev ro6 : Rect S1024x1 := Rect.unit (s := S1024x1) ![0, 0] S1024x1.size inb_S1024x1_S1024x1_0_0
abbrev ra6 : Rect S128x1024 := Rect.unit (s := S128x1024) ![0, 0] S128x1024.size inb_S128x1024_S128x1024_0_0

theorem hz6 : (![0, 0] : Fin 2 → Nat) = fun _ => 0 := funext fun a => by fin_cases a <;> rfl

def acc6 (c : Dev nD) : ℕ → Vec F S128x1024 .f32
  | 0 => k6_pay2 (iblk6 V c 1 ⟨0, by decide⟩) (iblk6 V c 0 ⟨0, by decide⟩) (k6_pay1 (F := F))
  | n + 1 =>
    if h : n + 1 < cfg6.N then k6_pay2 (iblk6 V c 1 ⟨n + 1, h⟩) (iblk6 V c 0 ⟨n + 1, h⟩) (acc6 c n) else acc6 c n

theorem acc6_zero (c : Dev nD) :
    acc6 V c 0 = k6_pay2 (iblk6 V c 1 ⟨0, by decide⟩) (iblk6 V c 0 ⟨0, by decide⟩) (k6_pay1 (F := F)) := by
  rw [acc6]

theorem acc6_succ (c : Dev nD) (n : ℕ) (h : n + 1 < cfg6.N) :
    acc6 V c (n + 1) = k6_pay2 (iblk6 V c 1 ⟨n + 1, h⟩) (iblk6 V c 0 ⟨n + 1, h⟩) (acc6 V c n) := by
  rw [acc6, dif_pos h]

theorem acc6_first (c : Dev nD) (t : Fin cfg6.N) (ht : t.val = 0) :
    acc6 V c t.val = k6_pay2 (iblk6 V c 1 t) (iblk6 V c 0 t) (k6_pay1 (F := F)) := by
  obtain ⟨n, hn⟩ := t; cases ht; exact acc6_zero V c
theorem acc6_later (c : Dev nD) (t : Fin cfg6.N) (ht : t.val ≠ 0) :
    acc6 V c t.val = k6_pay2 (iblk6 V c 1 t) (iblk6 V c 0 t) (acc6 V c (t.val - 1)) := by
  obtain ⟨n, hn⟩ := t
  cases n with
  | zero => exact absurd rfl ht
  | succ n => exact acc6_succ V c n hn

def out6_4 (x : Vec F S128x1024 .f32) (w : Vec F S128x1 .bf16) (b : Vec F S1x1 .f32) : Vec F S1024x1 .f32 :=
  View.canon [⟨ro6, k6_pay3 (View.ld x ra6) (View.ld w rw6) (View.ld b rb6)⟩]

theorem cover6_4 (p0 : Vec F S1024x1 .f32) (y : S1024x1.Idx) :
    ∃ pc ∈ ([⟨ro6, p0⟩] : List (View.Piece (Elt F) S1024x1 .f32)), y ∈ pc.1.set :=
  View.cover_of_tiled [⟨ro6, p0⟩] S1024x1.size (by rfl) y

theorem cover6_a (L : List (View.Piece (Elt F) S128x1024 .f32)) (p0 : Vec F S128x1024 .f32) (y : S128x1024.Idx) :
    ∃ pc ∈ ((⟨ra6, p0⟩ :: L : List (View.Piece (Elt F) S128x1024 .f32))), y ∈ pc.1.set :=
  ⟨_, List.mem_cons_self, View.mem_set_unit_zero (S := S128x1024) hz6 inb_S128x1024_S128x1024_0_0 y⟩

theorem hfirst6 : ∀ t : Fin cfg6.N,
    (Scalar.cmpi .ne (Scalar.extui (Scalar.cmpi .eq (BitVec.ofNat 32 ((cfg6.grid.coords t) 0).val) (0#32)) : BitVec 32) (0#32) = 1#1) ↔ t.val = 0 :=
  (by decide +kernel : ∀ t : Fin grid6.N,
    (Scalar.cmpi .ne (Scalar.extui (Scalar.cmpi .eq (BitVec.ofNat 32 ((grid6.coords t) 0).val) (0#32)) : BitVec 32) (0#32) = 1#1) ↔ t.val = 0)
theorem hlast6 : ∀ t : Fin cfg6.N, (k6_cond2 (cfg6.grid.coords t) = 1#1) ↔ t.val = 24 :=
  (by decide +kernel : ∀ t : Fin grid6.N, (k6_cond2 (grid6.coords t) = 1#1) ↔ t.val = 24)
theorem idle6_4 : ∀ t : Fin cfg6.N, cfg6.idle 4 (cfg6.grid.coords t) = decide (t.val ≠ 24) :=
  (by decide +kernel : ∀ t : Fin grid6.N, idle6 4 (grid6.coords t) = decide (t.val ≠ 24))

set_option maxHeartbeats 2000000 in
theorem sound_kernel6_first (c : Dev nD) (E : Set ℕ) (i : grid6.Coords)
    (h1 : Scalar.cmpi .ne (Scalar.extui (Scalar.cmpi .eq (BitVec.ofNat 32 (i 0).val) (0#32)) : BitVec 32) (0#32) = 1#1)
    (h2 : ¬ k6_cond2 i = 1#1)
    (arg1 : Memref sig .tc .vmem S2000x128 .f32) (harg1 : arg1.IsWhole) (arg2 : Memref sig .tc .vmem S2000x1 .i32) (harg2 : arg2.IsWhole)
    (arg3 : Memref sig .tc .vmem S128x1 .bf16) (harg3 : arg3.IsWhole) (arg4 : Memref sig .tc .vmem S1x1 .f32) (harg4 : arg4.IsWhole)
    (arg5 : Memref sig .tc .vmem S1024x1 .f32) (harg5 : arg5.IsWhole) (arg6 : Memref sig .tc .vmem S128x1024 .f32) (harg6 : arg6.IsWhole)
    (x0 : Vec F S2000x128 .f32) (x1 : Vec F S2000x1 .i32) (K : PUnit → sProp 𝕄) :
    iprop(owns (c : Thread nD τ) arg1 fullShare x0 ∗ owns (c : Thread nD τ) arg2 fullShare x1 ∗ (∃ a, owns (c : Thread nD τ) arg6 fullShare a)
        ∗ (iprop(owns (c : Thread nD τ) arg1 fullShare x0 ∗ owns (c : Thread nD τ) arg2 fullShare x1
            ∗ owns (c : Thread nD τ) arg6 fullShare (k6_pay2 x1 x0 (k6_pay1 (F := F)))) -∗ K ⟨⟩))
      ⊢ wp frame (wpE (defs₀ (F := F)) Variants.none c none) E
          (cc6__readout_kernel i arg1 harg1 arg2 harg2 arg3 harg3 arg4 harg4 arg5 harg5 arg6 harg6) K := by
  simp only [cc6__readout_kernel_eq_skeleton]; unfold cc6__readout_kernel_skel
  unfold owns
  iintro ⟨⟨%f0, %hf0, H0⟩, ⟨%f1, %hf1, H1⟩, ⟨%a, %f6, -, H6⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [View.read_writes_eq_canon _ _ _ (cover6_a _ _), View.canon_cons_unit_zero (S := S128x1024) hz6]
  simp only [View.readAt_eq_ld, View.ld_unit_zero (S := S2000x1) hz6, View.ld_unit_zero (S := S2000x128) hz6,
    View.readCov_unit_zero (S := S128x1024) _ hz6]

set_option maxHeartbeats 2000000 in
theorem sound_kernel6_mid (c : Dev nD) (E : Set ℕ) (i : grid6.Coords)
    (h1 : ¬ Scalar.cmpi .ne (Scalar.extui (Scalar.cmpi .eq (BitVec.ofNat 32 (i 0).val) (0#32)) : BitVec 32) (0#32) = 1#1)
    (h2 : ¬ k6_cond2 i = 1#1)
    (arg1 : Memref sig .tc .vmem S2000x128 .f32) (harg1 : arg1.IsWhole) (arg2 : Memref sig .tc .vmem S2000x1 .i32) (harg2 : arg2.IsWhole)
    (arg3 : Memref sig .tc .vmem S128x1 .bf16) (harg3 : arg3.IsWhole) (arg4 : Memref sig .tc .vmem S1x1 .f32) (harg4 : arg4.IsWhole)
    (arg5 : Memref sig .tc .vmem S1024x1 .f32) (harg5 : arg5.IsWhole) (arg6 : Memref sig .tc .vmem S128x1024 .f32) (harg6 : arg6.IsWhole)
    (x0 : Vec F S2000x128 .f32) (x1 : Vec F S2000x1 .i32) (a : Vec F S128x1024 .f32) (K : PUnit → sProp 𝕄) :
    iprop(owns (c : Thread nD τ) arg1 fullShare x0 ∗ owns (c : Thread nD τ) arg2 fullShare x1 ∗ owns (c : Thread nD τ) arg6 fullShare a
        ∗ (iprop(owns (c : Thread nD τ) arg1 fullShare x0 ∗ owns (c : Thread nD τ) arg2 fullShare x1
            ∗ owns (c : Thread nD τ) arg6 fullShare (k6_pay2 x1 x0 a)) -∗ K ⟨⟩))
      ⊢ wp frame (wpE (defs₀ (F := F)) Variants.none c none) E
          (cc6__readout_kernel i arg1 harg1 arg2 harg2 arg3 harg3 arg4 harg4 arg5 harg5 arg6 harg6) K := by
  simp only [cc6__readout_kernel_eq_skeleton]; unfold cc6__readout_kernel_skel
  unfold owns
  iintro ⟨⟨%f0, %hf0, H0⟩, ⟨%f1, %hf1, H1⟩, ⟨%f6, %hf6, H6⟩, Hk⟩
  subst hf0; subst hf1; subst hf6
  sl_exec
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  try sl_unfold_words
  rw [View.read_writes_eq_canon _ _ _ (cover6_a _ _), View.canon_cons_unit_zero (S := S128x1024) hz6]
  simp only [View.readAt_eq_ld, View.ld_unit_zero (S := S2000x1) hz6, View.ld_unit_zero (S := S2000x128) hz6,
    View.ld_unit_zero (S := S128x1024) hz6]

set_option maxHeartbeats 2000000 in
theorem sound_kernel6_last (c : Dev nD) (E : Set ℕ) (i : grid6.Coords)
    (h1 : ¬ Scalar.cmpi .ne (Scalar.extui (Scalar.cmpi .eq (BitVec.ofNat 32 (i 0).val) (0#32)) : BitVec 32) (0#32) = 1#1)
    (h2 : k6_cond2 i = 1#1)
    (arg1 : Memref sig .tc .vmem S2000x128 .f32) (harg1 : arg1.IsWhole) (arg2 : Memref sig .tc .vmem S2000x1 .i32) (harg2 : arg2.IsWhole)
    (arg3 : Memref sig .tc .vmem S128x1 .bf16) (harg3 : arg3.IsWhole) (arg4 : Memref sig .tc .vmem S1x1 .f32) (harg4 : arg4.IsWhole)
    (arg5 : Memref sig .tc .vmem S1024x1 .f32) (harg5 : arg5.IsWhole) (arg6 : Memref sig .tc .vmem S128x1024 .f32) (harg6 : arg6.IsWhole)
    (x0 : Vec F S2000x128 .f32) (x1 : Vec F S2000x1 .i32) (x2 : Vec F S128x1 .bf16) (x3 : Vec F S1x1 .f32)
    (a : Vec F S128x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out6_4 (k6_pay2 x1 x0 a) x2 x3)
            ∗ owns (c : Thread nD τ) arg6 fullShare (k6_pay2 x1 x0 a)) -∗ K ⟨⟩))
      ⊢ wp frame (wpE (defs₀ (F := F)) Variants.none c none) E
          (cc6__readout_kernel i arg1 harg1 arg2 harg2 arg3 harg3 arg4 harg4 arg5 harg5 arg6 harg6) K := by
  simp only [cc6__readout_kernel_eq_skeleton]; unfold cc6__readout_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, Hk⟩
  subst hf0; subst hf1; subst hf2; subst hf3; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    try sl_unfold_words
    rw [View.read_writes_eq_canon _ _ _ (cover6_4 _)]
    unfold out6_4
    simp only [View.readAt_eq_ld, View.ld_unit_zero (S := S2000x1) hz6, View.ld_unit_zero (S := S2000x128) hz6,
      View.ld_unit_zero (S := S128x1024) hz6, View.ld_unit_zero (S := S128x1) hz6, View.ld_unit_zero (S := S1x1) hz6,
      View.readCov_unit_zero (S := S128x1024) _ hz6]
  iexists _; isplitr
  swap; · iexact H6
  ipureintro
  try sl_unfold_words
  rw [View.read_writes_eq_canon _ _ _ (cover6_a _ _), View.canon_cons_unit_zero (S := S128x1024) hz6]
  simp only [View.readAt_eq_ld, View.ld_unit_zero (S := S2000x1) hz6, View.ld_unit_zero (S := S2000x128) hz6,
    View.ld_unit_zero (S := S128x1024) hz6]

def scr6 (c : Dev nD) (t : Fin (cfg6.N + 1)) : sProp 𝕄 :=
  if t.val = 0 then iprop(∃ f : Buf (Elt F) ((c : Thread nD τ).loc cc6_scratch0), ((c : Thread nD τ).loc cc6_scratch0) ↦{fullShare} f)
  else owns (c : Thread nD τ) (Memref.whole cc6_scratch0) fullShare (acc6 V c (t.val - 1))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (acc6 V c t.val) (iblk6 V c 2 t) (iblk6 V c 3 t)
  Φ t := iprop((scr6 V c t ∗ Pipeline.scopedRestBut spec6 c [cc6_scratch0]) ∗ ∃ r, prngReg c r)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) :
    (dat6 V c).after 4 t = out6_4 (acc6 V c t.val) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

theorem Φ6_eq (c : Dev nD) (t : Fin (cfg6.N + 1)) :
    (dat6 V c).Φ t = iprop((scr6 V c t ∗ Pipeline.scopedRestBut spec6 c [cc6_scratch0]) ∗ ∃ r, prngReg c r) := by
  dsimp only [dat6]

theorem Φ6_zero (c : Dev nD) : (dat6 V c).Φ 0 = Pipeline.ΦA spec6 c := by
  rw [Φ6_eq]; unfold Pipeline.ΦA scr6
  rw [scopedRest6_split, if_pos (show ((0 : Fin (cfg6.N + 1))).val = 0 from rfl)]

theorem Φ6_last (c : Dev nD) : (dat6 V c).Φ (Fin.last _) ⊢ Pipeline.ΦA spec6 c := by
  rw [Φ6_eq]; unfold Pipeline.ΦA scr6
  rw [scopedRest6_split, if_neg (show ¬ ((Fin.last cfg6.N : Fin (cfg6.N + 1))).val = 0 by decide)]
  rw [owns_whole]
  iintro ⟨⟨Hs, Hr⟩, Hp⟩
  isplitr [Hp]
  · isplitl [Hs]
    · iexists _; iexact Hs
    iexact Hr
  iexact Hp

theorem scr6_first (c : Dev nD) (t : Fin (cfg6.N + 1)) (h : t.val = 0) :
    scr6 V c t = iprop(∃ f : Buf (Elt F) ((c : Thread nD τ).loc cc6_scratch0), ((c : Thread nD τ).loc cc6_scratch0) ↦{fullShare} f) := by
  unfold scr6; rw [if_pos h]
theorem scr6_later (c : Dev nD) (t : Fin (cfg6.N + 1)) (h : t.val ≠ 0) :
    scr6 V c t = owns (c : Thread nD τ) (Memref.whole cc6_scratch0) fullShare (acc6 V c (t.val - 1)) := by
  unfold scr6; rw [if_neg h]

theorem leaves6_4_idle (c : Dev nD) (t : Fin cfg6.N) (ht : t.val ≠ 24) :
    (dat6 V c).leavesExact 4 t = iprop(∃ d, owns (c : Thread nD τ) (st6_4 t) fullShare ((dat6 V c).before 4 t d)) := by
  refine Dat.leavesExact_idle _ 4 t (by rw [idle6_4]; exact decide_eq_true ht) ?_
  rcases hfl : (cfg6.win 4).flush t with _ | _
  · rfl
  · have h24 := (flush6_4 t).mp hfl
    have hlt : t.val < 25 := t.isLt
    omega
theorem leaves6_4_last (c : Dev nD) (t : Fin cfg6.N) (ht : t.val = 24) :
    (dat6 V c).leavesExact 4 t = owns (c : Thread nD τ) (st6_4 t) fullShare ((dat6 V c).after 4 t) := by
  have hi : cfg6.idle 4 (cfg6.grid.coords t) = false := by rw [idle6_4]; exact decide_eq_false (by omega)
  unfold Dat.leavesExact; rw [hi]

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ (dat6 V c).leavesExact 4 t)

set_option maxHeartbeats 1000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl,
    after6_0, after6_1, after6_2, after6_3, Φ6_eq, Φ6_eq]
  have hc : (t.castSucc : Fin (cfg6.N + 1)).val = t.val := rfl
  have hs : (t.succ : Fin (cfg6.N + 1)).val - 1 = t.val := Nat.add_sub_cancel t.val 1
  have hs0 : (t.succ : Fin (cfg6.N + 1)).val ≠ 0 := Nat.succ_ne_zero _
  by_cases h0 : t.val = 0
  · have h1 := (hfirst6 t).mpr h0
    have h2 : ¬ k6_cond2 (cfg6.grid.coords t) = 1#1 := fun h => by have := (hlast6 t).mp h; omega
    rw [leaves6_4_idle V c t (by omega), scr6_first V c t.castSucc (hc.trans h0), scr6_later V c t.succ hs0, hs, acc6_first V c t h0]
    iintro ⟨⟨⟨⟨%f, Hs⟩, Hr⟩, Hp⟩, Ho, ⟨%d0, H0⟩, ⟨%d1, H1⟩, ⟨%d2, H2⟩, ⟨%d3, H3⟩, H4⟩
    iapply (sound_kernel6_first c Set.univ _ h1 h2 _ _ _ _ _ _ _ _ _ _ _ _ (iblk6 V c 0 t) (iblk6 V c 1 t) _)
    isplitl [H0]; · iexact H0
    isplitl [H1]; · iexact H1
    isplitl [Hs]
    · iexists f; rw [owns_whole]; iexact Hs
    iintro ⟨H0, H1, Hs⟩
    isplitl [Hs Hr Hp]
    · isplitr [Hp]
      · isplitl [Hs]; · iexact Hs
        iexact Hr
      iexact Hp
    isplitl [Ho]; · iexact Ho
    isplitl [H0]; · iexact H0
    isplitl [H1]; · iexact H1
    isplitl [H2]; · iexact H2
    isplitl [H3]; · iexact H3
    iexact H4
  · have h1 : ¬ _ := fun h => h0 ((hfirst6 t).mp h)
    have hc0 : (t.castSucc : Fin (cfg6.N + 1)).val ≠ 0 := fun h => h0 (hc.symm.trans h)
    by_cases h24 : t.val = 24
    · have h2 := (hlast6 t).mpr h24
      rw [leaves6_4_last V c t h24, after6_4, scr6_later V c t.castSucc hc0, scr6_later V c t.succ hs0, hs, hc, acc6_later V c t h0]
      iintro ⟨⟨⟨Hs, Hr⟩, Hp⟩, Ho, ⟨%d0, H0⟩, ⟨%d1, H1⟩, ⟨%d2, H2⟩, ⟨%d3, H3⟩, ⟨%d4, H4⟩⟩
      iapply (sound_kernel6_last c Set.univ _ h1 h2 _ _ _ _ _ _ _ _ _ _ _ _ (iblk6 V c 0 t) (iblk6 V c 1 t) (iblk6 V c 2 t) (iblk6 V c 3 t)
        (acc6 V c (t.val - 1)) _)
      isplitl [H0]; · iexact H0
      isplitl [H1]; · iexact H1
      isplitl [H2]; · iexact H2
      isplitl [H3]; · iexact H3
      isplitl [H4]; · iexists _; iexact H4
      isplitl [Hs]; · iexact Hs
      iintro ⟨H0, H1, H2, H3, H4, Hs⟩
      isplitl [Hs Hr Hp]
      · isplitr [Hp]
        · isplitl [Hs]; · iexact Hs
          iexact Hr
        iexact Hp
      isplitl [Ho]; · iexact Ho
      isplitl [H0]; · iexact H0
      isplitl [H1]; · iexact H1
      isplitl [H2]; · iexact H2
      isplitl [H3]; · iexact H3
      iexact H4
    · have h2 : ¬ k6_cond2 (cfg6.grid.coords t) = 1#1 := fun h => h24 ((hlast6 t).mp h)
      rw [leaves6_4_idle V c t h24, scr6_later V c t.castSucc hc0, scr6_later V c t.succ hs0, hs, hc, acc6_later V c t h0]
      iintro ⟨⟨⟨Hs, Hr⟩, Hp⟩, Ho, ⟨%d0, H0⟩, ⟨%d1, H1⟩, ⟨%d2, H2⟩, ⟨%d3, H3⟩, H4⟩
      iapply (sound_kernel6_mid c Set.univ _ h1 h2 _ _ _ _ _ _ _ _ _ _ _ _ (iblk6 V c 0 t) (iblk6 V c 1 t) (acc6 V c (t.val - 1)) _)
      isplitl [H0]; · iexact H0
      isplitl [H1]; · iexact H1
      isplitl [Hs]; · iexact Hs
      iintro ⟨H0, H1, Hs⟩
      isplitl [Hs Hr Hp]
      · isplitr [Hp]
        · isplitl [Hs]; · iexact Hs
          iexact Hr
        iexact Hp
      isplitl [Ho]; · iexact Ho
      isplitl [H0]; · iexact H0
      isplitl [H1]; · iexact H1
      isplitl [H2]; · iexact H2
      isplitl [H3]; · iexact H3
      iexact H4

theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.Fr.Run.lean ====
import proofs.«425171_j32186484916934_3_alg».proof.Proof.Fr.R0
import proofs.«425171_j32186484916934_3_alg».proof.Proof.Fr.R1
import proofs.«425171_j32186484916934_3_alg».proof.Proof.Fr.R2
import proofs.«425171_j32186484916934_3_alg».proof.Proof.Fr.R3
import proofs.«425171_j32186484916934_3_alg».proof.Proof.Fr.R4
import proofs.«425171_j32186484916934_3_alg».proof.Proof.Fr.R5
import proofs.«425171_j32186484916934_3_alg».proof.Proof.Fr.R6
import proofs.«425171_j32186484916934_3_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h

abbrev W2 : Dev nD → Valuation τ sig (Elt F) := fun c => StableHlo.after hostOps0_1 (W1 m c)
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h

abbrev W3 : Dev nD → Valuation τ sig (Elt F) := fun c => StableHlo.after hostOps0_2 (W2 m c)
abbrev U3 : (c : Dev nD) → (b : Ref sig .tc) → Buf (Elt F) ((c : Thread nD τ).loc b) := fun c b => W3 m c b
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h

def W4 (c : Dev nD) : Valuation τ sig (Elt F) :=
  Pipeline.withArrays spec0 c (W3 m c) fun w => (dat0 (U3 m) c).arrAt w cfg0.N
theorem W4_arr (c : Dev nD) (w : Fin cfg0.W) :
    W4 m c (Proc.devRef .tc (Pipeline.arrRef spec0 w)) = (dat0 (U3 m) c).arrAt w cfg0.N :=
  Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) :=
  Pipeline.withArrays_of_ne spec0 c _ _ b hb

abbrev W5 : Dev nD → Valuation τ sig (Elt F) := fun c => StableHlo.after hostOps1 (W4 m c)
abbrev U5 : (c : Dev nD) → (b : Ref sig .tc) → Buf (Elt F) ((c : Thread nD τ).loc b) := fun c b => W5 m c b
theorem W5_of (c : Dev nD) (r : Ref sig .tc) (h : r ∉ hostOps1_W) : W5 m c (Proc.devRef .tc r) = W4 m c (Proc.devRef .tc r) :=
  StableHlo.after_of_writes_sub hostOps1 _ hostOps1_writes h

def W6 (c : Dev nD) : Valuation τ sig (Elt F) :=
  Pipeline.withArrays spec1 c (W5 m c) fun w => (dat1 (U5 m) c).arrAt w cfg1.N
theorem W6_arr (c : Dev nD) (w : Fin cfg1.W) :
    W6 m c (Proc.devRef .tc (Pipeline.arrRef spec1 w)) = (dat1 (U5 m) c).arrAt w cfg1.N :=
  Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) :=
  Pipeline.withArrays_of_ne spec1 c _ _ b hb

abbrev W7 : Dev nD → Valuation τ sig (Elt F) := fun c => StableHlo.after hostOps2 (W6 m c)
abbrev U7 : (c : Dev nD) → (b : Ref sig .tc) → Buf (Elt F) ((c : Thread nD τ).loc b) := fun c b => W7 m c b
theorem W7_of (c : Dev nD) (r : Ref sig .tc) (h : r ∉ hostOps2_W) : W7 m c (Proc.devRef .tc r) = W6 m c (Proc.devRef .tc r) :=
  StableHlo.after_of_writes_sub hostOps2 _ hostOps2_writes h

def W8 (c : Dev nD) : Valuation τ sig (Elt F) :=
  Pipeline.withArrays spec2 c (W7 m c) fun w => (dat2 (U7 m) c).arrAt w cfg2.N
theorem W8_arr (c : Dev nD) (w : Fin cfg2.W) :
    W8 m c (Proc.devRef .tc (Pipeline.arrRef spec2 w)) = (dat2 (U7 m) c).arrAt w cfg2.N :=
  Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) :=
  Pipeline.withArrays_of_ne spec2 c _ _ b hb

abbrev W9 : Dev nD → Valuation τ sig (Elt F) := fun c => StableHlo.after hostOps3 (W8 m c)
abbrev U9 : (c : Dev nD) → (b : Ref sig .tc) → Buf (Elt F) ((c : Thread nD τ).loc b) := fun c b => W9 m c b
theorem W9_of (c : Dev nD) (r : Ref sig .tc) (h : r ∉ hostOps3_W) : W9 m c (Proc.devRef .tc r) = W8 m c (Proc.devRef .tc r) :=
  StableHlo.after_of_writes_sub hostOps3 _ hostOps3_writes h

def W10 (c : Dev nD) : Valuation τ sig (Elt F) :=
  Pipeline.withArrays spec3 c (W9 m c) fun w => (dat3 (U9 m) c).arrAt w cfg3.N
theorem W10_arr (c : Dev nD) (w : Fin cfg3.W) :
    W10 m c (Proc.devRef .tc (Pipeline.arrRef spec3 w)) = (dat3 (U9 m) c).arrAt w cfg3.N :=
  Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) :=
  Pipeline.withArrays_of_ne spec3 c _ _ b hb

abbrev W11 : Dev nD → Valuation τ sig (Elt F) := fun c => StableHlo.after hostOps4 (W10 m c)
abbrev U11 : (c : Dev nD) → (b : Ref sig .tc) → Buf (Elt F) ((c : Thread nD τ).loc b) := fun c b => W11 m c b
theorem W11_of (c : Dev nD) (r : Ref sig .tc) (h : r ∉ hostOps4_W) : W11 m c (Proc.devRef .tc r) = W10 m c (Proc.devRef .tc r) :=
  StableHlo.after_of_writes_sub hostOps4 _ hostOps4_writes h

def W12 (c : Dev nD) : Valuation τ sig (Elt F) :=
  Pipeline.withArrays spec4 c (W11 m c) fun w => (dat4 (U11 m) c).arrAt w cfg4.N
theorem W12_arr (c : Dev nD) (w : Fin cfg4.W) :
    W12 m c (Proc.devRef .tc (Pipeline.arrRef spec4 w)) = (dat4 (U11 m) c).arrAt w cfg4.N :=
  Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) :=
  Pipeline.withArrays_of_ne spec4 c _ _ b hb

abbrev W13 : Dev nD → Valuation τ sig (Elt F) := fun c => StableHlo.after hostOps5 (W12 m c)
abbrev U13 : (c : Dev nD) → (b : Ref sig .tc) → Buf (Elt F) ((c : Thread nD τ).loc b) := fun c b => W13 m c b
theorem W13_of (c : Dev nD) (r : Ref sig .tc) (h : r ∉ hostOps5_W) : W13 m c (Proc.devRef .tc r) = W12 m c (Proc.devRef .tc r) :=
  StableHlo.after_of_writes_sub hostOps5 _ hostOps5_writes h

def W14 (c : Dev nD) : Valuation τ sig (Elt F) :=
  Pipeline.withArrays spec5 c (W13 m c) fun w => (dat5 (U13 m) c).arrAt w cfg5.N
theorem W14_arr (c : Dev nD) (w : Fin cfg5.W) :
    W14 m c (Proc.devRef .tc (Pipeline.arrRef spec5 w)) = (dat5 (U13 m) c).arrAt w cfg5.N :=
  Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) :=
  Pipeline.withArrays_of_ne spec5 c _ _ b hb

abbrev W15 : Dev nD → Valuation τ sig (Elt F) := fun c => StableHlo.after hostOps6 (W14 m c)
abbrev U15 : (c : Dev nD) → (b : Ref sig .tc) → Buf (Elt F) ((c : Thread nD τ).loc b) := fun c b => W15 m c b
theorem W15_of (c : Dev nD) (r : Ref sig .tc) (h : r ∉ hostOps6_W) : W15 m c (Proc.devRef .tc r) = W14 m c (Proc.devRef .tc r) :=
  StableHlo.after_of_writes_sub hostOps6 _ hostOps6_writes h

def W16 (c : Dev nD) : Valuation τ sig (Elt F) :=
  Pipeline.withArrays spec6 c (W15 m c) fun w => (dat6 (U15 m) c).arrAt w cfg6.N
theorem W16_arr (c : Dev nD) (w : Fin cfg6.W) :
    W16 m c (Proc.devRef .tc (Pipeline.arrRef spec6 w)) = (dat6 (U15 m) c).arrAt w cfg6.N :=
  Pipeline.withArrays_arr spec6 launch6.win.arr_inj c _ _ w
theorem W16_of_ne (c : Dev nD) (b : Ref sig .tc) (hb : ∀ w, Pipeline.arrRef spec6 w ≠ b) :
    W16 m c (Proc.devRef .tc b) = W15 m c (Proc.devRef .tc b) :=
  Pipeline.withArrays_of_ne spec6 c _ _ b hb

abbrev W17 : Dev nD → Valuation τ sig (Elt F) := fun c => StableHlo.after hostOps7 (W16 m c)
theorem W17_of (c : Dev nD) (r : Ref sig .tc) (h : r ∉ hostOps7_W) : W17 m c (Proc.devRef .tc r) = W16 m c (Proc.devRef .tc r) :=
  StableHlo.after_of_writes_sub hostOps7 _ hostOps7_writes h

theorem W17_keep (c : Dev nD) (r : Ref sig .tc)
    (h1 : r ∉ hostOps0_W := by decide) (h2 : r ∉ hostOps0_1_W := by decide)
    (h3 : r ∉ hostOps0_2_W := by decide) (h4 : ∀ w, Pipeline.arrRef spec0 w ≠ r := by decide)
    (h5 : r ∉ hostOps1_W := by decide) (h6 : ∀ w, Pipeline.arrRef spec1 w ≠ r := by decide)
    (h7 : r ∉ hostOps2_W := by decide) (h8 : ∀ w, Pipeline.arrRef spec2 w ≠ r := by decide)
    (h9 : r ∉ hostOps3_W := by decide) (h10 : ∀ w, Pipeline.arrRef spec3 w ≠ r := by decide)
    (h11 : r ∉ hostOps4_W := by decide) (h12 : ∀ w, Pipeline.arrRef spec4 w ≠ r := by decide)
    (h13 : r ∉ hostOps5_W := by decide) (h14 : ∀ w, Pipeline.arrRef spec5 w ≠ r := by decide)
    (h15 : r ∉ hostOps6_W := by decide) (h16 : ∀ w, Pipeline.arrRef spec6 w ≠ r := by decide)
    (h17 : r ∉ hostOps7_W := by decide) :
    W17 m c (Proc.devRef .tc r) = m ((c : Thread nD τ).loc r) :=
  (W17_of m c r h17).trans <|
    (W16_of_ne m c r h16).trans <|
    (W15_of m c r h15).trans <|
    (W14_of_ne m c r h14).trans <|
    (W13_of m c r h13).trans <|
    (W12_of_ne m c r h12).trans <|
    (W11_of m c r h11).trans <|
    (W10_of_ne m c r h10).trans <|
    (W9_of m c r h9).trans <|
    (W8_of_ne m c r h8).trans <|
    (W7_of m c r h7).trans <|
    (W6_of_ne m c r h6).trans <|
    (W5_of m c r h5).trans <|
    (W4_of_ne m c r h4).trans <|
    (W3_of m c r h3).trans <|
    (W2_of m c r h2).trans <|
    (W1_of m c r h1).trans rfl

abbrev admF : (p : Fin 7) → (pcfgs (F := F) p).Adm := fun p => (cfgs p).toPCfg_adm
def pdatF : (p : Fin 7) → (c : Dev nD) → Dat τ (Elt F) Unit ℕ (UR sig nD τ) ℕ (Pipeline.pin (pcfgs (F := F)) admF p) c
  | ⟨0, _⟩ => fun c => dat0 (U3 m) c
  | ⟨1, _⟩ => fun c => dat1 (U5 m) c
  | ⟨2, _⟩ => fun c => dat2 (U7 m) c
  | ⟨3, _⟩ => fun c => dat3 (U9 m) c
  | ⟨4, _⟩ => fun c => dat4 (U11 m) c
  | ⟨5, _⟩ => fun c => dat5 (U13 m) c
  | ⟨6, _⟩ => fun c => dat6 (U15 m) c
abbrev 𝒱F : Variants := Variants.none
abbrev LF : GSem nD τ sig → Finset Unit := fun _ => ∅
abbrev lvF : GSem nD τ sig → Unit → ℕ := fun _ _ => 0
abbrev Rst (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
abbrev TnF (c : Dev nD) : sProp 𝕄 := iprop(StableHlo.held (c : Thread nD τ) (Pipeline.ucRefs τ sig) (W17 m c) ∗ ∃ r, prngReg c r)

set_option backward.isDefEq.respectTransparency.types false in
-- One record serves all seven launches: none has a prefetched table or a semaphore of its own.
def regOf (p : Fin 7) (L : Pipeline.LaunchFacts (nD := nD) (τ := τ) cfgs p) (Win Wout : Dev nD → Valuation τ sig (Elt F))
    (hbody : ∀ c, BodyObligation (pdatF m p c) (defs₀ (F := F)) 𝒱F () Set.univ)
    (hq : ∀ c w, (pdatF m p c).q w = fullShare) (howed : ∀ c t, (pdatF m p c).owed t = 0)
    (hrec : ∀ c t, (pdatF m p c).recorded t = Set.univ)
    (hΦ0 : ∀ c, (pdatF m p c).Φ 0 = Pipeline.ΦA (cfgs p).spec c)
    (hΦN : ∀ c, (pdatF m p c).Φ (Fin.last _) ⊢ Pipeline.ΦA (cfgs p).spec c)
    (hA : ∀ c w, (pdatF m p c).A w = Win c (Pipeline.arrRef (cfgs p).spec w))
    (harr : ∀ c w, Wout c (Proc.devRef .tc (Pipeline.arrRef (cfgs p).spec w)) = (pdatF m p c).arrAt w (cfgs p).N)
    (hne : ∀ c (b : Ref sig .tc), (∀ w, Pipeline.arrRef (cfgs p).spec w ≠ b) → Wout c (Proc.devRef .tc b) = Win c (Proc.devRef .tc b)) :
    Pipeline.RegionSeg (pcfgs (F := F)) admF (pdatF m) () defs₀ 𝒱F LF lvF p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ LF lvF p howed
  pre c := iprop(StableHlo.held (c : Thread nD τ) (Pipeline.ucRefs τ sig) (Win c) ∗ Rst c)
  post c := iprop(StableHlo.held (c : Thread nD τ) (Pipeline.ucRefs τ sig) (Wout c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) admF (pdatF m) L.win L.arr_whole c
      ((pdatF m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl ((hrec c 0).symm ▸ Set.mem_univ x)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) admF (Ix := Unit) (Name := ℕ) (U := UR sig nD τ) (Lvl := ℕ)
      L.win L.arr_whole c (pdatF m) ((pdatF m p c).share_full (hq c))
      (fun b => Win c b) (fun b => Wout c b) ((pdatF m p c).arrAt · (cfgs p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) admF (pdatF m) () defs₀ 𝒱F LF lvF 0 :=
  regOf m 0 launch0 (W3 m) (W4 m) (body_obligation0 (U3 m)) (fun _ _ => rfl) (fun _ _ => rfl) (fun _ _ => rfl) (fun _ => rfl) (fun _ => .rfl)
    (fun _ _ => rfl) (W4_arr m) (W4_of_ne m)
set_option backward.isDefEq.respectTransparency.types false in
def reg1 : Pipeline.RegionSeg (pcfgs (F := F)) admF (pdatF m) () defs₀ 𝒱F LF lvF 1 :=
  regOf m 1 launch1 (W5 m) (W6 m) (body_obligation1 (U5 m)) (fun _ _ => rfl) (fun _ _ => rfl) (fun _ _ => rfl) (fun _ => rfl) (fun _ => .rfl)
    (fun _ _ => rfl) (W6_arr m) (W6_of_ne m)
set_option backward.isDefEq.respectTransparency.types false in
def reg2 : Pipeline.RegionSeg (pcfgs (F := F)) admF (pdatF m) () defs₀ 𝒱F LF lvF 2 :=
  regOf m 2 launch2 (W7 m) (W8 m) (body_obligation2 (U7 m)) (fun _ _ => rfl) (fun _ _ => rfl) (fun _ _ => rfl) (fun _ => rfl) (fun _ => .rfl)
    (fun _ _ => rfl) (W8_arr m) (W8_of_ne m)
set_option backward.isDefEq.respectTransparency.types false in
def reg3 : Pipeline.RegionSeg (pcfgs (F := F)) admF (pdatF m) () defs₀ 𝒱F LF lvF 3 :=
  regOf m 3 launch3 (W9 m) (W10 m) (body_obligation3 (U9 m)) (fun _ _ => rfl) (fun _ _ => rfl) (fun _ _ => rfl) (fun _ => rfl) (fun _ => .rfl)
    (fun _ _ => rfl) (W10_arr m) (W10_of_ne m)
set_option backward.isDefEq.respectTransparency.types false in
def reg4 : Pipeline.RegionSeg (pcfgs (F := F)) admF (pdatF m) () defs₀ 𝒱F LF lvF 4 :=
  regOf m 4 launch4 (W11 m) (W12 m) (body_obligation4 (U11 m)) (fun _ _ => rfl) (fun _ _ => rfl) (fun _ _ => rfl) (fun _ => rfl) (fun _ => .rfl)
    (fun _ _ => rfl) (W12_arr m) (W12_of_ne m)
set_option backward.isDefEq.respectTransparency.types false in
def reg5 : Pipeline.RegionSeg (pcfgs (F := F)) admF (pdatF m) () defs₀ 𝒱F LF lvF 5 :=
  regOf m 5 launch5 (W13 m) (W14 m) (body_obligation5 (U13 m)) (fun _ _ => rfl) (fun _ _ => rfl) (fun _ _ => rfl) (fun _ => rfl) (fun _ => .rfl)
    (fun _ _ => rfl) (W14_arr m) (W14_of_ne m)
set_option backward.isDefEq.respectTransparency.types false in
def reg6 : Pipeline.RegionSeg (pcfgs (F := F)) admF (pdatF m) () defs₀ 𝒱F LF lvF 6 :=
  regOf m 6 launch6 (W15 m) (W16 m) (body_obligation6 (U15 m)) (fun _ _ => rfl) (fun _ _ => rfl) (fun _ _ => rfl) (Φ6_zero (U15 m)) (Φ6_last (U15 m))
    (fun _ _ => rfl) (W16_arr m) (W16_of_ne m)

abbrev segsF (c : Dev nD) : List (Pipeline.Seg (pcfgs (F := F)) admF (pdatF m) () defs₀ 𝒱F LF lvF) :=
  [ .host (hsegF hostOps0 hostOps0_sub hostOps0_fresh (W0 m)),
    .host (hsegF hostOps0_1 hostOps0_1_sub hostOps0_1_fresh (W1 m)),
    .host (hsegF hostOps0_2 hostOps0_2_sub hostOps0_2_fresh (W2 m)),
    .region (reg0 m),
    .host (hsegF hostOps1 hostOps1_sub hostOps1_fresh (W4 m)),
    .region (reg1 m),
    .host (hsegF hostOps2 hostOps2_sub hostOps2_fresh (W6 m)),
    .region (reg2 m),
    .host (hsegF hostOps3 hostOps3_sub hostOps3_fresh (W8 m)),
    .region (reg3 m),
    .host (hsegF hostOps4 hostOps4_sub hostOps4_fresh (W10 m)),
    .region (reg4 m),
    .host (hsegF hostOps5 hostOps5_sub hostOps5_fresh (W12 m)),
    .region (reg5 m),
    .host (hsegF hostOps6 hostOps6_sub hostOps6_fresh (W14 m)),
    .region (reg6 m),
    .host (hsegF hostOps7 hostOps7_sub hostOps7_fresh (W16 m)) ]

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W17 m c b) := by
  refine Pipeline.θ_run_regions_kit_dev (pcfgs (F := F)) admF (pdatF m) () cellOf_inj emb₁ defs₀ 𝒱F LF lvF m ρ main
    (segsF m)
    (fun c Q => by
      rewrite [main_chain c, Seg.run_eq_chain,
        show (segsF m c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [segsF, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := TnF m)
    (hch := fun c => ⟨.rfl, .rfl, .rfl, .rfl, .rfl, .rfl, .rfl, .rfl, .rfl, .rfl, .rfl, .rfl, .rfl, .rfl, .rfl, .rfl, .rfl, ?_⟩)
    (hinit := ?_)
    (QY := fun c s => ∀ b ∈ Pipeline.ucRefs τ sig, s.mem (((c : Thread nD τ)).1, b) = W17 m c b)
    (hfin := fun c s' => ?_) (hQ := fun _ h => h)
  · refine (show (iprop(StableHlo.held (c : Thread nD τ) (Pipeline.ucRefs τ sig) (W17 m c) ∗ Rst c) : sProp 𝕄)
      ⊢ iprop(TnF m c ∗ ∃ W, owes (c : Thread nD τ) (0 : CellTallies nD τ sig Unit) W) from ?_)
    iintro ⟨Hh, Hp, HO⟩
    isplitl [Hh Hp]
    · isplitl [Hh]; · iexact Hh
      iexact Hp
    iexact HO
  · refine Pipeline.initEach LF lvF fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (W17 m c) s')
    isplitl [Hh] <;> iassumption

theorem mem_ucF (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_result : θ_run defs (onTc (τ := τ) (main (F := F))) ⟨m, fun _ => 0, ρ⟩ (fun r => ∀ c : Dev nD,
      r.2.mem ((c.tc : Thread nD τ).loc main_v134) = W17 m c (Proc.devRef .tc main_v134)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_ucF main_v134 (by decide)),
      (h c _ (mem_ucF main_arg0 (by decide))).trans (W17_keep m c main_arg0),
      (h c _ (mem_ucF main_arg1 (by decide))).trans (W17_keep m c main_arg1),
      (h c _ (mem_ucF main_arg2 (by decide))).trans (W17_keep m c main_arg2),
      (h c _ (mem_ucF main_arg3 (by decide))).trans (W17_keep m c main_arg3),
      (h c _ (mem_ucF main_arg4 (by decide))).trans (W17_keep m c main_arg4),
      (h c _ (mem_ucF main_arg5 (by decide))).trans (W17_keep m c main_arg5),
      (h c _ (mem_ucF main_arg6 (by decide))).trans (W17_keep m c main_arg6),
      (h c _ (mem_ucF main_arg7 (by decide))).trans (W17_keep m c main_arg7),
      (h c _ (mem_ucF main_arg8 (by decide))).trans (W17_keep m c main_arg8),
      (h c _ (mem_ucF main_arg9 (by decide))).trans (W17_keep m c main_arg9),
      (h c _ (mem_ucF main_arg10 (by decide))).trans (W17_keep m c main_arg10),
      (h c _ (mem_ucF main_arg11 (by decide))).trans (W17_keep m c main_arg11)⟩) (run_main m ρ)

end Cert.KernelIdeal.Fr

end
-- ==== Proof.FrK.R0.lean ====
import proofs.«425171_j32186484916934_3_alg».proof.Proof.Gen.Kernel.Launch
import proofs.«425171_j32186484916934_3_alg».proof.Proof.Gen.Kernel.Skeleton
import proofs.«425171_j32186484916934_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S5000x1 := Rect.unit (s := S5000x1) ![0, 0] S5000x1.size inb_S5000x1_S5000x1_0_0
abbrev rt0 : Rect S128x128 := Rect.unit (s := S128x128) ![0, 0] S128x128.size inb_S128x128_S128x128_0_0
abbrev ro0 : Rect S5000x128 := Rect.unit (s := S5000x128) ![0, 0] S5000x128.size inb_S5000x128_S5000x128_0_0

def out0_2 (x0 : Vec F S5000x1 .i32) (x1 : Vec F S128x128 .bf16) : Vec F S5000x128 .f32 :=
  View.canon [⟨ro0, k0_pay1 (View.ld x0 rx0) (View.ld x1 rt0)⟩]

theorem cover0_2 (p0 : Vec F S5000x128 .f32) (y : S5000x128.Idx) :
    ∃ pc ∈ ([⟨ro0, p0⟩] : List (View.Piece (Elt F) S5000x128 .f32)), y ∈ pc.1.set :=
  View.cover_of_tiled [⟨ro0, p0⟩] S5000x128.size (by rfl) y

set_option maxHeartbeats 1000000 in
theorem sound_kernel0 (c : Dev nD) (E : Set ℕ) (i : grid0.Coords)
    (arg1 : Memref sig .tc .vmem S5000x1 .i32) (harg1 : arg1.IsWhole) (arg2 : Memref sig .tc .vmem S128x128 .bf16) (harg2 : arg2.IsWhole)
    (arg3 : Memref sig .tc .vmem S5000x128 .f32) (harg3 : arg3.IsWhole)
    (x0 : Vec F S5000x1 .i32) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__embed_kernel i arg1 harg1 arg2 harg2 arg3 harg3) K := by
  simp only [cc0__embed_kernel_eq_skeleton]; unfold cc0__embed_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrK.R1.lean ====
import proofs.«425171_j32186484916934_3_alg».proof.Proof.Gen.Kernel.Launch
import proofs.«425171_j32186484916934_3_alg».proof.Proof.Gen.Kernel.Skeleton
import proofs.«425171_j32186484916934_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rx1 : Rect S5000x128 := Rect.unit (s := S5000x128) ![0, 0] S5000x128.size inb_S5000x128_S5000x128_0_0
abbrev rw1 : Rect S128x128 := Rect.unit (s := S128x128) ![0, 0] S128x128.size inb_S128x128_S128x128_0_0
abbrev rb1 : Rect S1x128 := Rect.unit (s := S1x128) ![0, 0] S1x128.size inb_S1x128_S1x128_0_0
abbrev ro1 : Rect S5000x128 := Rect.unit (s := S5000x128) ![0, 0] S5000x128.size inb_S5000x128_S5000x128_0_0

def out1_3 (x0 : Vec F S5000x128 .f32) (x1 : Vec F S128x128 .bf16) (x2 : Vec F S1x128 .f32) : Vec F S5000x128 .f32 :=
  View.canon [⟨ro1, k1_pay1 (View.ld x0 rx1) (View.ld x1 rw1) (View.ld x2 rb1)⟩]

theorem cover1_3 (p0 : Vec F S5000x128 .f32) (y : S5000x128.Idx) :
    ∃ pc ∈ ([⟨ro1, p0⟩] : List (View.Piece (Elt F) S5000x128 .f32)), y ∈ pc.1.set :=
  View.cover_of_tiled [⟨ro1, p0⟩] S5000x128.size (by rfl) y

set_option maxHeartbeats 1000000 in
theorem sound_kernel1 (c : Dev nD) (E : Set ℕ) (i : grid1.Coords)
    (arg1 : Memref sig .tc .vmem S5000x128 .f32) (harg1 : arg1.IsWhole) (arg2 : Memref sig .tc .vmem S128x128 .bf16) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_relu_kernel i arg1 harg1 arg2 harg2 arg3 harg3 arg4 harg4) K := by
  simp only [cc1__linear_relu_kernel_eq_skeleton]; unfold cc1__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrK.R2.lean ====
import proofs.«425171_j32186484916934_3_alg».proof.Proof.Gen.Kernel.Launch
import proofs.«425171_j32186484916934_3_alg».proof.Proof.Gen.Kernel.Skeleton
import proofs.«425171_j32186484916934_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev rr2 : Rect S2000x128 := Rect.unit (s := S2000x128) ![0, 0] S2000x128.size inb_S2000x128_S2000x128_0_0
abbrev rw2 : Rect S128x128 := Rect.unit (s := S128x128) ![0, 0] S128x128.size inb_S128x128_S128x128_0_0
abbrev rb2 : Rect S1x128 := Rect.unit (s := S1x128) ![0, 0] S1x128.size inb_S1x128_S1x128_0_0

def out2_4 (x0 : Vec F S2000x128 .f32) (x1 : Vec F S2000x128 .f32) : Vec F S2000x128 .f32 :=
  View.canon [⟨rr2, k2_pay1 (View.ld x0 rr2) (View.ld x1 rr2)⟩]

def out2_5 (x0 : Vec F S2000x128 .f32) (x1 : Vec F S2000x128 .f32) (x2 : Vec F S128x128 .bf16) (x3 : Vec F S1x128 .f32) : Vec F S2000x128 .f32 :=
  View.canon [⟨rr2, k2_pay2 (View.ld x0 rr2) (View.ld x1 rr2) (View.ld x2 rw2) (View.ld x3 rb2)⟩]

theorem cover2_4 (p0 : Vec F S2000x128 .f32) (y : S2000x128.Idx) :
    ∃ pc ∈ ([⟨rr2, p0⟩] : List (View.Piece (Elt F) S2000x128 .f32)), y ∈ pc.1.set :=
  View.cover_of_tiled [⟨rr2, p0⟩] S2000x128.size (by rfl) y
theorem cover2_5 (p0 : Vec F S2000x128 .f32) (y : S2000x128.Idx) :
    ∃ pc ∈ ([⟨rr2, p0⟩] : List (View.Piece (Elt F) S2000x128 .f32)), y ∈ pc.1.set :=
  View.cover_of_tiled [⟨rr2, p0⟩] S2000x128.size (by rfl) y

set_option maxHeartbeats 1000000 in
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S2000x128 .f32) (harg5 : arg5.IsWhole) (arg6 : Memref sig .tc .vmem S2000x128 .f32) (harg6 : arg6.IsWhole)
    (x0 : Vec F S2000x128 .f32) (x1 : Vec F S2000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1) ∗ owns (c : Thread nD τ) arg6 fullShare (out2_5 x0 x1 x2 x3)) -∗ K ⟨⟩))
      ⊢ wp frame (wpE (defs₀ (F := F)) Variants.none c none) E (cc2__normalize_linear_kernel i arg1 harg1 arg2 harg2 arg3 harg3 arg4 harg4 arg5 harg5 arg6 harg6) K := by
  simp only [cc2__normalize_linear_kernel_eq_skeleton]; unfold cc2__normalize_linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.FrK.R3.lean ====
import proofs.«425171_j32186484916934_3_alg».proof.Proof.Gen.Kernel.Launch
import proofs.«425171_j32186484916934_3_alg».proof.Proof.Gen.Kernel.Skeleton
import proofs.«425171_j32186484916934_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev rr3 : Rect S2000x128 := Rect.unit (s := S2000x128) ![0, 0] S2000x128.size inb_S2000x128_S2000x128_0_0
abbrev rw3 : Rect S128x128 := Rect.unit (s := S128x128) ![0, 0] S128x128.size inb_S128x128_S128x128_0_0
abbrev rb3 : Rect S1x128 := Rect.unit (s := S1x128) ![0, 0] S1x128.size inb_S1x128_S1x128_0_0

def out3_4 (x0 : Vec F S2000x128 .f32) (x1 : Vec F S2000x128 .f32) : Vec F S2000x128 .f32 :=
  View.canon [⟨rr3, k3_pay1 (View.ld x0 rr3) (View.ld x1 rr3)⟩]

def out3_5 (x0 : Vec F S2000x128 .f32) (x1 : Vec F S2000x128 .f32) (x2 : Vec F S128x128 .bf16) (x3 : Vec F S1x128 .f32) : Vec F S2000x128 .f32 :=
  View.canon [⟨rr3, k3_pay2 (View.ld x0 rr3) (View.ld x1 rr3) (View.ld x2 rw3) (View.ld x3 rb3)⟩]

theorem cover3_4 (p0 : Vec F S2000x128 .f32) (y : S2000x128.Idx) :
    ∃ pc ∈ ([⟨rr3, p0⟩] : List (View.Piece (Elt F) S2000x128 .f32)), y ∈ pc.1.set :=
  View.cover_of_tiled [⟨rr3, p0⟩] S2000x128.size (by rfl) y
theorem cover3_5 (p0 : Vec F S2000x128 .f32) (y : S2000x128.Idx) :
    ∃ pc ∈ ([⟨rr3, p0⟩] : List (View.Piece (Elt F) S2000x128 .f32)), y ∈ pc.1.set :=
  View.cover_of_tiled [⟨rr3, p0⟩] S2000x128.size (by rfl) y

set_option maxHeartbeats 1000000 in
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S2000x128 .f32) (harg5 : arg5.IsWhole) (arg6 : Memref sig .tc .vmem S2000x128 .f32) (harg6 : arg6.IsWhole)
    (x0 : Vec F S2000x128 .f32) (x1 : Vec F S2000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1) ∗ owns (c : Thread nD τ) arg6 fullShare (out3_5 x0 x1 x2 x3)) -∗ K ⟨⟩))
      ⊢ wp frame (wpE (defs₀ (F := F)) Variants.none c none) E (cc3__normalize_linear_kernel i arg1 harg1 arg2 harg2 arg3 harg3 arg4 harg4 arg5 harg5 arg6 harg6) K := by
  simp only [cc3__normalize_linear_kernel_eq_skeleton]; unfold cc3__normalize_linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _)
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.FrK.R4.lean ====
import proofs.«425171_j32186484916934_3_alg».proof.Proof.Gen.Kernel.Launch
import proofs.«425171_j32186484916934_3_alg».proof.Proof.Gen.Kernel.Skeleton
import proofs.«425171_j32186484916934_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev rr4 : Rect S2000x128 := Rect.unit (s := S2000x128) ![0, 0] S2000x128.size inb_S2000x128_S2000x128_0_0
abbrev rw4 : Rect S128x128 := Rect.unit (s := S128x128) ![0, 0] S128x128.size inb_S128x128_S128x128_0_0
abbrev rb4 : Rect S1x128 := Rect.unit (s := S1x128) ![0, 0] S1x128.size inb_S1x128_S1x128_0_0

def out4_4 (x0 : Vec F S2000x128 .f32) (x1 : Vec F S2000x128 .f32) (x2 : Vec F S128x128 .bf16) (x3 : Vec F S1x128 .f32) : Vec F S2000x128 .f32 :=
  View.canon [⟨rr4, k4_pay1 (View.ld x0 rr4) (View.ld x1 rr4) (View.ld x2 rw4) (View.ld x3 rb4)⟩]

theorem cover4_4 (p0 : Vec F S2000x128 .f32) (y : S2000x128.Idx) :
    ∃ pc ∈ ([⟨rr4, p0⟩] : List (View.Piece (Elt F) S2000x128 .f32)), y ∈ pc.1.set :=
  View.cover_of_tiled [⟨rr4, p0⟩] S2000x128.size (by rfl) y

set_option maxHeartbeats 1000000 in
theorem sound_kernel4 (c : Dev nD) (E : Set ℕ) (i : grid4.Coords)
    (arg1 : Memref sig .tc .vmem S2000x128 .f32) (harg1 : arg1.IsWhole) (arg2 : Memref sig .tc .vmem S2000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__normalize_linear_h_only_kernel i arg1 harg1 arg2 harg2 arg3 harg3 arg4 harg4 arg5 harg5) K := by
  simp only [cc4__normalize_linear_h_only_kernel_eq_skeleton]; unfold cc4__normalize_linear_h_only_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.FrK.R5.lean ====
import proofs.«425171_j32186484916934_3_alg».proof.Proof.Gen.Kernel.Launch
import proofs.«425171_j32186484916934_3_alg».proof.Proof.Gen.Kernel.Skeleton
import proofs.«425171_j32186484916934_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev rx5 : Rect S5000x128 := Rect.unit (s := S5000x128) ![0, 0] S5000x128.size inb_S5000x128_S5000x128_0_0
abbrev rw5 : Rect S128x128 := Rect.unit (s := S128x128) ![0, 0] S128x128.size inb_S128x128_S128x128_0_0
abbrev rb5 : Rect S1x128 := Rect.unit (s := S1x128) ![0, 0] S1x128.size inb_S1x128_S1x128_0_0
abbrev ro5 : Rect S5000x128 := Rect.unit (s := S5000x128) ![0, 0] S5000x128.size inb_S5000x128_S5000x128_0_0

def out5_3 (x0 : Vec F S5000x128 .f32) (x1 : Vec F S128x128 .bf16) (x2 : Vec F S1x128 .f32) : Vec F S5000x128 .f32 :=
  View.canon [⟨ro5, k5_pay1 (View.ld x0 rx5) (View.ld x1 rw5) (View.ld x2 rb5)⟩]

theorem cover5_3 (p0 : Vec F S5000x128 .f32) (y : S5000x128.Idx) :
    ∃ pc ∈ ([⟨ro5, p0⟩] : List (View.Piece (Elt F) S5000x128 .f32)), y ∈ pc.1.set :=
  View.cover_of_tiled [⟨ro5, p0⟩] S5000x128.size (by rfl) y

set_option maxHeartbeats 1000000 in
theorem sound_kernel5 (c : Dev nD) (E : Set ℕ) (i : grid5.Coords)
    (arg1 : Memref sig .tc .vmem S5000x128 .f32) (harg1 : arg1.IsWhole) (arg2 : Memref sig .tc .vmem S128x128 .bf16) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__linear_relu_kernel i arg1 harg1 arg2 harg2 arg3 harg3 arg4 harg4) K := by
  simp only [cc5__linear_relu_kernel_eq_skeleton]; unfold cc5__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.FrK.R6.lean ====
import proofs.«425171_j32186484916934_3_alg».proof.Proof.Gen.Kernel.Launch
import proofs.«425171_j32186484916934_3_alg».proof.Proof.Gen.Kernel.Skeleton
import proofs.«425171_j32186484916934_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

abbrev rr6 : Rect S2000x128 := Rect.unit (s := S2000x128) ![0, 0] S2000x128.size inb_S2000x128_S2000x128_0_0
abbrev rg6 : Rect S2000x1 := Rect.unit (s := S2000x1) ![0, 0] S2000x1.size inb_S2000x1_S2000x1_0_0
abbrev rw6 : Rect S128x1 := Rect.unit (s := S128x1) ![0, 0] S128x1.size inb_S128x1_S128x1_0_0
abbrev rb6 : Rect S1x1 := Rect.unit (s := S1x1) ![0, 0] S1x1.size inb_S1x1_S1x1_0_0
abbrev ro6 : Rect S1024x1 := Rect.unit (s := S1024x1) ![0, 0] S1024x1.size inb_S1024x1_S1024x1_0_0
abbrev ra6 : Rect S128x1024 := Rect.unit (s := S128x1024) ![0, 0] S128x1024.size inb_S128x1024_S128x1024_0_0

theorem hz6 : (![0, 0] : Fin 2 → Nat) = fun _ => 0 := funext fun a => by fin_cases a <;> rfl

def acc6 (c : Dev nD) : ℕ → Vec F S128x1024 .f32
  | 0 => k6_pay2 (iblk6 V c 1 ⟨0, by decide⟩) (iblk6 V c 0 ⟨0, by decide⟩) (k6_pay1 (F := F))
  | n + 1 =>
    if h : n + 1 < cfg6.N then k6_pay2 (iblk6 V c 1 ⟨n + 1, h⟩) (iblk6 V c 0 ⟨n + 1, h⟩) (acc6 c n) else acc6 c n

theorem acc6_zero (c : Dev nD) :
    acc6 V c 0 = k6_pay2 (iblk6 V c 1 ⟨0, by decide⟩) (iblk6 V c 0 ⟨0, by decide⟩) (k6_pay1 (F := F)) := by
  rw [acc6]

theorem acc6_succ (c : Dev nD) (n : ℕ) (h : n + 1 < cfg6.N) :
    acc6 V c (n + 1) = k6_pay2 (iblk6 V c 1 ⟨n + 1, h⟩) (iblk6 V c 0 ⟨n + 1, h⟩) (acc6 V c n) := by
  rw [acc6, dif_pos h]

theorem acc6_first (c : Dev nD) (t : Fin cfg6.N) (ht : t.val = 0) :
    acc6 V c t.val = k6_pay2 (iblk6 V c 1 t) (iblk6 V c 0 t) (k6_pay1 (F := F)) := by
  obtain ⟨n, hn⟩ := t; cases ht; exact acc6_zero V c
theorem acc6_later (c : Dev nD) (t : Fin cfg6.N) (ht : t.val ≠ 0) :
    acc6 V c t.val = k6_pay2 (iblk6 V c 1 t) (iblk6 V c 0 t) (acc6 V c (t.val - 1)) := by
  obtain ⟨n, hn⟩ := t
  cases n with
  | zero => exact absurd rfl ht
  | succ n => exact acc6_succ V c n hn

def out6_4 (x : Vec F S128x1024 .f32) (w : Vec F S128x1 .bf16) (b : Vec F S1x1 .f32) : Vec F S1024x1 .f32 :=
  View.canon [⟨ro6, k6_pay3 (View.ld x ra6) (View.ld w rw6) (View.ld b rb6)⟩]

theorem cover6_4 (p0 : Vec F S1024x1 .f32) (y : S1024x1.Idx) :
    ∃ pc ∈ ([⟨ro6, p0⟩] : List (View.Piece (Elt F) S1024x1 .f32)), y ∈ pc.1.set :=
  View.cover_of_tiled [⟨ro6, p0⟩] S1024x1.size (by rfl) y

theorem cover6_a (L : List (View.Piece (Elt F) S128x1024 .f32)) (p0 : Vec F S128x1024 .f32) (y : S128x1024.Idx) :
    ∃ pc ∈ ((⟨ra6, p0⟩ :: L : List (View.Piece (Elt F) S128x1024 .f32))), y ∈ pc.1.set :=
  ⟨_, List.mem_cons_self, View.mem_set_unit_zero (S := S128x1024) hz6 inb_S128x1024_S128x1024_0_0 y⟩

theorem hfirst6 : ∀ t : Fin cfg6.N,
    (Scalar.cmpi .ne (Scalar.extui (Scalar.cmpi .eq (BitVec.ofNat 32 ((cfg6.grid.coords t) 0).val) (0#32)) : BitVec 32) (0#32) = 1#1) ↔ t.val = 0 :=
  (by decide +kernel : ∀ t : Fin grid6.N,
    (Scalar.cmpi .ne (Scalar.extui (Scalar.cmpi .eq (BitVec.ofNat 32 ((grid6.coords t) 0).val) (0#32)) : BitVec 32) (0#32) = 1#1) ↔ t.val = 0)
theorem hlast6 : ∀ t : Fin cfg6.N, (k6_cond2 (cfg6.grid.coords t) = 1#1) ↔ t.val = 24 :=
  (by decide +kernel : ∀ t : Fin grid6.N, (k6_cond2 (grid6.coords t) = 1#1) ↔ t.val = 24)
theorem idle6_4 : ∀ t : Fin cfg6.N, cfg6.idle 4 (cfg6.grid.coords t) = decide (t.val ≠ 24) :=
  (by decide +kernel : ∀ t : Fin grid6.N, idle6 4 (grid6.coords t) = decide (t.val ≠ 24))

set_option maxHeartbeats 2000000 in
theorem sound_kernel6_first (c : Dev nD) (E : Set ℕ) (i : grid6.Coords)
    (h1 : Scalar.cmpi .ne (Scalar.extui (Scalar.cmpi .eq (BitVec.ofNat 32 (i 0).val) (0#32)) : BitVec 32) (0#32) = 1#1)
    (h2 : ¬ k6_cond2 i = 1#1)
    (arg1 : Memref sig .tc .vmem S2000x128 .f32) (harg1 : arg1.IsWhole) (arg2 : Memref sig .tc .vmem S2000x1 .i32) (harg2 : arg2.IsWhole)
    (arg3 : Memref sig .tc .vmem S128x1 .bf16) (harg3 : arg3.IsWhole) (arg4 : Memref sig .tc .vmem S1x1 .f32) (harg4 : arg4.IsWhole)
    (arg5 : Memref sig .tc .vmem S1024x1 .f32) (harg5 : arg5.IsWhole) (arg6 : Memref sig .tc .vmem S128x1024 .f32) (harg6 : arg6.IsWhole)
    (x0 : Vec F S2000x128 .f32) (x1 : Vec F S2000x1 .i32) (K : PUnit → sProp 𝕄) :
    iprop(owns (c : Thread nD τ) arg1 fullShare x0 ∗ owns (c : Thread nD τ) arg2 fullShare x1 ∗ (∃ a, owns (c : Thread nD τ) arg6 fullShare a)
        ∗ (iprop(owns (c : Thread nD τ) arg1 fullShare x0 ∗ owns (c : Thread nD τ) arg2 fullShare x1
            ∗ owns (c : Thread nD τ) arg6 fullShare (k6_pay2 x1 x0 (k6_pay1 (F := F)))) -∗ K ⟨⟩))
      ⊢ wp frame (wpE (defs₀ (F := F)) Variants.none c none) E
          (cc6__readout_kernel i arg1 harg1 arg2 harg2 arg3 harg3 arg4 harg4 arg5 harg5 arg6 harg6) K := by
  simp only [cc6__readout_kernel_eq_skeleton]; unfold cc6__readout_kernel_skel
  unfold owns
  iintro ⟨⟨%f0, %hf0, H0⟩, ⟨%f1, %hf1, H1⟩, ⟨%a, %f6, -, H6⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [View.read_writes_eq_canon _ _ _ (cover6_a _ _), View.canon_cons_unit_zero (S := S128x1024) hz6]
  simp only [View.readAt_eq_ld, View.ld_unit_zero (S := S2000x1) hz6, View.ld_unit_zero (S := S2000x128) hz6,
    View.readCov_unit_zero (S := S128x1024) _ hz6]

set_option maxHeartbeats 2000000 in
theorem sound_kernel6_mid (c : Dev nD) (E : Set ℕ) (i : grid6.Coords)
    (h1 : ¬ Scalar.cmpi .ne (Scalar.extui (Scalar.cmpi .eq (BitVec.ofNat 32 (i 0).val) (0#32)) : BitVec 32) (0#32) = 1#1)
    (h2 : ¬ k6_cond2 i = 1#1)
    (arg1 : Memref sig .tc .vmem S2000x128 .f32) (harg1 : arg1.IsWhole) (arg2 : Memref sig .tc .vmem S2000x1 .i32) (harg2 : arg2.IsWhole)
    (arg3 : Memref sig .tc .vmem S128x1 .bf16) (harg3 : arg3.IsWhole) (arg4 : Memref sig .tc .vmem S1x1 .f32) (harg4 : arg4.IsWhole)
    (arg5 : Memref sig .tc .vmem S1024x1 .f32) (harg5 : arg5.IsWhole) (arg6 : Memref sig .tc .vmem S128x1024 .f32) (harg6 : arg6.IsWhole)
    (x0 : Vec F S2000x128 .f32) (x1 : Vec F S2000x1 .i32) (a : Vec F S128x1024 .f32) (K : PUnit → sProp 𝕄) :
    iprop(owns (c : Thread nD τ) arg1 fullShare x0 ∗ owns (c : Thread nD τ) arg2 fullShare x1 ∗ owns (c : Thread nD τ) arg6 fullShare a
        ∗ (iprop(owns (c : Thread nD τ) arg1 fullShare x0 ∗ owns (c : Thread nD τ) arg2 fullShare x1
            ∗ owns (c : Thread nD τ) arg6 fullShare (k6_pay2 x1 x0 a)) -∗ K ⟨⟩))
      ⊢ wp frame (wpE (defs₀ (F := F)) Variants.none c none) E
          (cc6__readout_kernel i arg1 harg1 arg2 harg2 arg3 harg3 arg4 harg4 arg5 harg5 arg6 harg6) K := by
  simp only [cc6__readout_kernel_eq_skeleton]; unfold cc6__readout_kernel_skel
  unfold owns
  iintro ⟨⟨%f0, %hf0, H0⟩, ⟨%f1, %hf1, H1⟩, ⟨%f6, %hf6, H6⟩, Hk⟩
  subst hf0; subst hf1; subst hf6
  sl_exec
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  try sl_unfold_words
  rw [View.read_writes_eq_canon _ _ _ (cover6_a _ _), View.canon_cons_unit_zero (S := S128x1024) hz6]
  simp only [View.readAt_eq_ld, View.ld_unit_zero (S := S2000x1) hz6, View.ld_unit_zero (S := S2000x128) hz6,
    View.ld_unit_zero (S := S128x1024) hz6]

set_option maxHeartbeats 2000000 in
theorem sound_kernel6_last (c : Dev nD) (E : Set ℕ) (i : grid6.Coords)
    (h1 : ¬ Scalar.cmpi .ne (Scalar.extui (Scalar.cmpi .eq (BitVec.ofNat 32 (i 0).val) (0#32)) : BitVec 32) (0#32) = 1#1)
    (h2 : k6_cond2 i = 1#1)
    (arg1 : Memref sig .tc .vmem S2000x128 .f32) (harg1 : arg1.IsWhole) (arg2 : Memref sig .tc .vmem S2000x1 .i32) (harg2 : arg2.IsWhole)
    (arg3 : Memref sig .tc .vmem S128x1 .bf16) (harg3 : arg3.IsWhole) (arg4 : Memref sig .tc .vmem S1x1 .f32) (harg4 : arg4.IsWhole)
    (arg5 : Memref sig .tc .vmem S1024x1 .f32) (harg5 : arg5.IsWhole) (arg6 : Memref sig .tc .vmem S128x1024 .f32) (harg6 : arg6.IsWhole)
    (x0 : Vec F S2000x128 .f32) (x1 : Vec F S2000x1 .i32) (x2 : Vec F S128x1 .bf16) (x3 : Vec F S1x1 .f32)
    (a : Vec F S128x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare a
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out6_4 (k6_pay2 x1 x0 a) x2 x3)
            ∗ owns (c : Thread nD τ) arg6 fullShare (k6_pay2 x1 x0 a)) -∗ K ⟨⟩))
      ⊢ wp frame (wpE (defs₀ (F := F)) Variants.none c none) E
          (cc6__readout_kernel i arg1 harg1 arg2 harg2 arg3 harg3 arg4 harg4 arg5 harg5 arg6 harg6) K := by
  simp only [cc6__readout_kernel_eq_skeleton]; unfold cc6__readout_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, Hk⟩
  subst hf0; subst hf1; subst hf2; subst hf3; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    try sl_unfold_words
    rw [View.read_writes_eq_canon _ _ _ (cover6_4 _)]
    unfold out6_4
    simp only [View.readAt_eq_ld, View.ld_unit_zero (S := S2000x1) hz6, View.ld_unit_zero (S := S2000x128) hz6,
      View.ld_unit_zero (S := S128x1024) hz6, View.ld_unit_zero (S := S128x1) hz6, View.ld_unit_zero (S := S1x1) hz6,
      View.readCov_unit_zero (S := S128x1024) _ hz6]
  iexists _; isplitr
  swap; · iexact H6
  ipureintro
  try sl_unfold_words
  rw [View.read_writes_eq_canon _ _ _ (cover6_a _ _), View.canon_cons_unit_zero (S := S128x1024) hz6]
  simp only [View.readAt_eq_ld, View.ld_unit_zero (S := S2000x1) hz6, View.ld_unit_zero (S := S2000x128) hz6,
    View.ld_unit_zero (S := S128x1024) hz6]

def scr6 (c : Dev nD) (t : Fin (cfg6.N + 1)) : sProp 𝕄 :=
  if t.val = 0 then iprop(∃ f : Buf (Elt F) ((c : Thread nD τ).loc cc6_scratch0), ((c : Thread nD τ).loc cc6_scratch0) ↦{fullShare} f)
  else owns (c : Thread nD τ) (Memref.whole cc6_scratch0) fullShare (acc6 V c (t.val - 1))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (acc6 V c t.val) (iblk6 V c 2 t) (iblk6 V c 3 t)
  Φ t := iprop((scr6 V c t ∗ Pipeline.scopedRestBut spec6 c [cc6_scratch0]) ∗ ∃ r, prngReg c r)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) :
    (dat6 V c).after 4 t = out6_4 (acc6 V c t.val) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

theorem Φ6_eq (c : Dev nD) (t : Fin (cfg6.N + 1)) :
    (dat6 V c).Φ t = iprop((scr6 V c t ∗ Pipeline.scopedRestBut spec6 c [cc6_scratch0]) ∗ ∃ r, prngReg c r) := by
  dsimp only [dat6]

theorem Φ6_zero (c : Dev nD) : (dat6 V c).Φ 0 = Pipeline.ΦA spec6 c := by
  rw [Φ6_eq]; unfold Pipeline.ΦA scr6
  rw [scopedRest6_split, if_pos (show ((0 : Fin (cfg6.N + 1))).val = 0 from rfl)]

theorem Φ6_last (c : Dev nD) : (dat6 V c).Φ (Fin.last _) ⊢ Pipeline.ΦA spec6 c := by
  rw [Φ6_eq]; unfold Pipeline.ΦA scr6
  rw [scopedRest6_split, if_neg (show ¬ ((Fin.last cfg6.N : Fin (cfg6.N + 1))).val = 0 by decide)]
  rw [owns_whole]
  iintro ⟨⟨Hs, Hr⟩, Hp⟩
  isplitr [Hp]
  · isplitl [Hs]
    · iexists _; iexact Hs
    iexact Hr
  iexact Hp

theorem scr6_first (c : Dev nD) (t : Fin (cfg6.N + 1)) (h : t.val = 0) :
    scr6 V c t = iprop(∃ f : Buf (Elt F) ((c : Thread nD τ).loc cc6_scratch0), ((c : Thread nD τ).loc cc6_scratch0) ↦{fullShare} f) := by
  unfold scr6; rw [if_pos h]
theorem scr6_later (c : Dev nD) (t : Fin (cfg6.N + 1)) (h : t.val ≠ 0) :
    scr6 V c t = owns (c : Thread nD τ) (Memref.whole cc6_scratch0) fullShare (acc6 V c (t.val - 1)) := by
  unfold scr6; rw [if_neg h]

theorem leaves6_4_idle (c : Dev nD) (t : Fin cfg6.N) (ht : t.val ≠ 24) :
    (dat6 V c).leavesExact 4 t = iprop(∃ d, owns (c : Thread nD τ) (st6_4 t) fullShare ((dat6 V c).before 4 t d)) := by
  refine Dat.leavesExact_idle _ 4 t (by rw [idle6_4]; exact decide_eq_true ht) ?_
  rcases hfl : (cfg6.win 4).flush t with _ | _
  · rfl
  · have h24 := (flush6_4 t).mp hfl
    have hlt : t.val < 25 := t.isLt
    omega
theorem leaves6_4_last (c : Dev nD) (t : Fin cfg6.N) (ht : t.val = 24) :
    (dat6 V c).leavesExact 4 t = owns (c : Thread nD τ) (st6_4 t) fullShare ((dat6 V c).after 4 t) := by
  have hi : cfg6.idle 4 (cfg6.grid.coords t) = false := by rw [idle6_4]; exact decide_eq_false (by omega)
  unfold Dat.leavesExact; rw [hi]

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ (dat6 V c).leavesExact 4 t)

set_option maxHeartbeats 1000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl,
    after6_0, after6_1, after6_2, after6_3, Φ6_eq, Φ6_eq]
  have hc : (t.castSucc : Fin (cfg6.N + 1)).val = t.val := rfl
  have hs : (t.succ : Fin (cfg6.N + 1)).val - 1 = t.val := Nat.add_sub_cancel t.val 1
  have hs0 : (t.succ : Fin (cfg6.N + 1)).val ≠ 0 := Nat.succ_ne_zero _
  by_cases h0 : t.val = 0
  · have h1 := (hfirst6 t).mpr h0
    have h2 : ¬ k6_cond2 (cfg6.grid.coords t) = 1#1 := fun h => by have := (hlast6 t).mp h; omega
    rw [leaves6_4_idle V c t (by omega), scr6_first V c t.castSucc (hc.trans h0), scr6_later V c t.succ hs0, hs, acc6_first V c t h0]
    iintro ⟨⟨⟨⟨%f, Hs⟩, Hr⟩, Hp⟩, Ho, ⟨%d0, H0⟩, ⟨%d1, H1⟩, ⟨%d2, H2⟩, ⟨%d3, H3⟩, H4⟩
    iapply (sound_kernel6_first c Set.univ _ h1 h2 _ _ _ _ _ _ _ _ _ _ _ _ (iblk6 V c 0 t) (iblk6 V c 1 t) _)
    isplitl [H0]; · iexact H0
    isplitl [H1]; · iexact H1
    isplitl [Hs]
    · iexists f; rw [owns_whole]; iexact Hs
    iintro ⟨H0, H1, Hs⟩
    isplitl [Hs Hr Hp]
    · isplitr [Hp]
      · isplitl [Hs]; · iexact Hs
        iexact Hr
      iexact Hp
    isplitl [Ho]; · iexact Ho
    isplitl [H0]; · iexact H0
    isplitl [H1]; · iexact H1
    isplitl [H2]; · iexact H2
    isplitl [H3]; · iexact H3
    iexact H4
  · have h1 : ¬ _ := fun h => h0 ((hfirst6 t).mp h)
    have hc0 : (t.castSucc : Fin (cfg6.N + 1)).val ≠ 0 := fun h => h0 (hc.symm.trans h)
    by_cases h24 : t.val = 24
    · have h2 := (hlast6 t).mpr h24
      rw [leaves6_4_last V c t h24, after6_4, scr6_later V c t.castSucc hc0, scr6_later V c t.succ hs0, hs, hc, acc6_later V c t h0]
      iintro ⟨⟨⟨Hs, Hr⟩, Hp⟩, Ho, ⟨%d0, H0⟩, ⟨%d1, H1⟩, ⟨%d2, H2⟩, ⟨%d3, H3⟩, ⟨%d4, H4⟩⟩
      iapply (sound_kernel6_last c Set.univ _ h1 h2 _ _ _ _ _ _ _ _ _ _ _ _ (iblk6 V c 0 t) (iblk6 V c 1 t) (iblk6 V c 2 t) (iblk6 V c 3 t)
        (acc6 V c (t.val - 1)) _)
      isplitl [H0]; · iexact H0
      isplitl [H1]; · iexact H1
      isplitl [H2]; · iexact H2
      isplitl [H3]; · iexact H3
      isplitl [H4]; · iexists _; iexact H4
      isplitl [Hs]; · iexact Hs
      iintro ⟨H0, H1, H2, H3, H4, Hs⟩
      isplitl [Hs Hr Hp]
      · isplitr [Hp]
        · isplitl [Hs]; · iexact Hs
          iexact Hr
        iexact Hp
      isplitl [Ho]; · iexact Ho
      isplitl [H0]; · iexact H0
      isplitl [H1]; · iexact H1
      isplitl [H2]; · iexact H2
      isplitl [H3]; · iexact H3
      iexact H4
    · have h2 : ¬ k6_cond2 (cfg6.grid.coords t) = 1#1 := fun h => h24 ((hlast6 t).mp h)
      rw [leaves6_4_idle V c t h24, scr6_later V c t.castSucc hc0, scr6_later V c t.succ hs0, hs, hc, acc6_later V c t h0]
      iintro ⟨⟨⟨Hs, Hr⟩, Hp⟩, Ho, ⟨%d0, H0⟩, ⟨%d1, H1⟩, ⟨%d2, H2⟩, ⟨%d3, H3⟩, H4⟩
      iapply (sound_kernel6_mid c Set.univ _ h1 h2 _ _ _ _ _ _ _ _ _ _ _ _ (iblk6 V c 0 t) (iblk6 V c 1 t) (acc6 V c (t.val - 1)) _)
      isplitl [H0]; · iexact H0
      isplitl [H1]; · iexact H1
      isplitl [Hs]; · iexact Hs
      iintro ⟨H0, H1, Hs⟩
      isplitl [Hs Hr Hp]
      · isplitr [Hp]
        · isplitl [Hs]; · iexact Hs
          iexact Hr
        iexact Hp
      isplitl [Ho]; · iexact Ho
      isplitl [H0]; · iexact H0
      isplitl [H1]; · iexact H1
      isplitl [H2]; · iexact H2
      isplitl [H3]; · iexact H3
      iexact H4

theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.FrK.Run.lean ====
import proofs.«425171_j32186484916934_3_alg».proof.Proof.FrK.R0
import proofs.«425171_j32186484916934_3_alg».proof.Proof.FrK.R1
import proofs.«425171_j32186484916934_3_alg».proof.Proof.FrK.R2
import proofs.«425171_j32186484916934_3_alg».proof.Proof.FrK.R3
import proofs.«425171_j32186484916934_3_alg».proof.Proof.FrK.R4
import proofs.«425171_j32186484916934_3_alg».proof.Proof.FrK.R5
import proofs.«425171_j32186484916934_3_alg».proof.Proof.FrK.R6
import proofs.«425171_j32186484916934_3_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h

abbrev W2 : Dev nD → Valuation τ sig (Elt F) := fun c => StableHlo.after hostOps0_1 (W1 m c)
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h

abbrev W3 : Dev nD → Valuation τ sig (Elt F) := fun c => StableHlo.after hostOps0_2 (W2 m c)
abbrev U3 : (c : Dev nD) → (b : Ref sig .tc) → Buf (Elt F) ((c : Thread nD τ).loc b) := fun c b => W3 m c b
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h

def W4 (c : Dev nD) : Valuation τ sig (Elt F) :=
  Pipeline.withArrays spec0 c (W3 m c) fun w => (dat0 (U3 m) c).arrAt w cfg0.N
theorem W4_arr (c : Dev nD) (w : Fin cfg0.W) :
    W4 m c (Proc.devRef .tc (Pipeline.arrRef spec0 w)) = (dat0 (U3 m) c).arrAt w cfg0.N :=
  Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) :=
  Pipeline.withArrays_of_ne spec0 c _ _ b hb

abbrev W5 : Dev nD → Valuation τ sig (Elt F) := fun c => StableHlo.after hostOps1 (W4 m c)
abbrev U5 : (c : Dev nD) → (b : Ref sig .tc) → Buf (Elt F) ((c : Thread nD τ).loc b) := fun c b => W5 m c b
theorem W5_of (c : Dev nD) (r : Ref sig .tc) (h : r ∉ hostOps1_W) : W5 m c (Proc.devRef .tc r) = W4 m c (Proc.devRef .tc r) :=
  StableHlo.after_of_writes_sub hostOps1 _ hostOps1_writes h

def W6 (c : Dev nD) : Valuation τ sig (Elt F) :=
  Pipeline.withArrays spec1 c (W5 m c) fun w => (dat1 (U5 m) c).arrAt w cfg1.N
theorem W6_arr (c : Dev nD) (w : Fin cfg1.W) :
    W6 m c (Proc.devRef .tc (Pipeline.arrRef spec1 w)) = (dat1 (U5 m) c).arrAt w cfg1.N :=
  Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) :=
  Pipeline.withArrays_of_ne spec1 c _ _ b hb

abbrev W7 : Dev nD → Valuation τ sig (Elt F) := fun c => StableHlo.after hostOps2 (W6 m c)
abbrev U7 : (c : Dev nD) → (b : Ref sig .tc) → Buf (Elt F) ((c : Thread nD τ).loc b) := fun c b => W7 m c b
theorem W7_of (c : Dev nD) (r : Ref sig .tc) (h : r ∉ hostOps2_W) : W7 m c (Proc.devRef .tc r) = W6 m c (Proc.devRef .tc r) :=
  StableHlo.after_of_writes_sub hostOps2 _ hostOps2_writes h

def W8 (c : Dev nD) : Valuation τ sig (Elt F) :=
  Pipeline.withArrays spec2 c (W7 m c) fun w => (dat2 (U7 m) c).arrAt w cfg2.N
theorem W8_arr (c : Dev nD) (w : Fin cfg2.W) :
    W8 m c (Proc.devRef .tc (Pipeline.arrRef spec2 w)) = (dat2 (U7 m) c).arrAt w cfg2.N :=
  Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) :=
  Pipeline.withArrays_of_ne spec2 c _ _ b hb

abbrev W9 : Dev nD → Valuation τ sig (Elt F) := fun c => StableHlo.after hostOps3 (W8 m c)
abbrev U9 : (c : Dev nD) → (b : Ref sig .tc) → Buf (Elt F) ((c : Thread nD τ).loc b) := fun c b => W9 m c b
theorem W9_of (c : Dev nD) (r : Ref sig .tc) (h : r ∉ hostOps3_W) : W9 m c (Proc.devRef .tc r) = W8 m c (Proc.devRef .tc r) :=
  StableHlo.after_of_writes_sub hostOps3 _ hostOps3_writes h

def W10 (c : Dev nD) : Valuation τ sig (Elt F) :=
  Pipeline.withArrays spec3 c (W9 m c) fun w => (dat3 (U9 m) c).arrAt w cfg3.N
theorem W10_arr (c : Dev nD) (w : Fin cfg3.W) :
    W10 m c (Proc.devRef .tc (Pipeline.arrRef spec3 w)) = (dat3 (U9 m) c).arrAt w cfg3.N :=
  Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) :=
  Pipeline.withArrays_of_ne spec3 c _ _ b hb

abbrev W11 : Dev nD → Valuation τ sig (Elt F) := fun c => StableHlo.after hostOps4 (W10 m c)
abbrev U11 : (c : Dev nD) → (b : Ref sig .tc) → Buf (Elt F) ((c : Thread nD τ).loc b) := fun c b => W11 m c b
theorem W11_of (c : Dev nD) (r : Ref sig .tc) (h : r ∉ hostOps4_W) : W11 m c (Proc.devRef .tc r) = W10 m c (Proc.devRef .tc r) :=
  StableHlo.after_of_writes_sub hostOps4 _ hostOps4_writes h

def W12 (c : Dev nD) : Valuation τ sig (Elt F) :=
  Pipeline.withArrays spec4 c (W11 m c) fun w => (dat4 (U11 m) c).arrAt w cfg4.N
theorem W12_arr (c : Dev nD) (w : Fin cfg4.W) :
    W12 m c (Proc.devRef .tc (Pipeline.arrRef spec4 w)) = (dat4 (U11 m) c).arrAt w cfg4.N :=
  Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) :=
  Pipeline.withArrays_of_ne spec4 c _ _ b hb

abbrev W13 : Dev nD → Valuation τ sig (Elt F) := fun c => StableHlo.after hostOps5 (W12 m c)
abbrev U13 : (c : Dev nD) → (b : Ref sig .tc) → Buf (Elt F) ((c : Thread nD τ).loc b) := fun c b => W13 m c b
theorem W13_of (c : Dev nD) (r : Ref sig .tc) (h : r ∉ hostOps5_W) : W13 m c (Proc.devRef .tc r) = W12 m c (Proc.devRef .tc r) :=
  StableHlo.after_of_writes_sub hostOps5 _ hostOps5_writes h

def W14 (c : Dev nD) : Valuation τ sig (Elt F) :=
  Pipeline.withArrays spec5 c (W13 m c) fun w => (dat5 (U13 m) c).arrAt w cfg5.N
theorem W14_arr (c : Dev nD) (w : Fin cfg5.W) :
    W14 m c (Proc.devRef .tc (Pipeline.arrRef spec5 w)) = (dat5 (U13 m) c).arrAt w cfg5.N :=
  Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) :=
  Pipeline.withArrays_of_ne spec5 c _ _ b hb

abbrev W15 : Dev nD → Valuation τ sig (Elt F) := fun c => StableHlo.after hostOps6 (W14 m c)
abbrev U15 : (c : Dev nD) → (b : Ref sig .tc) → Buf (Elt F) ((c : Thread nD τ).loc b) := fun c b => W15 m c b
theorem W15_of (c : Dev nD) (r : Ref sig .tc) (h : r ∉ hostOps6_W) : W15 m c (Proc.devRef .tc r) = W14 m c (Proc.devRef .tc r) :=
  StableHlo.after_of_writes_sub hostOps6 _ hostOps6_writes h

def W16 (c : Dev nD) : Valuation τ sig (Elt F) :=
  Pipeline.withArrays spec6 c (W15 m c) fun w => (dat6 (U15 m) c).arrAt w cfg6.N
theorem W16_arr (c : Dev nD) (w : Fin cfg6.W) :
    W16 m c (Proc.devRef .tc (Pipeline.arrRef spec6 w)) = (dat6 (U15 m) c).arrAt w cfg6.N :=
  Pipeline.withArrays_arr spec6 launch6.win.arr_inj c _ _ w
theorem W16_of_ne (c : Dev nD) (b : Ref sig .tc) (hb : ∀ w, Pipeline.arrRef spec6 w ≠ b) :
    W16 m c (Proc.devRef .tc b) = W15 m c (Proc.devRef .tc b) :=
  Pipeline.withArrays_of_ne spec6 c _ _ b hb

abbrev W17 : Dev nD → Valuation τ sig (Elt F) := fun c => StableHlo.after hostOps7 (W16 m c)
theorem W17_of (c : Dev nD) (r : Ref sig .tc) (h : r ∉ hostOps7_W) : W17 m c (Proc.devRef .tc r) = W16 m c (Proc.devRef .tc r) :=
  StableHlo.after_of_writes_sub hostOps7 _ hostOps7_writes h

theorem W17_keep (c : Dev nD) (r : Ref sig .tc)
    (h1 : r ∉ hostOps0_W := by decide) (h2 : r ∉ hostOps0_1_W := by decide)
    (h3 : r ∉ hostOps0_2_W := by decide) (h4 : ∀ w, Pipeline.arrRef spec0 w ≠ r := by decide)
    (h5 : r ∉ hostOps1_W := by decide) (h6 : ∀ w, Pipeline.arrRef spec1 w ≠ r := by decide)
    (h7 : r ∉ hostOps2_W := by decide) (h8 : ∀ w, Pipeline.arrRef spec2 w ≠ r := by decide)
    (h9 : r ∉ hostOps3_W := by decide) (h10 : ∀ w, Pipeline.arrRef spec3 w ≠ r := by decide)
    (h11 : r ∉ hostOps4_W := by decide) (h12 : ∀ w, Pipeline.arrRef spec4 w ≠ r := by decide)
    (h13 : r ∉ hostOps5_W := by decide) (h14 : ∀ w, Pipeline.arrRef spec5 w ≠ r := by decide)
    (h15 : r ∉ hostOps6_W := by decide) (h16 : ∀ w, Pipeline.arrRef spec6 w ≠ r := by decide)
    (h17 : r ∉ hostOps7_W := by decide) :
    W17 m c (Proc.devRef .tc r) = m ((c : Thread nD τ).loc r) :=
  (W17_of m c r h17).trans <|
    (W16_of_ne m c r h16).trans <|
    (W15_of m c r h15).trans <|
    (W14_of_ne m c r h14).trans <|
    (W13_of m c r h13).trans <|
    (W12_of_ne m c r h12).trans <|
    (W11_of m c r h11).trans <|
    (W10_of_ne m c r h10).trans <|
    (W9_of m c r h9).trans <|
    (W8_of_ne m c r h8).trans <|
    (W7_of m c r h7).trans <|
    (W6_of_ne m c r h6).trans <|
    (W5_of m c r h5).trans <|
    (W4_of_ne m c r h4).trans <|
    (W3_of m c r h3).trans <|
    (W2_of m c r h2).trans <|
    (W1_of m c r h1).trans rfl

abbrev admF : (p : Fin 7) → (pcfgs (F := F) p).Adm := fun p => (cfgs p).toPCfg_adm
def pdatF : (p : Fin 7) → (c : Dev nD) → Dat τ (Elt F) Unit ℕ (UR sig nD τ) ℕ (Pipeline.pin (pcfgs (F := F)) admF p) c
  | ⟨0, _⟩ => fun c => dat0 (U3 m) c
  | ⟨1, _⟩ => fun c => dat1 (U5 m) c
  | ⟨2, _⟩ => fun c => dat2 (U7 m) c
  | ⟨3, _⟩ => fun c => dat3 (U9 m) c
  | ⟨4, _⟩ => fun c => dat4 (U11 m) c
  | ⟨5, _⟩ => fun c => dat5 (U13 m) c
  | ⟨6, _⟩ => fun c => dat6 (U15 m) c
abbrev 𝒱F : Variants := Variants.none
abbrev LF : GSem nD τ sig → Finset Unit := fun _ => ∅
abbrev lvF : GSem nD τ sig → Unit → ℕ := fun _ _ => 0
abbrev Rst (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
abbrev TnF (c : Dev nD) : sProp 𝕄 := iprop(StableHlo.held (c : Thread nD τ) (Pipeline.ucRefs τ sig) (W17 m c) ∗ ∃ r, prngReg c r)

set_option backward.isDefEq.respectTransparency.types false in
-- One record serves all seven launches: none has a prefetched table or a semaphore of its own.
def regOf (p : Fin 7) (L : Pipeline.LaunchFacts (nD := nD) (τ := τ) cfgs p) (Win Wout : Dev nD → Valuation τ sig (Elt F))
    (hbody : ∀ c, BodyObligation (pdatF m p c) (defs₀ (F := F)) 𝒱F () Set.univ)
    (hq : ∀ c w, (pdatF m p c).q w = fullShare) (howed : ∀ c t, (pdatF m p c).owed t = 0)
    (hrec : ∀ c t, (pdatF m p c).recorded t = Set.univ)
    (hΦ0 : ∀ c, (pdatF m p c).Φ 0 = Pipeline.ΦA (cfgs p).spec c)
    (hΦN : ∀ c, (pdatF m p c).Φ (Fin.last _) ⊢ Pipeline.ΦA (cfgs p).spec c)
    (hA : ∀ c w, (pdatF m p c).A w = Win c (Pipeline.arrRef (cfgs p).spec w))
    (harr : ∀ c w, Wout c (Proc.devRef .tc (Pipeline.arrRef (cfgs p).spec w)) = (pdatF m p c).arrAt w (cfgs p).N)
    (hne : ∀ c (b : Ref sig .tc), (∀ w, Pipeline.arrRef (cfgs p).spec w ≠ b) → Wout c (Proc.devRef .tc b) = Win c (Proc.devRef .tc b)) :
    Pipeline.RegionSeg (pcfgs (F := F)) admF (pdatF m) () defs₀ 𝒱F LF lvF p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ LF lvF p howed
  pre c := iprop(StableHlo.held (c : Thread nD τ) (Pipeline.ucRefs τ sig) (Win c) ∗ Rst c)
  post c := iprop(StableHlo.held (c : Thread nD τ) (Pipeline.ucRefs τ sig) (Wout c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) admF (pdatF m) L.win L.arr_whole c
      ((pdatF m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun x _ => Or.inl ((hrec c 0).symm ▸ Set.mem_univ x)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) admF (Ix := Unit) (Name := ℕ) (U := UR sig nD τ) (Lvl := ℕ)
      L.win L.arr_whole c (pdatF m) ((pdatF m p c).share_full (hq c))
      (fun b => Win c b) (fun b => Wout c b) ((pdatF m p c).arrAt · (cfgs p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) admF (pdatF m) () defs₀ 𝒱F LF lvF 0 :=
  regOf m 0 launch0 (W3 m) (W4 m) (body_obligation0 (U3 m)) (fun _ _ => rfl) (fun _ _ => rfl) (fun _ _ => rfl) (fun _ => rfl) (fun _ => .rfl)
    (fun _ _ => rfl) (W4_arr m) (W4_of_ne m)
set_option backward.isDefEq.respectTransparency.types false in
def reg1 : Pipeline.RegionSeg (pcfgs (F := F)) admF (pdatF m) () defs₀ 𝒱F LF lvF 1 :=
  regOf m 1 launch1 (W5 m) (W6 m) (body_obligation1 (U5 m)) (fun _ _ => rfl) (fun _ _ => rfl) (fun _ _ => rfl) (fun _ => rfl) (fun _ => .rfl)
    (fun _ _ => rfl) (W6_arr m) (W6_of_ne m)
set_option backward.isDefEq.respectTransparency.types false in
def reg2 : Pipeline.RegionSeg (pcfgs (F := F)) admF (pdatF m) () defs₀ 𝒱F LF lvF 2 :=
  regOf m 2 launch2 (W7 m) (W8 m) (body_obligation2 (U7 m)) (fun _ _ => rfl) (fun _ _ => rfl) (fun _ _ => rfl) (fun _ => rfl) (fun _ => .rfl)
    (fun _ _ => rfl) (W8_arr m) (W8_of_ne m)
set_option backward.isDefEq.respectTransparency.types false in
def reg3 : Pipeline.RegionSeg (pcfgs (F := F)) admF (pdatF m) () defs₀ 𝒱F LF lvF 3 :=
  regOf m 3 launch3 (W9 m) (W10 m) (body_obligation3 (U9 m)) (fun _ _ => rfl) (fun _ _ => rfl) (fun _ _ => rfl) (fun _ => rfl) (fun _ => .rfl)
    (fun _ _ => rfl) (W10_arr m) (W10_of_ne m)
set_option backward.isDefEq.respectTransparency.types false in
def reg4 : Pipeline.RegionSeg (pcfgs (F := F)) admF (pdatF m) () defs₀ 𝒱F LF lvF 4 :=
  regOf m 4 launch4 (W11 m) (W12 m) (body_obligation4 (U11 m)) (fun _ _ => rfl) (fun _ _ => rfl) (fun _ _ => rfl) (fun _ => rfl) (fun _ => .rfl)
    (fun _ _ => rfl) (W12_arr m) (W12_of_ne m)
set_option backward.isDefEq.respectTransparency.types false in
def reg5 : Pipeline.RegionSeg (pcfgs (F := F)) admF (pdatF m) () defs₀ 𝒱F LF lvF 5 :=
  regOf m 5 launch5 (W13 m) (W14 m) (body_obligation5 (U13 m)) (fun _ _ => rfl) (fun _ _ => rfl) (fun _ _ => rfl) (fun _ => rfl) (fun _ => .rfl)
    (fun _ _ => rfl) (W14_arr m) (W14_of_ne m)
set_option backward.isDefEq.respectTransparency.types false in
def reg6 : Pipeline.RegionSeg (pcfgs (F := F)) admF (pdatF m) () defs₀ 𝒱F LF lvF 6 :=
  regOf m 6 launch6 (W15 m) (W16 m) (body_obligation6 (U15 m)) (fun _ _ => rfl) (fun _ _ => rfl) (fun _ _ => rfl) (Φ6_zero (U15 m)) (Φ6_last (U15 m))
    (fun _ _ => rfl) (W16_arr m) (W16_of_ne m)

abbrev segsF (c : Dev nD) : List (Pipeline.Seg (pcfgs (F := F)) admF (pdatF m) () defs₀ 𝒱F LF lvF) :=
  [ .host (hsegF hostOps0 hostOps0_sub hostOps0_fresh (W0 m)),
    .host (hsegF hostOps0_1 hostOps0_1_sub hostOps0_1_fresh (W1 m)),
    .host (hsegF hostOps0_2 hostOps0_2_sub hostOps0_2_fresh (W2 m)),
    .region (reg0 m),
    .host (hsegF hostOps1 hostOps1_sub hostOps1_fresh (W4 m)),
    .region (reg1 m),
    .host (hsegF hostOps2 hostOps2_sub hostOps2_fresh (W6 m)),
    .region (reg2 m),
    .host (hsegF hostOps3 hostOps3_sub hostOps3_fresh (W8 m)),
    .region (reg3 m),
    .host (hsegF hostOps4 hostOps4_sub hostOps4_fresh (W10 m)),
    .region (reg4 m),
    .host (hsegF hostOps5 hostOps5_sub hostOps5_fresh (W12 m)),
    .region (reg5 m),
    .host (hsegF hostOps6 hostOps6_sub hostOps6_fresh (W14 m)),
    .region (reg6 m),
    .host (hsegF hostOps7 hostOps7_sub hostOps7_fresh (W16 m)) ]

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W17 m c b) := by
  refine Pipeline.θ_run_regions_kit_dev (pcfgs (F := F)) admF (pdatF m) () cellOf_inj emb₁ defs₀ 𝒱F LF lvF m ρ main
    (segsF m)
    (fun c Q => by
      rewrite [main_chain c, Seg.run_eq_chain,
        show (segsF m c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [segsF, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := TnF m)
    (hch := fun c => ⟨.rfl, .rfl, .rfl, .rfl, .rfl, .rfl, .rfl, .rfl, .rfl, .rfl, .rfl, .rfl, .rfl, .rfl, .rfl, .rfl, .rfl, ?_⟩)
    (hinit := ?_)
    (QY := fun c s => ∀ b ∈ Pipeline.ucRefs τ sig, s.mem (((c : Thread nD τ)).1, b) = W17 m c b)
    (hfin := fun c s' => ?_) (hQ := fun _ h => h)
  · refine (show (iprop(StableHlo.held (c : Thread nD τ) (Pipeline.ucRefs τ sig) (W17 m c) ∗ Rst c) : sProp 𝕄)
      ⊢ iprop(TnF m c ∗ ∃ W, owes (c : Thread nD τ) (0 : CellTallies nD τ sig Unit) W) from ?_)
    iintro ⟨Hh, Hp, HO⟩
    isplitl [Hh Hp]
    · isplitl [Hh]; · iexact Hh
      iexact Hp
    iexact HO
  · refine Pipeline.initEach LF lvF fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (W17 m c) s')
    isplitl [Hh] <;> iassumption

theorem mem_ucF (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_result : θ_run defs (onTc (τ := τ) (main (F := F))) ⟨m, fun _ => 0, ρ⟩ (fun r => ∀ c : Dev nD,
      r.2.mem ((c.tc : Thread nD τ).loc main_v134) = W17 m c (Proc.devRef .tc main_v134)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_ucF main_v134 (by decide)),
      (h c _ (mem_ucF main_arg0 (by decide))).trans (W17_keep m c main_arg0),
      (h c _ (mem_ucF main_arg1 (by decide))).trans (W17_keep m c main_arg1),
      (h c _ (mem_ucF main_arg2 (by decide))).trans (W17_keep m c main_arg2),
      (h c _ (mem_ucF main_arg3 (by decide))).trans (W17_keep m c main_arg3),
      (h c _ (mem_ucF main_arg4 (by decide))).trans (W17_keep m c main_arg4),
      (h c _ (mem_ucF main_arg5 (by decide))).trans (W17_keep m c main_arg5),
      (h c _ (mem_ucF main_arg6 (by decide))).trans (W17_keep m c main_arg6),
      (h c _ (mem_ucF main_arg7 (by decide))).trans (W17_keep m c main_arg7),
      (h c _ (mem_ucF main_arg8 (by decide))).trans (W17_keep m c main_arg8),
      (h c _ (mem_ucF main_arg9 (by decide))).trans (W17_keep m c main_arg9),
      (h c _ (mem_ucF main_arg10 (by decide))).trans (W17_keep m c main_arg10),
      (h c _ (mem_ucF main_arg11 (by decide))).trans (W17_keep m c main_arg11)⟩) (run_main m ρ)

end Cert.Kernel.Fr

end
-- ==== Proof.Val.Carry.lean ====
/-
  Buffers carried unchanged between two boundaries of the kernel program's @main: no host stretch in between writes the
  buffer and no launch in between has it as a window.
-/
import proofs.«425171_j32186484916934_3_alg».proof.Proof.Fr.Run

set_option maxRecDepth 16384

noncomputable section

namespace Cert.KernelIdeal.Val

open Cert.KernelIdeal Cert.KernelIdeal.Gen Cert.KernelIdeal.Fr Idealize.ShloMosaic Idealize.ShloMosaic.TcCoe

variable {F : FTy → Type} [FloatOps F] (m : (ℓ : Loc nD τ sig) → Buf (Elt F) ℓ) (c : Dev nD)

theorem carry_main_v4_1_3 : W3 m c (Proc.devRef .tc main_v4) = W1 m c (Proc.devRef .tc main_v4) :=
  (W3_of m c main_v4 (by decide)).trans <| (W2_of m c main_v4 (by decide)).trans <| rfl
theorem carry_main_arg4_0_1 : W1 m c (Proc.devRef .tc main_arg4) = W0 m c (Proc.devRef .tc main_arg4) :=
  (W1_of m c main_arg4 (by decide)).trans <| rfl
theorem carry_main_v8_4_5 : W5 m c (Proc.devRef .tc main_v8) = W4 m c (Proc.devRef .tc main_v8) :=
  (W5_of m c main_v8 (by decide)).trans <| rfl
theorem carry_main_v8_4_7 : W7 m c (Proc.devRef .tc main_v8) = W4 m c (Proc.devRef .tc main_v8) :=
  (W7_of m c main_v8 (by decide)).trans <| ((W6_arr m c 0).trans (((dat1 (U5 m) c).arrAt_in 0 rfl _).trans (A_eq1 (U5 m) c 0))).trans <| (W5_of m c main_v8 (by decide)).trans <| rfl
theorem carry_main_arg6_0_4 : W4 m c (Proc.devRef .tc main_arg6) = W0 m c (Proc.devRef .tc main_arg6) :=
  (W4_of_ne m c main_arg6 (by decide)).trans <| (W3_of m c main_arg6 (by decide)).trans <| (W2_of m c main_arg6 (by decide)).trans <| (W1_of m c main_arg6 (by decide)).trans <| rfl
theorem carry_main_arg7_0_4 : W4 m c (Proc.devRef .tc main_arg7) = W0 m c (Proc.devRef .tc main_arg7) :=
  (W4_of_ne m c main_arg7 (by decide)).trans <| (W3_of m c main_arg7 (by decide)).trans <| (W2_of m c main_arg7 (by decide)).trans <| (W1_of m c main_arg7 (by decide)).trans <| rfl
theorem carry_main_arg6_0_6 : W6 m c (Proc.devRef .tc main_arg6) = W0 m c (Proc.devRef .tc main_arg6) :=
  (W6_of_ne m c main_arg6 (by decide)).trans <| (W5_of m c main_arg6 (by decide)).trans <| (W4_of_ne m c main_arg6 (by decide)).trans <| (W3_of m c main_arg6 (by decide)).trans <| (W2_of m c main_arg6 (by decide)).trans <| (W1_of m c main_arg6 (by decide)).trans <| rfl
theorem carry_main_arg7_0_6 : W6 m c (Proc.devRef .tc main_arg7) = W0 m c (Proc.devRef .tc main_arg7) :=
  (W6_of_ne m c main_arg7 (by decide)).trans <| (W5_of m c main_arg7 (by decide)).trans <| (W4_of_ne m c main_arg7 (by decide)).trans <| (W3_of m c main_arg7 (by decide)).trans <| (W2_of m c main_arg7 (by decide)).trans <| (W1_of m c main_arg7 (by decide)).trans <| rfl
theorem carry_main_arg6_0_8 : W8 m c (Proc.devRef .tc main_arg6) = W0 m c (Proc.devRef .tc main_arg6) :=
  (W8_of_ne m c main_arg6 (by decide)).trans <| (W7_of m c main_arg6 (by decide)).trans <| (W6_of_ne m c main_arg6 (by decide)).trans <| (W5_of m c main_arg6 (by decide)).trans <| (W4_of_ne m c main_arg6 (by decide)).trans <| (W3_of m c main_arg6 (by decide)).trans <| (W2_of m c main_arg6 (by decide)).trans <| (W1_of m c main_arg6 (by decide)).trans <| rfl
theorem carry_main_arg7_0_8 : W8 m c (Proc.devRef .tc main_arg7) = W0 m c (Proc.devRef .tc main_arg7) :=
  (W8_of_ne m c main_arg7 (by decide)).trans <| (W7_of m c main_arg7 (by decide)).trans <| (W6_of_ne m c main_arg7 (by decide)).trans <| (W5_of m c main_arg7 (by decide)).trans <| (W4_of_ne m c main_arg7 (by decide)).trans <| (W3_of m c main_arg7 (by decide)).trans <| (W2_of m c main_arg7 (by decide)).trans <| (W1_of m c main_arg7 (by decide)).trans <| rfl
theorem carry_main_arg0_0_4 : W4 m c (Proc.devRef .tc main_arg0) = W0 m c (Proc.devRef .tc main_arg0) :=
  (W4_of_ne m c main_arg0 (by decide)).trans <| (W3_of m c main_arg0 (by decide)).trans <| (W2_of m c main_arg0 (by decide)).trans <| (W1_of m c main_arg0 (by decide)).trans <| rfl
theorem carry_main_arg5_0_4 : W4 m c (Proc.devRef .tc main_arg5) = W0 m c (Proc.devRef .tc main_arg5) :=
  (W4_of_ne m c main_arg5 (by decide)).trans <| (W3_of m c main_arg5 (by decide)).trans <| (W2_of m c main_arg5 (by decide)).trans <| (W1_of m c main_arg5 (by decide)).trans <| rfl
theorem carry_main_v23_5_6 : W6 m c (Proc.devRef .tc main_v23) = W5 m c (Proc.devRef .tc main_v23) :=
  (W6_of_ne m c main_v23 (by decide)).trans <| rfl
theorem carry_main_v23_5_8 : W8 m c (Proc.devRef .tc main_v23) = W5 m c (Proc.devRef .tc main_v23) :=
  (W8_of_ne m c main_v23 (by decide)).trans <| (W7_of m c main_v23 (by decide)).trans <| (W6_of_ne m c main_v23 (by decide)).trans <| rfl
theorem carry_main_v23_5_10 : W10 m c (Proc.devRef .tc main_v23) = W5 m c (Proc.devRef .tc main_v23) :=
  (W10_of_ne m c main_v23 (by decide)).trans <| (W9_of m c main_v23 (by decide)).trans <| (W8_of_ne m c main_v23 (by decide)).trans <| (W7_of m c main_v23 (by decide)).trans <| (W6_of_ne m c main_v23 (by decide)).trans <| rfl
theorem carry_main_v1_1_6 : W6 m c (Proc.devRef .tc main_v1) = W1 m c (Proc.devRef .tc main_v1) :=
  (W6_of_ne m c main_v1 (by decide)).trans <| (W5_of m c main_v1 (by decide)).trans <| (W4_of_ne m c main_v1 (by decide)).trans <| (W3_of m c main_v1 (by decide)).trans <| (W2_of m c main_v1 (by decide)).trans <| rfl
theorem carry_main_v1_1_8 : W8 m c (Proc.devRef .tc main_v1) = W1 m c (Proc.devRef .tc main_v1) :=
  (W8_of_ne m c main_v1 (by decide)).trans <| (W7_of m c main_v1 (by decide)).trans <| (W6_of_ne m c main_v1 (by decide)).trans <| (W5_of m c main_v1 (by decide)).trans <| (W4_of_ne m c main_v1 (by decide)).trans <| (W3_of m c main_v1 (by decide)).trans <| (W2_of m c main_v1 (by decide)).trans <| rfl
theorem carry_main_v1_1_10 : W10 m c (Proc.devRef .tc main_v1) = W1 m c (Proc.devRef .tc main_v1) :=
  (W10_of_ne m c main_v1 (by decide)).trans <| (W9_of m c main_v1 (by decide)).trans <| (W8_of_ne m c main_v1 (by decide)).trans <| (W7_of m c main_v1 (by decide)).trans <| (W6_of_ne m c main_v1 (by decide)).trans <| (W5_of m c main_v1 (by decide)).trans <| (W4_of_ne m c main_v1 (by decide)).trans <| (W3_of m c main_v1 (by decide)).trans <| (W2_of m c main_v1 (by decide)).trans <| rfl
theorem carry_main_v3_1_6 : W6 m c (Proc.devRef .tc main_v3) = W1 m c (Proc.devRef .tc main_v3) :=
  (W6_of_ne m c main_v3 (by decide)).trans <| (W5_of m c main_v3 (by decide)).trans <| (W4_of_ne m c main_v3 (by decide)).trans <| (W3_of m c main_v3 (by decide)).trans <| (W2_of m c main_v3 (by decide)).trans <| rfl
theorem carry_main_v3_1_8 : W8 m c (Proc.devRef .tc main_v3) = W1 m c (Proc.devRef .tc main_v3) :=
  (W8_of_ne m c main_v3 (by decide)).trans <| (W7_of m c main_v3 (by decide)).trans <| (W6_of_ne m c main_v3 (by decide)).trans <| (W5_of m c main_v3 (by decide)).trans <| (W4_of_ne m c main_v3 (by decide)).trans <| (W3_of m c main_v3 (by decide)).trans <| (W2_of m c main_v3 (by decide)).trans <| rfl
theorem carry_main_v3_1_10 : W10 m c (Proc.devRef .tc main_v3) = W1 m c (Proc.devRef .tc main_v3) :=
  (W10_of_ne m c main_v3 (by decide)).trans <| (W9_of m c main_v3 (by decide)).trans <| (W8_of_ne m c main_v3 (by decide)).trans <| (W7_of m c main_v3 (by decide)).trans <| (W6_of_ne m c main_v3 (by decide)).trans <| (W5_of m c main_v3 (by decide)).trans <| (W4_of_ne m c main_v3 (by decide)).trans <| (W3_of m c main_v3 (by decide)).trans <| (W2_of m c main_v3 (by decide)).trans <| rfl
theorem carry_main_arg2_0_6 : W6 m c (Proc.devRef .tc main_arg2) = W0 m c (Proc.devRef .tc main_arg2) :=
  (W6_of_ne m c main_arg2 (by decide)).trans <| (W5_of m c main_arg2 (by decide)).trans <| (W4_of_ne m c main_arg2 (by decide)).trans <| (W3_of m c main_arg2 (by decide)).trans <| (W2_of m c main_arg2 (by decide)).trans <| (W1_of m c main_arg2 (by decide)).trans <| rfl
theorem carry_main_arg2_0_8 : W8 m c (Proc.devRef .tc main_arg2) = W0 m c (Proc.devRef .tc main_arg2) :=
  (W8_of_ne m c main_arg2 (by decide)).trans <| (W7_of m c main_arg2 (by decide)).trans <| (W6_of_ne m c main_arg2 (by decide)).trans <| (W5_of m c main_arg2 (by decide)).trans <| (W4_of_ne m c main_arg2 (by decide)).trans <| (W3_of m c main_arg2 (by decide)).trans <| (W2_of m c main_arg2 (by decide)).trans <| (W1_of m c main_arg2 (by decide)).trans <| rfl
theorem carry_main_arg2_0_10 : W10 m c (Proc.devRef .tc main_arg2) = W0 m c (Proc.devRef .tc main_arg2) :=
  (W10_of_ne m c main_arg2 (by decide)).trans <| (W9_of m c main_arg2 (by decide)).trans <| (W8_of_ne m c main_arg2 (by decide)).trans <| (W7_of m c main_arg2 (by decide)).trans <| (W6_of_ne m c main_arg2 (by decide)).trans <| (W5_of m c main_arg2 (by decide)).trans <| (W4_of_ne m c main_arg2 (by decide)).trans <| (W3_of m c main_arg2 (by decide)).trans <| (W2_of m c main_arg2 (by decide)).trans <| (W1_of m c main_arg2 (by decide)).trans <| rfl
theorem carry_main_v61_0_8_9 : W9 m c (Proc.devRef .tc main_v61_0) = W8 m c (Proc.devRef .tc main_v61_0) :=
  (W9_of m c main_v61_0 (by decide)).trans <| rfl
theorem carry_main_v92_0_10_11 : W11 m c (Proc.devRef .tc main_v92_0) = W10 m c (Proc.devRef .tc main_v92_0) :=
  (W11_of m c main_v92_0 (by decide)).trans <| rfl
theorem carry_main_v123_12_13 : W13 m c (Proc.devRef .tc main_v123) = W12 m c (Proc.devRef .tc main_v123) :=
  (W13_of m c main_v123 (by decide)).trans <| rfl
theorem carry_main_v130_14_15 : W15 m c (Proc.devRef .tc main_v130) = W14 m c (Proc.devRef .tc main_v130) :=
  (W15_of m c main_v130 (by decide)).trans <| rfl
theorem carry_main_v5_1_15 : W15 m c (Proc.devRef .tc main_v5) = W1 m c (Proc.devRef .tc main_v5) :=
  (W15_of m c main_v5 (by decide)).trans <| (W14_of_ne m c main_v5 (by decide)).trans <| (W13_of m c main_v5 (by decide)).trans <| (W12_of_ne m c main_v5 (by decide)).trans <| (W11_of m c main_v5 (by decide)).trans <| (W10_of_ne m c main_v5 (by decide)).trans <| (W9_of m c main_v5 (by decide)).trans <| (W8_of_ne m c main_v5 (by decide)).trans <| (W7_of m c main_v5 (by decide)).trans <| (W6_of_ne m c main_v5 (by decide)).trans <| (W5_of m c main_v5 (by decide)).trans <| (W4_of_ne m c main_v5 (by decide)).trans <| (W3_of m c main_v5 (by decide)).trans <| (W2_of m c main_v5 (by decide)).trans <| rfl
theorem carry_main_arg8_0_10 : W10 m c (Proc.devRef .tc main_arg8) = W0 m c (Proc.devRef .tc main_arg8) :=
  (W10_of_ne m c main_arg8 (by decide)).trans <| (W9_of m c main_arg8 (by decide)).trans <| (W8_of_ne m c main_arg8 (by decide)).trans <| (W7_of m c main_arg8 (by decide)).trans <| (W6_of_ne m c main_arg8 (by decide)).trans <| (W5_of m c main_arg8 (by decide)).trans <| (W4_of_ne m c main_arg8 (by decide)).trans <| (W3_of m c main_arg8 (by decide)).trans <| (W2_of m c main_arg8 (by decide)).trans <| (W1_of m c main_arg8 (by decide)).trans <| rfl
theorem carry_main_arg9_0_10 : W10 m c (Proc.devRef .tc main_arg9) = W0 m c (Proc.devRef .tc main_arg9) :=
  (W10_of_ne m c main_arg9 (by decide)).trans <| (W9_of m c main_arg9 (by decide)).trans <| (W8_of_ne m c main_arg9 (by decide)).trans <| (W7_of m c main_arg9 (by decide)).trans <| (W6_of_ne m c main_arg9 (by decide)).trans <| (W5_of m c main_arg9 (by decide)).trans <| (W4_of_ne m c main_arg9 (by decide)).trans <| (W3_of m c main_arg9 (by decide)).trans <| (W2_of m c main_arg9 (by decide)).trans <| (W1_of m c main_arg9 (by decide)).trans <| rfl
theorem carry_main_arg8_0_12 : W12 m c (Proc.devRef .tc main_arg8) = W0 m c (Proc.devRef .tc main_arg8) :=
  (W12_of_ne m c main_arg8 (by decide)).trans <| (W11_of m c main_arg8 (by decide)).trans <| (W10_of_ne m c main_arg8 (by decide)).trans <| (W9_of m c main_arg8 (by decide)).trans <| (W8_of_ne m c main_arg8 (by decide)).trans <| (W7_of m c main_arg8 (by decide)).trans <| (W6_of_ne m c main_arg8 (by decide)).trans <| (W5_of m c main_arg8 (by decide)).trans <| (W4_of_ne m c main_arg8 (by decide)).trans <| (W3_of m c main_arg8 (by decide)).trans <| (W2_of m c main_arg8 (by decide)).trans <| (W1_of m c main_arg8 (by decide)).trans <| rfl
theorem carry_main_arg9_0_12 : W12 m c (Proc.devRef .tc main_arg9) = W0 m c (Proc.devRef .tc main_arg9) :=
  (W12_of_ne m c main_arg9 (by decide)).trans <| (W11_of m c main_arg9 (by decide)).trans <| (W10_of_ne m c main_arg9 (by decide)).trans <| (W9_of m c main_arg9 (by decide)).trans <| (W8_of_ne m c main_arg9 (by decide)).trans <| (W7_of m c main_arg9 (by decide)).trans <| (W6_of_ne m c main_arg9 (by decide)).trans <| (W5_of m c main_arg9 (by decide)).trans <| (W4_of_ne m c main_arg9 (by decide)).trans <| (W3_of m c main_arg9 (by decide)).trans <| (W2_of m c main_arg9 (by decide)).trans <| (W1_of m c main_arg9 (by decide)).trans <| rfl
theorem carry_main_arg10_0_14 : W14 m c (Proc.devRef .tc main_arg10) = W0 m c (Proc.devRef .tc main_arg10) :=
  (W14_of_ne m c main_arg10 (by decide)).trans <| (W13_of m c main_arg10 (by decide)).trans <| (W12_of_ne m c main_arg10 (by decide)).trans <| (W11_of m c main_arg10 (by decide)).trans <| (W10_of_ne m c main_arg10 (by decide)).trans <| (W9_of m c main_arg10 (by decide)).trans <| (W8_of_ne m c main_arg10 (by decide)).trans <| (W7_of m c main_arg10 (by decide)).trans <| (W6_of_ne m c main_arg10 (by decide)).trans <| (W5_of m c main_arg10 (by decide)).trans <| (W4_of_ne m c main_arg10 (by decide)).trans <| (W3_of m c main_arg10 (by decide)).trans <| (W2_of m c main_arg10 (by decide)).trans <| (W1_of m c main_arg10 (by decide)).trans <| rfl
theorem carry_main_arg11_0_14 : W14 m c (Proc.devRef .tc main_arg11) = W0 m c (Proc.devRef .tc main_arg11) :=
  (W14_of_ne m c main_arg11 (by decide)).trans <| (W13_of m c main_arg11 (by decide)).trans <| (W12_of_ne m c main_arg11 (by decide)).trans <| (W11_of m c main_arg11 (by decide)).trans <| (W10_of_ne m c main_arg11 (by decide)).trans <| (W9_of m c main_arg11 (by decide)).trans <| (W8_of_ne m c main_arg11 (by decide)).trans <| (W7_of m c main_arg11 (by decide)).trans <| (W6_of_ne m c main_arg11 (by decide)).trans <| (W5_of m c main_arg11 (by decide)).trans <| (W4_of_ne m c main_arg11 (by decide)).trans <| (W3_of m c main_arg11 (by decide)).trans <| (W2_of m c main_arg11 (by decide)).trans <| (W1_of m c main_arg11 (by decide)).trans <| rfl

end Cert.KernelIdeal.Val

end
-- ==== Proof.LibPlainDot.lean ====
import Idealize.ShloMosaic.PureOps.Ideal.Laws
import Idealize.ShloMosaic.Lib.ValueIdx

noncomputable section

namespace Cert.LibPlainDot

open Idealize.ShloMosaic Idealize.ShloMosaic.ValueIdx

abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : Nat} (wf : DotDims.WF ⟨2, ![M, K]⟩ ⟨2, ![K, N]⟩ ⟨2, ![M, N]⟩ [1] [0] [0] [1] [] [])

theorem lhs_row (j : (⟨2, ![M, N]⟩ : Shape).Idx) (k : (plainDims M K N wf).contr.Idx) :
    ((plainDims M K N wf).lhsIdx j k 0).val = (j 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl

theorem lhs_col (j : (⟨2, ![M, N]⟩ : Shape).Idx) (k : (plainDims M K N wf).contr.Idx) :
    ((plainDims M K N wf).lhsIdx j k 1).val = (k ⟨0, Nat.one_pos⟩).val :=
  (plainDims M K N wf).lhsIdx_val_of_single rfl j k

theorem rhs_row (j : (⟨2, ![M, N]⟩ : Shape).Idx) (k : (plainDims M K N wf).contr.Idx) :
    ((plainDims M K N wf).rhsIdx j k 0).val = (k ⟨0, Nat.one_pos⟩).val :=
  (plainDims M K N wf).rhsIdx_val_of_single rfl j k

theorem rhs_col (j : (⟨2, ![M, N]⟩ : Shape).Idx) (k : (plainDims M K N wf).contr.Idx) :
    ((plainDims M K N wf).rhsIdx j k 1).val = (j 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

theorem sum_contr {α : Type} [AddCommMonoid α] (f : (⟨2, ![M, K]⟩ : Shape).Idx → (⟨2, ![K, N]⟩ : Shape).Idx → α)
    (p : Fin M) (q : Fin N) :
    ∑ k : (plainDims M K N wf).contr.Idx, f ((plainDims M K N wf).lhsIdx (ix2 p q) k) ((plainDims M K N wf).rhsIdx (ix2 p q) k)
      = ∑ k : Fin K, f (ix2 p k) (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply]
  exact sum_contr wf (fun a b => l a * r b) p q

theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q)
      = ∑ k : Fin K, l (ix2 p k) * r (ix2 k q) := by
  rw [Ideal.dotGeneral_apply]
  exact sum_contr wf (fun a b => l a * r b) p q

end

end Cert.LibPlainDot

end
-- ==== Proof.LibSlice.lean ====
import Idealize.ShloMosaic.PureOps.Ideal
import Idealize.ShloMosaic.Lib.ValueIdx
import Idealize.ShloMosaic.Lib.Pipeline.Value

noncomputable section

namespace Cert.LibSlice

open Idealize.ShloMosaic Idealize.ShloMosaic.ValueIdx

theorem mat_slice_apply {α : Type} {L r a b : Nat} (W : (⟨3, ![L, r, b]⟩ : Shape).Idx → α) (l : Fin L) (off : Nat) (hoff : off + a ≤ r)
    (hs : (⟨3, ![L, r, b]⟩ : Shape).Slices ![l.val, off, 0] ⟨3, ![1, a, b]⟩)
    (hc : (⟨3, ![1, a, b]⟩ : Shape).ShapeCasts ⟨2, ![a, b]⟩) (d : Fin a) (k : Fin b) :
    shapeCast ⟨2, ![a, b]⟩ (extractStridedSlice ⟨3, ![1, a, b]⟩ ![l.val, off, 0] W hs) hc (ix2 d k)
      = W (ix3 l (⟨off + d.val, by omega⟩ : Fin r) k) := by
  refine (shapeCast_apply _ hc (ix2 d k) (ix3 (0 : Fin 1) d k) ?_).trans ?_
  · rw [Shape.rowMajor_val_three, Shape.rowMajor_val_two]
    show ((0 : Nat) * a + d.val) * b + k.val = d.val * b + k.val
    rw [Nat.zero_mul, Nat.zero_add]
  · exact extractStridedSlice_apply _ W hs _ _ (fun x => match x with
      | ⟨0, _⟩ => by show l.val = l.val + 0; omega
      | ⟨1, _⟩ => by show off + d.val = off + d.val; rfl
      | ⟨2, _⟩ => by show k.val = 0 + k.val; omega)

theorem row_of_vec_apply {α : Type} {a : Nat} (v : (⟨1, ![a]⟩ : Shape).Idx → α)
    (hc : (⟨1, ![a]⟩ : Shape).ShapeCasts ⟨2, ![1, a]⟩) (k : Fin a) :
    shapeCast ⟨2, ![1, a]⟩ v hc (ix2 (0 : Fin 1) k) = v (ix1 k) := by
  refine shapeCast_apply v hc (ix2 (0 : Fin 1) k) (ix1 k) ?_
  rw [Shape.rowMajor_val_two, Shape.rowMajor_val_one]
  show k.val = (0 : Nat) * a + k.val
  rw [Nat.zero_mul, Nat.zero_add]

theorem col_of_vec_apply {α : Type} {a : Nat} (v : (⟨1, ![a]⟩ : Shape).Idx → α)
    (hc : (⟨1, ![a]⟩ : Shape).ShapeCasts ⟨2, ![a, 1]⟩) (n : Fin a) :
    shapeCast ⟨2, ![a, 1]⟩ v hc (ix2 n (0 : Fin 1)) = v (ix1 n) := by
  refine shapeCast_apply v hc (ix2 n (0 : Fin 1)) (ix1 n) ?_
  rw [Shape.rowMajor_val_two, Shape.rowMajor_val_one]
  show n.val = n.val * 1 + (0 : Nat)
  rw [Nat.mul_one, Nat.add_zero]

theorem truncf_ideal {s : Shape} {φ ψ : FTy} (x : FVec Ideal s φ) (h : ψ.bits < φ.bits) :
    (truncf ψ x h : s.Idx → EReal) = x := by
  funext i
  rfl

end Cert.LibSlice

end
-- ==== Proof.Val.K0.lean ====
import proofs.«425171_j32186484916934_3_alg».proof.Proof.Fr.R0
import proofs.«425171_j32186484916934_3_alg».proof.Proof.LibPlainDot
import proofs.«425171_j32186484916934_3_alg».proof.Proof.LibSlice
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Fr Idealize.ShloMosaic Idealize.ShloMosaic.ValueIdx
open Idealize.ShloMosaic.TcCoe
open Idealize.ShloMosaic.Pipeline (Dat)

def hot (w : BitVec 32) (k : Fin 128) : EReal := if w = BitVec.ofNat 32 k.val then 1 else 0

def embRow (xs : S50000x1.Idx → BitVec 32) (tbl : S128x128.Idx → EReal) (r : Fin 50000) (j : Fin 128) : EReal :=
  ∑ k : Fin 128, hot (xs (ix2 r (0 : Fin 1))) k * tbl (ix2 k j)

def embAll (xs : S50000x1.Idx → BitVec 32) (tbl : S128x128.Idx → EReal) : S50000x128.Idx → EReal :=
  fun i => embRow xs tbl ⟨(i 0).val, idx2_lt0 i⟩ ⟨(i 1).val, idx2_lt1 i⟩

theorem embAll_apply_of (xs : S50000x1.Idx → BitVec 32) (tbl : S128x128.Idx → EReal) (i : S50000x128.Idx)
    (r : Fin 50000) (j : Fin 128) (h0 : (i 0).val = r.val) (h1 : (i 1).val = j.val) :
    embAll xs tbl i = embRow xs tbl r j := by
  unfold embAll
  congr 1
  · exact Fin.ext h0
  · exact Fin.ext h1

theorem bit_to_number (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have e : IntOp.cmpi .eq a b = 1#1 := by simp [IntOp.cmpi, h]
    rw [e, if_pos h, show ((1#1 : BitVec 1).setWidth 32).toInt = 1 from by decide]
    simp
  · have e : IntOp.cmpi .eq a b = 0#1 := by
      show BitVec.ofBool (a == b) = 0#1
      rw [show (a == b) = false from beq_eq_false_iff_ne.mpr h]
      rfl
    rw [e, if_neg h, show ((0#1 : BitVec 1).setWidth 32).toInt = 0 from by decide]
    simp

theorem pay_apply (x : Vec Ideal S5000x1 .i32) (tbl : Vec Ideal S128x128 .bf16) (p : Fin 5000) (j : Fin 128) :
    k0_pay1 (F := Ideal) x tbl (ix2 p j)
      = ∑ k : Fin 128, hot (x (ix2 p (0 : Fin 1))) k * tbl (ix2 k j) := by
  unfold k0_pay1
  dsimp only
  refine (Cert.LibPlainDot.matmul_zero_apply dot_S5000x128_S128x128_S5000x128_1_0_0_1_n_n_wf none _ _ p j).trans ?_
  refine Finset.sum_congr rfl fun k _ => ?_
  rw [shapeCast_self, shapeCast_self]
  refine congrArg (· * tbl (ix2 k j)) ?_
  rw [truncf_apply, sitofp_apply, extui_apply]
  refine (bit_to_number _ _).trans ?_
  unfold hot
  rw [broadcastTo_apply x broadcasts_S5000x1_S5000x128 (ix2 p k) (ix2 p (0 : Fin 1)) (fun a => match a with
      | ⟨0, _⟩ => by show p.val = if (5000 : Nat) = 1 then 0 else p.val; rw [if_neg (by decide)]
      | ⟨1, _⟩ => by show (0 : Nat) = if (1 : Nat) = 1 then 0 else _; rw [if_pos rfl]),
    iota_single_apply]

variable (V : (c : Dev nD) → (b : Ref sig .tc) → Buf (Elt Ideal) ((c : Thread nD τ).loc b))

theorem zero_offsets : (![0, 0] : Fin 2 → Nat) = fun _ => 0 := funext fun a => by fin_cases a <;> rfl

theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem types_block_apply (c : Dev nD) (t : Fin cfg0.N) (p : Fin 5000) (r : Fin 50000) (hr : r.val = t.val * 5000 + p.val) :
    (iblk0 V c 0 t : Vec Ideal S5000x1 .i32) (ix2 p (0 : Fin 1))
      = (V c main_v4 : S50000x1.Idx → BitVec 32) (ix2 r (0 : Fin 1)) := by
  obtain ⟨e0, e1, -, -, -, -⟩ := index_facts t
  unfold iblk0
  rw [View.read_apply]
  show (V c main_v4 : S50000x1.Idx → BitVec 32) _ = _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 1 + 1 * 0 = 0; rw [e1]

theorem table_block_apply (c : Dev nD) (t : Fin cfg0.N) (k j : Fin 128) :
    (iblk0 V c 1 t : Vec Ideal S128x128 .bf16) (ix2 k j) = (V c main_v7 : S128x128.Idx → EReal) (ix2 k j) := by
  obtain ⟨-, -, e0, e1, -, -⟩ := index_facts t
  unfold iblk0
  rw [View.read_apply]
  show (V c main_v7 : S128x128.Idx → EReal) _ = _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * j.val = j.val; rw [e1]; omega

theorem flushed_eq (c : Dev nD) (t : Fin cfg0.N) :
    (dat0 (F := Ideal) V c).flushed 2 t
      = ((cfg0.win 2).blk t).view.read (Elt Ideal) (embAll (V c main_v4) (V c main_v7)) := by
  show (cfg0.win 2).cut (grid0.coords t) ((dat0 (F := Ideal) V c).after 2 t) = _
  rw [after0_2]
  unfold out0_2
  rw [View.canon_unit_zero zero_offsets]
  simp only [View.ld_unit_zero (S := S5000x1) zero_offsets, View.ld_unit_zero (S := S128x128) zero_offsets]
  obtain ⟨-, -, -, -, e0, e1⟩ := index_facts t
  funext y
  obtain ⟨p, j, rfl⟩ : ∃ (p : Fin 5000) (j : Fin 128), y = ix2 p j := ⟨y 0, y 1, eq_ix2 y⟩
  have hp : p.val < 5000 := p.isLt
  have ht : t.val < 10 := t.isLt
  show k0_pay1 (F := Ideal) (iblk0 V c 0 t) (iblk0 V c 1 t) (ix2 p j)
    = embAll (V c main_v4) (V c main_v7) (((cfg0.win 2).blk t).view.emb (ix2 p j))
  rw [pay_apply, embAll_apply_of (V c main_v4) (V c main_v7) _ (⟨t.val * 5000 + p.val, by omega⟩ : Fin 50000) j
    (by show win0_2.index t (0 : Fin 2) * 5000 + 1 * p.val = t.val * 5000 + p.val; rw [e0]; omega)
    (by show win0_2.index t (1 : Fin 2) * 128 + 1 * j.val = j.val; rw [e1]; omega)]
  unfold embRow
  rw [types_block_apply V c t p ⟨t.val * 5000 + p.val, by omega⟩ rfl]
  exact Finset.sum_congr rfl fun k _ => by rw [table_block_apply]

theorem mem_block (t : Fin cfg0.N) (i : S50000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v8).slice (win0_2.rect t)).set ↔ _
  rw [View.set_slice_whole, Rect.mem_set_unit]
  exact Iff.rfl

theorem covered (i : S50000x128.Idx) :
    ∃ t : Fin cfg0.N, (cfg0.win 2).flush t = true ∧ i ∈ ((cfg0.win 2).blk t).view.set := by
  have h0 : (i 0).val < 50000 := (i 0).isLt
  have h1 : (i 1).val < 128 := (i 1).isLt
  refine ⟨⟨(i 0).val / 5000, by show (i 0).val / 5000 < 10; omega⟩, flush0_2 _, ?_⟩
  rw [mem_block]
  obtain ⟨-, -, -, -, e0, e1⟩ := index_facts ⟨(i 0).val / 5000, by show (i 0).val / 5000 < 10; omega⟩
  intro a
  match a with
  | ⟨0, _⟩ =>
    show win0_2.index _ (0 : Fin 2) * 5000 ≤ (i 0).val ∧ (i 0).val < win0_2.index _ (0 : Fin 2) * 5000 + 5000
    rw [e0]
    show (i 0).val / 5000 * 5000 ≤ (i 0).val ∧ (i 0).val < (i 0).val / 5000 * 5000 + 5000
    omega
  | ⟨1, _⟩ =>
    show win0_2.index _ (1 : Fin 2) * 128 ≤ (i 1).val ∧ (i 1).val < win0_2.index _ (1 : Fin 2) * 128 + 128
    rw [e1]
    omega

theorem final0_2_all (c : Dev nD) :
    (dat0 (F := Ideal) V c).arrAt 2 cfg0.N = embAll (V c main_v4) (V c main_v7) :=
  (dat0 (F := Ideal) V c).arrAt_eq_of_cover 2 (embAll (V c main_v4) (V c main_v7)) (fun t _ => flushed_eq V c t) covered

theorem embRow_of_lt (xs : S50000x1.Idx → BitVec 32) (tbl : S128x128.Idx → EReal) (r : Fin 50000) (j : Fin 128)
    (h : (xs (ix2 r (0 : Fin 1))).toNat < 128) :
    embRow xs tbl r j = tbl (ix2 ⟨(xs (ix2 r (0 : Fin 1))).toNat, h⟩ j) := by
  unfold embRow
  rw [Finset.sum_eq_single (⟨(xs (ix2 r (0 : Fin 1))).toNat, h⟩ : Fin 128)]
  · unfold hot
    rw [if_pos (BitVec.eq_of_toNat_eq (by rw [BitVec.toNat_ofNat]; exact (Nat.mod_eq_of_lt (BitVec.isLt _)).symm)), one_mul]
  · intro k _ hk
    unfold hot
    rw [if_neg, zero_mul]
    intro e
    apply hk
    apply Fin.ext
    show k.val = (xs (ix2 r (0 : Fin 1))).toNat
    rw [e, BitVec.toNat_ofNat]
    have := k.isLt
    omega
  · intro hn
    exact absurd (Finset.mem_univ _) hn

theorem final0_2 (c : Dev nD) (r : Fin 50000) (j : Fin 128)
    (h : ((V c main_v4 : S50000x1.Idx → BitVec 32) (ix2 r (0 : Fin 1))).toNat < 128) :
    ((dat0 (F := Ideal) V c).arrAt 2 cfg0.N : S50000x128.Idx → EReal) (ix2 r j)
      = (V c main_v7 : S128x128.Idx → EReal) (ix2 ⟨((V c main_v4 : S50000x1.Idx → BitVec 32) (ix2 r (0 : Fin 1))).toNat, h⟩ j) := by
  rw [final0_2_all, embAll_apply_of _ _ (ix2 r j) r j rfl rfl]
  exact embRow_of_lt _ _ r j h

end Cert.KernelIdeal.Val

end
-- ==== Proof.Fm.lean ====
import Idealize.ShloMosaic.PureOps.Ideal
import Idealize.ShloMosaic.Lib.ValueIdx

noncomputable section

namespace Cert.Fm

open Idealize.ShloMosaic

def lin {n : Nat} (x : Fin n → Fin 128 → EReal) (w : Fin 128 → Fin 128 → EReal) (b : Fin 128 → EReal)
    (r : Fin n) (j : Fin 128) : EReal :=
  max ((∑ k : Fin 128, x r k * w k j) + b j) 0

def eps : EReal := Ideal.ofBits .f32 0x2B8CBCCC#32

def nrm {n : Nat} (y : Fin n → Fin 128 → EReal) (r : Fin n) : EReal :=
  max (Ideal.sqrt (∑ k : Fin 128, y r k * y r k)) eps

def normd {n : Nat} (y : Fin n → Fin 128 → EReal) (r : Fin n) (j : Fin 128) : EReal :=
  Ideal.div (y r j) (nrm y r)

def seg (x : Fin 50000 → Fin 128 → EReal) (bid : Fin 50000 → BitVec 32) (g : Fin 1024) (h : Fin 128) : EReal :=
  ∑ n ∈ Finset.univ.filter (fun n : Fin 50000 => (bid n).toInt = (g.val : Int)), x n h

def out (x : Fin 50000 → Fin 128 → EReal) (bid : Fin 50000 → BitVec 32) (wp : Fin 128 → EReal) (wb : EReal)
    (g : Fin 1024) : EReal :=
  (∑ h : Fin 128, seg x bid g h * wp h) + wb

end Cert.Fm

end
-- ==== Proof.Val.K1.lean ====
import proofs.«425171_j32186484916934_3_alg».proof.Proof.Fr.R1
import proofs.«425171_j32186484916934_3_alg».proof.Proof.Fm
import proofs.«425171_j32186484916934_3_alg».proof.Proof.LibPlainDot
import proofs.«425171_j32186484916934_3_alg».proof.Proof.LibSlice
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 :=
  funext fun a => by match a with | ⟨0, _⟩ => rfl | ⟨1, _⟩ => rfl

theorem pay1_apply (x0 : Vec Ideal S5000x128 .f32) (x1 : Vec Ideal S128x128 .bf16) (x2 : Vec Ideal S1x128 .f32)
    (p : Fin 5000) (j : Fin 128) :
    (k1_pay1 x0 x1 x2 : S5000x128.Idx → EReal) (ix2 p j)
      = Cert.Fm.lin (fun r k => (x0 : S5000x128.Idx → EReal) (ix2 r k)) (fun k q => (x1 : S128x128.Idx → EReal) (ix2 k q))
          (fun q => (x2 : S1x128.Idx → EReal) (ix2 (0 : Fin 1) q)) p j := by
  unfold k1_pay1 Cert.Fm.lin
  simp only [maximumf_apply, addf_apply, broadcast_apply, shapeCast_self, broadcastTo_1b_ab_apply]
  rw [show (Scalar.ofBits (F := Ideal) .f32 0x00000000#32 : EReal) = 0 from Ideal.ofBits_zero_f32]
  refine congrArg (fun z : EReal => max (z + (x2 : S1x128.Idx → EReal) (ix2 (0 : Fin 1) j)) 0) ?_
  exact Cert.LibPlainDot.matmul_zero_apply (M := 5000) (K := 128) (N := 128)
    dot_S5000x128_S128x128_S5000x128_1_0_0_1_n_n_wf none (truncf .bf16 x0 bitsLt_bf16_f32) x1 p j

theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem xblk1 (c : Dev nD) (t : Fin cfg1.N) (p : Fin 5000) (k : Fin 128) (r : Fin 50000) (hr : r.val = t.val * 5000 + p.val) :
    (iblk1 V c 0 t : S5000x128.Idx → EReal) (ix2 p k) = (V c main_v8 : S50000x128.Idx → EReal) (ix2 r k) := by
  obtain ⟨e0, e1, -⟩ := idx1 t
  show (V c main_v8 : S50000x128.Idx → EReal) (((cfg1.win 0).blk t).view.emb (ix2 p k)) = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

theorem wblk1 (c : Dev nD) (t : Fin cfg1.N) (k : Fin 128) (q : Fin 128) :
    (iblk1 V c 1 t : S128x128.Idx → EReal) (ix2 k q) = (V c main_v26 : S128x128.Idx → EReal) (ix2 k q) := by
  obtain ⟨-, -, e0, e1, -⟩ := idx1 t
  show (V c main_v26 : S128x128.Idx → EReal) (((cfg1.win 1).blk t).view.emb (ix2 k q)) = _
  refine congrArg _ (funext fun a => Fin.ext ?_)
  match a with
  | ⟨0, _⟩ => show win1_1.index t (0 : Fin 2) * 128 + 1 * k.val = k.val; rw [e0]; omega
  | ⟨1, _⟩ => show win1_1.index t (1 : Fin 2) * 128 + 1 * q.val = q.val; rw [e1]; omega

theorem bblk1 (c : Dev nD) (t : Fin cfg1.N) (q : Fin 128) :
    (iblk1 V c 2 t : S1x128.Idx → EReal) (ix2 (0 : Fin 1) q) = (V c main_v29 : S1x128.Idx → EReal) (ix2 (0 : Fin 1) q) := by
  obtain ⟨-, -, -, -, e0, e1, -⟩ := idx1 t
  show (V c main_v29 : S1x128.Idx → EReal) (((cfg1.win 2).blk t).view.emb (ix2 (0 : Fin 1) q)) = _
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * q.val = q.val; rw [e1]; omega

def lin1 (c : Dev nD) : S50000x128.Idx → EReal := fun i =>
  Cert.Fm.lin (fun r k => (V c main_v8 : S50000x128.Idx → EReal) (ix2 r k)) (fun k q => (V c main_v26 : S128x128.Idx → EReal) (ix2 k q))
    (fun q => (V c main_v29 : S1x128.Idx → EReal) (ix2 (0 : Fin 1) q)) (i 0) (i 1)

theorem flushed1_3_eq (c : Dev nD) (t : Fin cfg1.N) :
    (dat1 (F := Ideal) V c).flushed 3 t = ((cfg1.win 3).blk t).view.read (Elt Ideal) (lin1 V c) := by
  show (cfg1.win 3).cut (grid1.coords t) ((dat1 (F := Ideal) V c).after 3 t) = _
  rw [after1_3]
  unfold out1_3
  rw [View.canon_unit_zero hz1]
  simp only [View.ld_unit_zero (S := S5000x128) hz1, View.ld_unit_zero (S := S128x128) hz1, View.ld_unit_zero (S := S1x128) hz1]
  funext y
  have hy0 : (y 0).val < 5000 := (y 0).isLt
  have hy1 : (y 1).val < 128 := (y 1).isLt
  have ht : t.val < 10 := by have h := t.isLt; have hN : cfg1.N = 10 := N_1; omega
  obtain ⟨-, -, -, -, -, -, e0, e1⟩ := idx1 t
  have hin : (cfg1.win 3).xinj (grid1.coords t) y = ix2 (⟨(y 0).val, hy0⟩ : Fin 5000) (⟨(y 1).val, hy1⟩ : Fin 128) :=
    funext fun a => by match a with | ⟨0, _⟩ => rfl | ⟨1, _⟩ => rfl
  have hout : ((cfg1.win 3).blk t).view.emb y
      = ix2 (⟨t.val * 5000 + (y 0).val, by omega⟩ : Fin 50000) (⟨(y 1).val, hy1⟩ : Fin 128) :=
    funext fun a => Fin.ext (by
      match a with
      | ⟨0, _⟩ => show win1_3.index t (0 : Fin 2) * 5000 + 1 * (y 0).val = t.val * 5000 + (y 0).val; rw [e0]; omega
      | ⟨1, _⟩ => show win1_3.index t (1 : Fin 2) * 128 + 1 * (y 1).val = (y 1).val; rw [e1]; omega)
  show (k1_pay1 (iblk1 V c 0 t) (iblk1 V c 1 t) (iblk1 V c 2 t) : S5000x128.Idx → EReal) ((cfg1.win 3).xinj (grid1.coords t) y)
    = lin1 V c (((cfg1.win 3).blk t).view.emb y)
  rw [hin, hout]
  refine (pay1_apply (iblk1 V c 0 t) (iblk1 V c 1 t) (iblk1 V c 2 t) _ _).trans ?_
  show Cert.Fm.lin _ _ _ _ _ = Cert.Fm.lin _ _ _ _ _
  unfold Cert.Fm.lin
  simp only [wblk1 V c t, bblk1 V c t]
  refine congrArg (fun z : EReal => max (z + _) 0) (Finset.sum_congr rfl fun k _ => ?_)
  rw [xblk1 V c t ⟨(y 0).val, hy0⟩ k ⟨t.val * 5000 + (y 0).val, by omega⟩ rfl]

theorem mem_blk1_3 (t : Fin cfg1.N) (i : S50000x128.Idx) :
    i ∈ ((cfg1.win 3).blk t).view.set
      ↔ ∀ a : Fin 2, win1_3.index t a * S5000x128.size a ≤ (i a).val ∧ (i a).val < win1_3.index t a * S5000x128.size a + S5000x128.size a := by
  show i ∈ ((View.whole main_v30).slice (win1_3.rect t)).set ↔ _
  rw [View.set_slice_whole, Rect.mem_set_unit]
  exact Iff.rfl

theorem cover1_3_arr (i : S50000x128.Idx) :
    ∃ t : Fin cfg1.N, (cfg1.win 3).flush t = true ∧ i ∈ ((cfg1.win 3).blk t).view.set := by
  have hi0 : (i 0).val < 50000 := idx2_lt0 i
  have hi1 : (i 1).val < 128 := idx2_lt1 i
  have hN : cfg1.N = 10 := N_1
  obtain ⟨-, -, -, -, -, -, e0, e1⟩ := idx1 ⟨(i 0).val / 5000, by rw [hN]; omega⟩
  refine ⟨⟨(i 0).val / 5000, by rw [hN]; omega⟩, flush1_3 _, ?_⟩
  rw [mem_blk1_3]
  intro a
  match a with
  | ⟨0, _⟩ =>
    show win1_3.index ⟨(i 0).val / 5000, _⟩ (0 : Fin 2) * 5000 ≤ (i 0).val
      ∧ (i 0).val < win1_3.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, _⟩ (1 : Fin 2) * 128 ≤ (i 1).val
      ∧ (i 1).val < win1_3.index ⟨(i 0).val / 5000, _⟩ (1 : Fin 2) * 128 + 128
    rw [e1]; omega

theorem final1_3 (c : Dev nD) (r : Fin 50000) (j : Fin 128) :
    ((dat1 (F := Ideal) V c).arrAt 3 cfg1.N : S50000x128.Idx → EReal) (ix2 r j)
      = Cert.Fm.lin (fun r k => (V c main_v8 : S50000x128.Idx → EReal) (ix2 r k)) (fun k j => (V c main_v26 : S128x128.Idx → EReal) (ix2 k j))
          (fun j => (V c main_v29 : S1x128.Idx → EReal) (ix2 (0 : Fin 1) j)) r j :=
  congrFun ((dat1 (F := Ideal) V c).arrAt_eq_of_cover 3 (lin1 V c) (fun t _ => flushed1_3_eq V c t) cover1_3_arr) (ix2 r j)

end Cert.KernelIdeal.Val

end
-- ==== Proof.LibRows.lean ====
import Idealize.ShloMosaic.PureOps.Ideal.Laws
import Idealize.ShloMosaic.Lib.ValueIdx
import Idealize.ShloMosaic.Lib.Pipeline.Value

noncomputable section

namespace Cert.LibRows

open Idealize.ShloMosaic Idealize.ShloMosaic.ValueIdx

theorem rowsum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  refine Finset.sum_congr rfl fun k _ => congrArg src ?_
  funext c
  apply Fin.ext
  show h.liftVal (ix1 p) k.val c = (ix2 p k c).val
  match c with
  | ⟨0, _⟩ => simp [Shape.Reduces.liftVal]
  | ⟨1, _⟩ => simp [Shape.Reduces.liftVal]

theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibRows

end
-- ==== Proof.Val.Norm.lean ====
import proofs.«425171_j32186484916934_3_alg».proof.Proof.Fm

noncomputable section

namespace Cert.KernelIdeal.Val.Norm

open Idealize.ShloMosaic Idealize.ShloMosaic.ValueIdx

def rowsAdd {n : Nat} (a b : (⟨2, ![n, 128]⟩ : Shape).Idx → EReal) : Fin n → Fin 128 → EReal :=
  fun r k => a (ix2 r k) + b (ix2 r k)

theorem rowsAdd_apply {n : Nat} (a b : (⟨2, ![n, 128]⟩ : Shape).Idx → EReal) (r : Fin n) (k : Fin 128) :
    rowsAdd a b r k = a (ix2 r k) + b (ix2 r k) := rfl

theorem normd_congr {n m : Nat} (y : Fin n → Fin 128 → EReal) (y' : Fin m → Fin 128 → EReal) (r : Fin n) (r' : Fin m)
    (h : ∀ k, y r k = y' r' k) (j : Fin 128) : Cert.Fm.normd y r j = Cert.Fm.normd y' r' j := by
  unfold Cert.Fm.normd Cert.Fm.nrm
  rw [h j]
  exact congrArg (fun s => Ideal.div (y' r' j) (max (Ideal.sqrt s) Cert.Fm.eps)) (Finset.sum_congr rfl fun k _ => by rw [h k])

theorem lin_congr {n m : Nat} (x : Fin n → Fin 128 → EReal) (x' : Fin m → Fin 128 → EReal) (w w' : Fin 128 → Fin 128 → EReal)
    (b b' : Fin 128 → EReal) (r : Fin n) (r' : Fin m) (hx : ∀ k, x r k = x' r' k) (hw : ∀ k j, w k j = w' k j) (hb : ∀ j, b j = b' j)
    (j : Fin 128) : Cert.Fm.lin x w b r j = Cert.Fm.lin x' w' b' r' j := by
  unfold Cert.Fm.lin
  rw [hb j]
  exact congrArg (fun s => max (s + b' j) 0) (Finset.sum_congr rfl fun k _ => by rw [hx k, hw k j])

end Cert.KernelIdeal.Val.Norm

end
-- ==== Proof.Val.K2.lean ====
import proofs.«425171_j32186484916934_3_alg».proof.Proof.Fr.R2
import proofs.«425171_j32186484916934_3_alg».proof.Proof.Fm
import proofs.«425171_j32186484916934_3_alg».proof.Proof.LibPlainDot
import proofs.«425171_j32186484916934_3_alg».proof.Proof.LibSlice
import proofs.«425171_j32186484916934_3_alg».proof.Proof.LibRows
import proofs.«425171_j32186484916934_3_alg».proof.Proof.Val.Norm
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 :=
  funext fun a => by match a with | ⟨0, _⟩ => rfl | ⟨1, _⟩ => rfl

theorem pay2_1_apply (x0 x1 : Vec Ideal S2000x128 .f32) (p : Fin 2000) (j : Fin 128) :
    (k2_pay1 x0 x1 : S2000x128.Idx → EReal) (ix2 p j) = Cert.Fm.normd (Norm.rowsAdd (n := 2000) x0 x1) p j := by
  unfold k2_pay1
  simp only [shapeCast_self]
  unfold Cert.Fm.normd Cert.Fm.nrm Norm.rowsAdd
  show Ideal.div (x0 (ix2 p j) + x1 (ix2 p j)) (broadcastTo S2000x128 _ _ (ix2 p j)) = _
  refine congrArg (Ideal.div (x0 (ix2 p j) + x1 (ix2 p j))) ?_
  refine (Cert.LibRows.broadcastTo_a1_ab_apply _ _ p j).trans ?_
  show max (Ideal.sqrt (shapeCast S2000x1 _ _ (ix2 p (0 : Fin 1)))) (Ideal.ofBits .f32 0x2B8CBCCC#32) = max (Ideal.sqrt _) Cert.Fm.eps
  refine congrArg (fun z => max (Ideal.sqrt z) Cert.Fm.eps) ?_
  refine (Cert.LibSlice.col_of_vec_apply _ _ p).trans ?_
  exact Cert.LibRows.rowsum_apply _ _ _ _ _ p

theorem pay2_2_apply (x0 x1 : Vec Ideal S2000x128 .f32) (x2 : Vec Ideal S128x128 .bf16) (x3 : Vec Ideal S1x128 .f32)
    (p : Fin 2000) (j : Fin 128) :
    (k2_pay2 x0 x1 x2 x3 : S2000x128.Idx → EReal) (ix2 p j)
      = Cert.Fm.lin (Cert.Fm.normd (Norm.rowsAdd (n := 2000) x0 x1)) (fun k q => (x2 : S128x128.Idx → EReal) (ix2 k q))
          (fun q => (x3 : S1x128.Idx → EReal) (ix2 (0 : Fin 1) q)) p j := by
  unfold k2_pay2
  simp only [shapeCast_self]
  unfold Cert.Fm.lin
  show max (matmul dot_S2000x128_S128x128_S2000x128_1_0_0_1_n_n none (truncf .bf16 (k2_pay1 x0 x1) bitsLt_bf16_f32) x2
        (constant (F := Ideal) S2000x128 .f32 0x00000000#32) (ix2 p j)
      + broadcastTo S2000x128 x3 _ (ix2 p j)) (Ideal.ofBits .f32 0x00000000#32) = _
  rw [Ideal.ofBits_zero_f32]
  refine congrArg (fun z => max z 0) ?_
  refine congrArg₂ (· + ·) ?_ (broadcastTo_1b_ab_apply x3 _ p j)
  refine (Cert.LibPlainDot.matmul_zero_apply (M := 2000) (K := 128) (N := 128) (φ₁ := .bf16) (φ₂ := .bf16)
    dot_S2000x128_S128x128_S2000x128_1_0_0_1_n_n.wf none (truncf .bf16 (k2_pay1 x0 x1) bitsLt_bf16_f32) x2 p j).trans ?_
  exact Finset.sum_congr rfl fun k _ => congrArg (· * x2 (ix2 k j)) (pay2_1_apply x0 x1 p k)

theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

def row2 (t : Fin cfg2.N) (p : Fin 2000) : Fin 50000 :=
  ⟨t.val * 2000 + p.val, by have := t.isLt; have hN : cfg2.N = 25 := N_2; omega⟩

theorem iblk2_0_apply (c : Dev nD) (t : Fin cfg2.N) (p : Fin 2000) (k : Fin 128) :
    (iblk2 V c 0 t : S2000x128.Idx → EReal) (ix2 p k) = (V c main_v54 : S50000x128.Idx → EReal) (ix2 (row2 t p) k) := by
  obtain ⟨e0, e1, -⟩ := idx2 t
  show (V c main_v54 : S50000x128.Idx → EReal) (((cfg2.win 0).blk t).view.emb (ix2 p k)) = _
  refine congrArg (V c main_v54 : S50000x128.Idx → EReal) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * k.val = k.val; rw [e1]; omega

theorem iblk2_1_apply (c : Dev nD) (t : Fin cfg2.N) (p : Fin 2000) (k : Fin 128) :
    (iblk2 V c 1 t : S2000x128.Idx → EReal) (ix2 p k) = (V c main_v8 : S50000x128.Idx → EReal) (ix2 (row2 t p) k) := by
  obtain ⟨-, -, e0, e1, -⟩ := idx2 t
  show (V c main_v8 : S50000x128.Idx → EReal) (((cfg2.win 1).blk t).view.emb (ix2 p k)) = _
  refine congrArg (V c main_v8 : S50000x128.Idx → EReal) (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 128 + 1 * k.val = k.val; rw [e1]; omega

theorem iblk2_2_apply (c : Dev nD) (t : Fin cfg2.N) (k : Fin 128) (q : Fin 128) :
    (iblk2 V c 2 t : S128x128.Idx → EReal) (ix2 k q) = (V c main_v57 : S128x128.Idx → EReal) (ix2 k q) := by
  obtain ⟨-, -, -, -, e0, e1, -⟩ := idx2 t
  show (V c main_v57 : S128x128.Idx → EReal) (((cfg2.win 2).blk t).view.emb (ix2 k q)) = _
  refine congrArg (V c main_v57 : S128x128.Idx → EReal) (funext fun a => Fin.ext ?_)
  match a with
  | ⟨0, _⟩ => show win2_2.index t (0 : Fin 2) * 128 + 1 * k.val = k.val; rw [e0]; omega
  | ⟨1, _⟩ => show win2_2.index t (1 : Fin 2) * 128 + 1 * q.val = q.val; rw [e1]; omega

theorem iblk2_3_apply (c : Dev nD) (t : Fin cfg2.N) (q : Fin 128) :
    (iblk2 V c 3 t : S1x128.Idx → EReal) (ix2 (0 : Fin 1) q) = (V c main_v60 : S1x128.Idx → EReal) (ix2 (0 : Fin 1) q) := by
  obtain ⟨-, -, -, -, -, -, e0, e1, -⟩ := idx2 t
  show (V c main_v60 : S1x128.Idx → EReal) (((cfg2.win 3).blk t).view.emb (ix2 (0 : Fin 1) q)) = _
  refine congrArg (V c main_v60 : S1x128.Idx → EReal) (funext fun a => Fin.ext ?_)
  match a with
  | ⟨0, _⟩ => show win2_3.index t (0 : Fin 2) * 1 + 1 * 0 = 0; rw [e0]
  | ⟨1, _⟩ => show win2_3.index t (1 : Fin 2) * 128 + 1 * q.val = q.val; rw [e1]; omega

abbrev Y2 (c : Dev nD) : Fin 50000 → Fin 128 → EReal := Norm.rowsAdd (n := 50000) (V c main_v54) (V c main_v8)
abbrev W2 (c : Dev nD) : Fin 128 → Fin 128 → EReal := fun k q => (V c main_v57 : S128x128.Idx → EReal) (ix2 k q)
abbrev B2 (c : Dev nD) : Fin 128 → EReal := fun q => (V c main_v60 : S1x128.Idx → EReal) (ix2 (0 : Fin 1) q)

def G2_4 (c : Dev nD) : S50000x128.Idx → EReal := fun i => Cert.Fm.normd (Y2 V c) (i 0) (i 1)
def G2_5 (c : Dev nD) : S50000x128.Idx → EReal := fun i => Cert.Fm.lin (Cert.Fm.normd (Y2 V c)) (W2 V c) (B2 V c) (i 0) (i 1)

theorem yblk2 (c : Dev nD) (t : Fin cfg2.N) (p : Fin 2000) (k : Fin 128) :
    Norm.rowsAdd (n := 2000) (iblk2 V c 0 t) (iblk2 V c 1 t) p k = Y2 V c (row2 t p) k :=
  congrArg₂ (fun a b : EReal => a + b) (iblk2_0_apply V c t p k) (iblk2_1_apply V c t p k)

theorem flushed2_4_eq (c : Dev nD) (t : Fin cfg2.N) :
    (dat2 (F := Ideal) V c).flushed 4 t = ((cfg2.win 4).blk t).view.read (Elt Ideal) (G2_4 V c) := by
  show (cfg2.win 4).cut (grid2.coords t) ((dat2 (F := Ideal) V c).after 4 t) = _
  rw [after2_4]
  unfold out2_4
  rw [View.canon_unit_zero hz2]
  simp only [View.ld_unit_zero (S := S2000x128) hz2]
  obtain ⟨-, -, -, -, -, -, -, -, e0, e1, -⟩ := idx2 t
  funext y
  obtain ⟨p, j, rfl⟩ : ∃ (p : Fin 2000) (j : Fin 128), y = ix2 p j := ⟨y 0, y 1, eq_ix2 y⟩
  have hout : ((cfg2.win 4).blk t).view.emb (ix2 p j) = (ix2 (row2 t p) j : S50000x128.Idx) :=
    funext fun a => Fin.ext (by
      match a with
      | ⟨0, _⟩ => show win2_4.index t (0 : Fin 2) * 2000 + 1 * p.val = t.val * 2000 + p.val; rw [e0]; omega
      | ⟨1, _⟩ => show win2_4.index t (1 : Fin 2) * 128 + 1 * j.val = j.val; rw [e1]; omega)
  show (k2_pay1 (iblk2 V c 0 t) (iblk2 V c 1 t) : S2000x128.Idx → EReal) (ix2 p j) = G2_4 V c (((cfg2.win 4).blk t).view.emb (ix2 p j))
  rw [hout]
  refine (pay2_1_apply _ _ p j).trans ?_
  show _ = Cert.Fm.normd (Y2 V c) (row2 t p) j
  exact Norm.normd_congr _ _ p (row2 t p) (fun k => yblk2 V c t p k) j

theorem flushed2_5_eq (c : Dev nD) (t : Fin cfg2.N) :
    (dat2 (F := Ideal) V c).flushed 5 t = ((cfg2.win 5).blk t).view.read (Elt Ideal) (G2_5 V c) := by
  show (cfg2.win 5).cut (grid2.coords t) ((dat2 (F := Ideal) V c).after 5 t) = _
  rw [after2_5]
  unfold out2_5
  rw [View.canon_unit_zero hz2]
  simp only [View.ld_unit_zero (S := S2000x128) hz2, View.ld_unit_zero (S := S128x128) hz2, View.ld_unit_zero (S := S1x128) hz2]
  obtain ⟨-, -, -, -, -, -, -, -, -, -, e0, e1⟩ := idx2 t
  funext y
  obtain ⟨p, j, rfl⟩ : ∃ (p : Fin 2000) (j : Fin 128), y = ix2 p j := ⟨y 0, y 1, eq_ix2 y⟩
  have hout : ((cfg2.win 5).blk t).view.emb (ix2 p j) = (ix2 (row2 t p) j : S50000x128.Idx) :=
    funext fun a => Fin.ext (by
      match a with
      | ⟨0, _⟩ => show win2_5.index t (0 : Fin 2) * 2000 + 1 * p.val = t.val * 2000 + p.val; rw [e0]; omega
      | ⟨1, _⟩ => show win2_5.index t (1 : Fin 2) * 128 + 1 * j.val = j.val; rw [e1]; omega)
  show (k2_pay2 (iblk2 V c 0 t) (iblk2 V c 1 t) (iblk2 V c 2 t) (iblk2 V c 3 t) : S2000x128.Idx → EReal) (ix2 p j)
    = G2_5 V c (((cfg2.win 5).blk t).view.emb (ix2 p j))
  rw [hout]
  refine (pay2_2_apply _ _ _ _ p j).trans ?_
  show _ = Cert.Fm.lin (Cert.Fm.normd (Y2 V c)) (W2 V c) (B2 V c) (row2 t p) j
  exact Norm.lin_congr _ _ _ _ _ _ p (row2 t p)
    (fun k => Norm.normd_congr _ _ p (row2 t p) (fun k' => yblk2 V c t p k') k)
    (fun k q => iblk2_2_apply V c t k q) (fun q => iblk2_3_apply V c t q) j

theorem mem_blk2_4 (t : Fin cfg2.N) (i : S50000x128.Idx) :
    i ∈ ((cfg2.win 4).blk t).view.set
      ↔ ∀ a : Fin 2, win2_4.index t a * S2000x128.size a ≤ (i a).val ∧ (i a).val < win2_4.index t a * S2000x128.size a + S2000x128.size a := by
  show i ∈ ((View.whole main_v61_0).slice (win2_4.rect t)).set ↔ _
  rw [View.set_slice_whole, Rect.mem_set_unit]
  exact Iff.rfl

theorem mem_blk2_5 (t : Fin cfg2.N) (i : S50000x128.Idx) :
    i ∈ ((cfg2.win 5).blk t).view.set
      ↔ ∀ a : Fin 2, win2_5.index t a * S2000x128.size a ≤ (i a).val ∧ (i a).val < win2_5.index t a * S2000x128.size a + S2000x128.size a := by
  show i ∈ ((View.whole main_v61_1).slice (win2_5.rect t)).set ↔ _
  rw [View.set_slice_whole, Rect.mem_set_unit]
  exact Iff.rfl

def pt2 (i : S50000x128.Idx) : Fin cfg2.N :=
  ⟨(i 0).val / 2000, by have hi0 : (i 0).val < 50000 := idx2_lt0 i; rw [show cfg2.N = 25 from N_2]; omega⟩

theorem covered2_4 (i : S50000x128.Idx) :
    ∃ t : Fin cfg2.N, (cfg2.win 4).flush t = true ∧ i ∈ ((cfg2.win 4).blk t).view.set := by
  have hi0 : (i 0).val < 50000 := idx2_lt0 i
  have hi1 : (i 1).val < 128 := idx2_lt1 i
  obtain ⟨-, -, -, -, -, -, -, -, e0, e1, -⟩ := idx2 (pt2 i)
  refine ⟨pt2 i, flush2_4 (pt2 i), ?_⟩
  rw [mem_blk2_4]
  intro a
  match a with
  | ⟨0, _⟩ =>
    show win2_4.index (pt2 i) (0 : Fin 2) * 2000 ≤ (i 0).val ∧ (i 0).val < win2_4.index (pt2 i) (0 : Fin 2) * 2000 + 2000
    rw [e0]; show (i 0).val / 2000 * 2000 ≤ (i 0).val ∧ (i 0).val < (i 0).val / 2000 * 2000 + 2000; omega
  | ⟨1, _⟩ =>
    show win2_4.index (pt2 i) (1 : Fin 2) * 128 ≤ (i 1).val ∧ (i 1).val < win2_4.index (pt2 i) (1 : Fin 2) * 128 + 128
    rw [e1]; omega

theorem covered2_5 (i : S50000x128.Idx) :
    ∃ t : Fin cfg2.N, (cfg2.win 5).flush t = true ∧ i ∈ ((cfg2.win 5).blk t).view.set := by
  have hi0 : (i 0).val < 50000 := idx2_lt0 i
  have hi1 : (i 1).val < 128 := idx2_lt1 i
  obtain ⟨-, -, -, -, -, -, -, -, -, -, e0, e1⟩ := idx2 (pt2 i)
  refine ⟨pt2 i, flush2_5 (pt2 i), ?_⟩
  rw [mem_blk2_5]
  intro a
  match a with
  | ⟨0, _⟩ =>
    show win2_5.index (pt2 i) (0 : Fin 2) * 2000 ≤ (i 0).val ∧ (i 0).val < win2_5.index (pt2 i) (0 : Fin 2) * 2000 + 2000
    rw [e0]; show (i 0).val / 2000 * 2000 ≤ (i 0).val ∧ (i 0).val < (i 0).val / 2000 * 2000 + 2000; omega
  | ⟨1, _⟩ =>
    show win2_5.index (pt2 i) (1 : Fin 2) * 128 ≤ (i 1).val ∧ (i 1).val < win2_5.index (pt2 i) (1 : Fin 2) * 128 + 128
    rw [e1]; omega

theorem final2_4 (c : Dev nD) (r : Fin 50000) (j : Fin 128) :
    ((dat2 (F := Ideal) V c).arrAt 4 cfg2.N : S50000x128.Idx → EReal) (ix2 r j)
      = Cert.Fm.normd (Norm.rowsAdd (n := 50000) (V c main_v54) (V c main_v8)) r j :=
  congrFun ((dat2 (F := Ideal) V c).arrAt_eq_of_cover 4 (G2_4 V c) (fun t _ => flushed2_4_eq V c t) covered2_4) (ix2 r j)

theorem final2_5 (c : Dev nD) (r : Fin 50000) (j : Fin 128) :
    ((dat2 (F := Ideal) V c).arrAt 5 cfg2.N : S50000x128.Idx → EReal) (ix2 r j)
      = Cert.Fm.lin (Cert.Fm.normd (Norm.rowsAdd (n := 50000) (V c main_v54) (V c main_v8)))
          (fun k q => (V c main_v57 : S128x128.Idx → EReal) (ix2 k q)) (fun q => (V c main_v60 : S1x128.Idx → EReal) (ix2 (0 : Fin 1) q)) r j :=
  congrFun ((dat2 (F := Ideal) V c).arrAt_eq_of_cover 5 (G2_5 V c) (fun t _ => flushed2_5_eq V c t) covered2_5) (ix2 r j)

end Cert.KernelIdeal.Val

end
-- ==== Proof.Val.K3.lean ====
import proofs.«425171_j32186484916934_3_alg».proof.Proof.Fr.R3
import proofs.«425171_j32186484916934_3_alg».proof.Proof.Fm
import proofs.«425171_j32186484916934_3_alg».proof.Proof.LibPlainDot
import proofs.«425171_j32186484916934_3_alg».proof.Proof.LibSlice
import proofs.«425171_j32186484916934_3_alg».proof.Proof.LibRows
import proofs.«425171_j32186484916934_3_alg».proof.Proof.Val.Norm
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 :=
  funext fun a => by match a with | ⟨0, _⟩ => rfl | ⟨1, _⟩ => rfl

theorem pay3_1_apply (x0 x1 : Vec Ideal S2000x128 .f32) (p : Fin 2000) (j : Fin 128) :
    (k3_pay1 x0 x1 : S2000x128.Idx → EReal) (ix2 p j) = Cert.Fm.normd (Norm.rowsAdd (n := 2000) x0 x1) p j := by
  unfold k3_pay1
  simp only [shapeCast_self]
  unfold Cert.Fm.normd Cert.Fm.nrm Norm.rowsAdd
  show Ideal.div (x0 (ix2 p j) + x1 (ix2 p j)) (broadcastTo S2000x128 _ _ (ix2 p j)) = _
  refine congrArg (Ideal.div (x0 (ix2 p j) + x1 (ix2 p j))) ?_
  refine (Cert.LibRows.broadcastTo_a1_ab_apply _ _ p j).trans ?_
  show max (Ideal.sqrt (shapeCast S2000x1 _ _ (ix2 p (0 : Fin 1)))) (Ideal.ofBits .f32 0x2B8CBCCC#32) = max (Ideal.sqrt _) Cert.Fm.eps
  refine congrArg (fun z => max (Ideal.sqrt z) Cert.Fm.eps) ?_
  refine (Cert.LibSlice.col_of_vec_apply _ _ p).trans ?_
  exact Cert.LibRows.rowsum_apply _ _ _ _ _ p

theorem pay3_2_apply (x0 x1 : Vec Ideal S2000x128 .f32) (x2 : Vec Ideal S128x128 .bf16) (x3 : Vec Ideal S1x128 .f32)
    (p : Fin 2000) (j : Fin 128) :
    (k3_pay2 x0 x1 x2 x3 : S2000x128.Idx → EReal) (ix2 p j)
      = Cert.Fm.lin (Cert.Fm.normd (Norm.rowsAdd (n := 2000) x0 x1)) (fun k q => (x2 : S128x128.Idx → EReal) (ix2 k q))
          (fun q => (x3 : S1x128.Idx → EReal) (ix2 (0 : Fin 1) q)) p j := by
  unfold k3_pay2
  simp only [shapeCast_self]
  unfold Cert.Fm.lin
  show max (matmul dot_S2000x128_S128x128_S2000x128_1_0_0_1_n_n none (truncf .bf16 (k3_pay1 x0 x1) bitsLt_bf16_f32) x2
        (constant (F := Ideal) S2000x128 .f32 0x00000000#32) (ix2 p j)
      + broadcastTo S2000x128 x3 _ (ix2 p j)) (Ideal.ofBits .f32 0x00000000#32) = _
  rw [Ideal.ofBits_zero_f32]
  refine congrArg (fun z => max z 0) ?_
  refine congrArg₂ (· + ·) ?_ (broadcastTo_1b_ab_apply x3 _ p j)
  refine (Cert.LibPlainDot.matmul_zero_apply (M := 2000) (K := 128) (N := 128) (φ₁ := .bf16) (φ₂ := .bf16)
    dot_S2000x128_S128x128_S2000x128_1_0_0_1_n_n.wf none (truncf .bf16 (k3_pay1 x0 x1) bitsLt_bf16_f32) x2 p j).trans ?_
  exact Finset.sum_congr rfl fun k _ => congrArg (· * x2 (ix2 k j)) (pay3_1_apply x0 x1 p k)

theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

def row3 (t : Fin cfg3.N) (p : Fin 2000) : Fin 50000 :=
  ⟨t.val * 2000 + p.val, by have := t.isLt; have hN : cfg3.N = 25 := N_3; omega⟩

theorem iblk3_0_apply (c : Dev nD) (t : Fin cfg3.N) (p : Fin 2000) (k : Fin 128) :
    (iblk3 V c 0 t : S2000x128.Idx → EReal) (ix2 p k) = (V c main_v85 : S50000x128.Idx → EReal) (ix2 (row3 t p) k) := by
  obtain ⟨e0, e1, -⟩ := idx3 t
  show (V c main_v85 : S50000x128.Idx → EReal) (((cfg3.win 0).blk t).view.emb (ix2 p k)) = _
  refine congrArg (V c main_v85 : S50000x128.Idx → EReal) (funext fun a => Fin.ext ?_)
  match a with
  | ⟨0, _⟩ => show win3_0.index t (0 : Fin 2) * 2000 + 1 * p.val = t.val * 2000 + p.val; rw [e0]; omega
  | ⟨1, _⟩ => show win3_0.index t (1 : Fin 2) * 128 + 1 * k.val = k.val; rw [e1]; omega

theorem iblk3_1_apply (c : Dev nD) (t : Fin cfg3.N) (p : Fin 2000) (k : Fin 128) :
    (iblk3 V c 1 t : S2000x128.Idx → EReal) (ix2 p k) = (V c main_v61_0 : S50000x128.Idx → EReal) (ix2 (row3 t p) k) := by
  obtain ⟨-, -, e0, e1, -⟩ := idx3 t
  show (V c main_v61_0 : S50000x128.Idx → EReal) (((cfg3.win 1).blk t).view.emb (ix2 p k)) = _
  refine congrArg (V c main_v61_0 : S50000x128.Idx → EReal) (funext fun a => Fin.ext ?_)
  match a with
  | ⟨0, _⟩ => show win3_1.index t (0 : Fin 2) * 2000 + 1 * p.val = t.val * 2000 + p.val; rw [e0]; omega
  | ⟨1, _⟩ => show win3_1.index t (1 : Fin 2) * 128 + 1 * k.val = k.val; rw [e1]; omega

theorem iblk3_2_apply (c : Dev nD) (t : Fin cfg3.N) (k : Fin 128) (q : Fin 128) :
    (iblk3 V c 2 t : S128x128.Idx → EReal) (ix2 k q) = (V c main_v88 : S128x128.Idx → EReal) (ix2 k q) := by
  obtain ⟨-, -, -, -, e0, e1, -⟩ := idx3 t
  show (V c main_v88 : S128x128.Idx → EReal) (((cfg3.win 2).blk t).view.emb (ix2 k q)) = _
  refine congrArg (V c main_v88 : S128x128.Idx → EReal) (funext fun a => Fin.ext ?_)
  match a with
  | ⟨0, _⟩ => show win3_2.index t (0 : Fin 2) * 128 + 1 * k.val = k.val; rw [e0]; omega
  | ⟨1, _⟩ => show win3_2.index t (1 : Fin 2) * 128 + 1 * q.val = q.val; rw [e1]; omega

theorem iblk3_3_apply (c : Dev nD) (t : Fin cfg3.N) (q : Fin 128) :
    (iblk3 V c 3 t : S1x128.Idx → EReal) (ix2 (0 : Fin 1) q) = (V c main_v91 : S1x128.Idx → EReal) (ix2 (0 : Fin 1) q) := by
  obtain ⟨-, -, -, -, -, -, e0, e1, -⟩ := idx3 t
  show (V c main_v91 : S1x128.Idx → EReal) (((cfg3.win 3).blk t).view.emb (ix2 (0 : Fin 1) q)) = _
  refine congrArg (V c main_v91 : S1x128.Idx → EReal) (funext fun a => Fin.ext ?_)
  match a with
  | ⟨0, _⟩ => show win3_3.index t (0 : Fin 2) * 1 + 1 * 0 = 0; rw [e0]
  | ⟨1, _⟩ => show win3_3.index t (1 : Fin 2) * 128 + 1 * q.val = q.val; rw [e1]; omega

abbrev Y3 (c : Dev nD) : Fin 50000 → Fin 128 → EReal := Norm.rowsAdd (n := 50000) (V c main_v85) (V c main_v61_0)
abbrev W3 (c : Dev nD) : Fin 128 → Fin 128 → EReal := fun k q => (V c main_v88 : S128x128.Idx → EReal) (ix2 k q)
abbrev B3 (c : Dev nD) : Fin 128 → EReal := fun q => (V c main_v91 : S1x128.Idx → EReal) (ix2 (0 : Fin 1) q)

def G3_4 (c : Dev nD) : S50000x128.Idx → EReal := fun i => Cert.Fm.normd (Y3 V c) (i 0) (i 1)
def G3_5 (c : Dev nD) : S50000x128.Idx → EReal := fun i => Cert.Fm.lin (Cert.Fm.normd (Y3 V c)) (W3 V c) (B3 V c) (i 0) (i 1)

theorem yblk3 (c : Dev nD) (t : Fin cfg3.N) (p : Fin 2000) (k : Fin 128) :
    Norm.rowsAdd (n := 2000) (iblk3 V c 0 t) (iblk3 V c 1 t) p k = Y3 V c (row3 t p) k :=
  congrArg₂ (fun a b : EReal => a + b) (iblk3_0_apply V c t p k) (iblk3_1_apply V c t p k)

theorem flushed3_4_eq (c : Dev nD) (t : Fin cfg3.N) :
    (dat3 (F := Ideal) V c).flushed 4 t = ((cfg3.win 4).blk t).view.read (Elt Ideal) (G3_4 V c) := by
  show (cfg3.win 4).cut (grid3.coords t) ((dat3 (F := Ideal) V c).after 4 t) = _
  rw [after3_4]
  unfold out3_4
  rw [View.canon_unit_zero hz3]
  simp only [View.ld_unit_zero (S := S2000x128) hz3]
  obtain ⟨-, -, -, -, -, -, -, -, e0, e1, -⟩ := idx3 t
  funext y
  obtain ⟨p, j, rfl⟩ : ∃ (p : Fin 2000) (j : Fin 128), y = ix2 p j := ⟨y 0, y 1, eq_ix2 y⟩
  have hout : ((cfg3.win 4).blk t).view.emb (ix2 p j) = (ix2 (row3 t p) j : S50000x128.Idx) :=
    funext fun a => Fin.ext (by
      match a with
      | ⟨0, _⟩ => show win3_4.index t (0 : Fin 2) * 2000 + 1 * p.val = t.val * 2000 + p.val; rw [e0]; omega
      | ⟨1, _⟩ => show win3_4.index t (1 : Fin 2) * 128 + 1 * j.val = j.val; rw [e1]; omega)
  show (k3_pay1 (iblk3 V c 0 t) (iblk3 V c 1 t) : S2000x128.Idx → EReal) (ix2 p j) = G3_4 V c (((cfg3.win 4).blk t).view.emb (ix2 p j))
  rw [hout]
  refine (pay3_1_apply _ _ p j).trans ?_
  show _ = Cert.Fm.normd (Y3 V c) (row3 t p) j
  exact Norm.normd_congr _ _ p (row3 t p) (fun k => yblk3 V c t p k) j

theorem flushed3_5_eq (c : Dev nD) (t : Fin cfg3.N) :
    (dat3 (F := Ideal) V c).flushed 5 t = ((cfg3.win 5).blk t).view.read (Elt Ideal) (G3_5 V c) := by
  show (cfg3.win 5).cut (grid3.coords t) ((dat3 (F := Ideal) V c).after 5 t) = _
  rw [after3_5]
  unfold out3_5
  rw [View.canon_unit_zero hz3]
  simp only [View.ld_unit_zero (S := S2000x128) hz3, View.ld_unit_zero (S := S128x128) hz3, View.ld_unit_zero (S := S1x128) hz3]
  obtain ⟨-, -, -, -, -, -, -, -, -, -, e0, e1⟩ := idx3 t
  funext y
  obtain ⟨p, j, rfl⟩ : ∃ (p : Fin 2000) (j : Fin 128), y = ix2 p j := ⟨y 0, y 1, eq_ix2 y⟩
  have hout : ((cfg3.win 5).blk t).view.emb (ix2 p j) = (ix2 (row3 t p) j : S50000x128.Idx) :=
    funext fun a => Fin.ext (by
      match a with
      | ⟨0, _⟩ => show win3_5.index t (0 : Fin 2) * 2000 + 1 * p.val = t.val * 2000 + p.val; rw [e0]; omega
      | ⟨1, _⟩ => show win3_5.index t (1 : Fin 2) * 128 + 1 * j.val = j.val; rw [e1]; omega)
  show (k3_pay2 (iblk3 V c 0 t) (iblk3 V c 1 t) (iblk3 V c 2 t) (iblk3 V c 3 t) : S2000x128.Idx → EReal) (ix2 p j)
    = G3_5 V c (((cfg3.win 5).blk t).view.emb (ix2 p j))
  rw [hout]
  refine (pay3_2_apply _ _ _ _ p j).trans ?_
  show _ = Cert.Fm.lin (Cert.Fm.normd (Y3 V c)) (W3 V c) (B3 V c) (row3 t p) j
  exact Norm.lin_congr _ _ _ _ _ _ p (row3 t p)
    (fun k => Norm.normd_congr _ _ p (row3 t p) (fun k' => yblk3 V c t p k') k)
    (fun k q => iblk3_2_apply V c t k q) (fun q => iblk3_3_apply V c t q) j

theorem mem_blk3_4 (t : Fin cfg3.N) (i : S50000x128.Idx) :
    i ∈ ((cfg3.win 4).blk t).view.set
      ↔ ∀ a : Fin 2, win3_4.index t a * S2000x128.size a ≤ (i a).val ∧ (i a).val < win3_4.index t a * S2000x128.size a + S2000x128.size a := by
  show i ∈ ((View.whole main_v92_0).slice (win3_4.rect t)).set ↔ _
  rw [View.set_slice_whole, Rect.mem_set_unit]
  exact Iff.rfl

theorem mem_blk3_5 (t : Fin cfg3.N) (i : S50000x128.Idx) :
    i ∈ ((cfg3.win 5).blk t).view.set
      ↔ ∀ a : Fin 2, win3_5.index t a * S2000x128.size a ≤ (i a).val ∧ (i a).val < win3_5.index t a * S2000x128.size a + S2000x128.size a := by
  show i ∈ ((View.whole main_v92_1).slice (win3_5.rect t)).set ↔ _
  rw [View.set_slice_whole, Rect.mem_set_unit]
  exact Iff.rfl

def pt3 (i : S50000x128.Idx) : Fin cfg3.N :=
  ⟨(i 0).val / 2000, by have hi0 : (i 0).val < 50000 := idx2_lt0 i; rw [show cfg3.N = 25 from N_3]; omega⟩

theorem covered3_4 (i : S50000x128.Idx) :
    ∃ t : Fin cfg3.N, (cfg3.win 4).flush t = true ∧ i ∈ ((cfg3.win 4).blk t).view.set := by
  have hi0 : (i 0).val < 50000 := idx2_lt0 i
  have hi1 : (i 1).val < 128 := idx2_lt1 i
  obtain ⟨-, -, -, -, -, -, -, -, e0, e1, -⟩ := idx3 (pt3 i)
  refine ⟨pt3 i, flush3_4 (pt3 i), ?_⟩
  rw [mem_blk3_4]
  intro a
  match a with
  | ⟨0, _⟩ =>
    show win3_4.index (pt3 i) (0 : Fin 2) * 2000 ≤ (i 0).val ∧ (i 0).val < win3_4.index (pt3 i) (0 : Fin 2) * 2000 + 2000
    rw [e0]; show (i 0).val / 2000 * 2000 ≤ (i 0).val ∧ (i 0).val < (i 0).val / 2000 * 2000 + 2000; omega
  | ⟨1, _⟩ =>
    show win3_4.index (pt3 i) (1 : Fin 2) * 128 ≤ (i 1).val ∧ (i 1).val < win3_4.index (pt3 i) (1 : Fin 2) * 128 + 128
    rw [e1]; omega

theorem covered3_5 (i : S50000x128.Idx) :
    ∃ t : Fin cfg3.N, (cfg3.win 5).flush t = true ∧ i ∈ ((cfg3.win 5).blk t).view.set := by
  have hi0 : (i 0).val < 50000 := idx2_lt0 i
  have hi1 : (i 1).val < 128 := idx2_lt1 i
  obtain ⟨-, -, -, -, -, -, -, -, -, -, e0, e1⟩ := idx3 (pt3 i)
  refine ⟨pt3 i, flush3_5 (pt3 i), ?_⟩
  rw [mem_blk3_5]
  intro a
  match a with
  | ⟨0, _⟩ =>
    show win3_5.index (pt3 i) (0 : Fin 2) * 2000 ≤ (i 0).val ∧ (i 0).val < win3_5.index (pt3 i) (0 : Fin 2) * 2000 + 2000
    rw [e0]; show (i 0).val / 2000 * 2000 ≤ (i 0).val ∧ (i 0).val < (i 0).val / 2000 * 2000 + 2000; omega
  | ⟨1, _⟩ =>
    show win3_5.index (pt3 i) (1 : Fin 2) * 128 ≤ (i 1).val ∧ (i 1).val < win3_5.index (pt3 i) (1 : Fin 2) * 128 + 128
    rw [e1]; omega

theorem final3_4 (c : Dev nD) (r : Fin 50000) (j : Fin 128) :
    ((dat3 (F := Ideal) V c).arrAt 4 cfg3.N : S50000x128.Idx → EReal) (ix2 r j)
      = Cert.Fm.normd (Norm.rowsAdd (n := 50000) (V c main_v85) (V c main_v61_0)) r j :=
  congrFun ((dat3 (F := Ideal) V c).arrAt_eq_of_cover 4 (G3_4 V c) (fun t _ => flushed3_4_eq V c t) covered3_4) (ix2 r j)

theorem final3_5 (c : Dev nD) (r : Fin 50000) (j : Fin 128) :
    ((dat3 (F := Ideal) V c).arrAt 5 cfg3.N : S50000x128.Idx → EReal) (ix2 r j)
      = Cert.Fm.lin (Cert.Fm.normd (Norm.rowsAdd (n := 50000) (V c main_v85) (V c main_v61_0)))
          (fun k q => (V c main_v88 : S128x128.Idx → EReal) (ix2 k q)) (fun q => (V c main_v91 : S1x128.Idx → EReal) (ix2 (0 : Fin 1) q)) r j :=
  congrFun ((dat3 (F := Ideal) V c).arrAt_eq_of_cover 5 (G3_5 V c) (fun t _ => flushed3_5_eq V c t) covered3_5) (ix2 r j)

end Cert.KernelIdeal.Val

end
-- ==== Proof.Val.K4.lean ====
import proofs.«425171_j32186484916934_3_alg».proof.Proof.Fr.R4
import proofs.«425171_j32186484916934_3_alg».proof.Proof.Fm
import proofs.«425171_j32186484916934_3_alg».proof.Proof.LibPlainDot
import proofs.«425171_j32186484916934_3_alg».proof.Proof.LibSlice
import proofs.«425171_j32186484916934_3_alg».proof.Proof.LibRows
import proofs.«425171_j32186484916934_3_alg».proof.Proof.Val.Norm
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 :=
  funext fun a => by match a with | ⟨0, _⟩ => rfl | ⟨1, _⟩ => rfl

def nbody4 (x0 x1 : Vec Ideal S2000x128 .f32) : FVec Ideal S2000x128 .f32 :=
  divf (addf x0 x1)
    (broadcastTo S2000x128
      (maximumf
        (sqrt (shapeCast S2000x1
          (multiReduction (F := Ideal) .add [1] S2000 (mulf (addf x0 x1) (addf x0 x1)) 0x00000000#32 reduces_S2000x128_S2000 (.inl rfl) rfl)
          shapeCasts_S2000_S2000x1))
        (broadcast S2000x1 (Scalar.ofBits (F := Ideal) .f32 0x2B8CBCCC#32)))
      broadcasts_S2000x1_S2000x128)

theorem nbody4_apply (x0 x1 : Vec Ideal S2000x128 .f32) (p : Fin 2000) (j : Fin 128) :
    (nbody4 x0 x1 : S2000x128.Idx → EReal) (ix2 p j) = Cert.Fm.normd (Norm.rowsAdd (n := 2000) x0 x1) p j := by
  unfold nbody4 Cert.Fm.normd Cert.Fm.nrm Norm.rowsAdd
  show Ideal.div (x0 (ix2 p j) + x1 (ix2 p j)) (broadcastTo S2000x128 _ _ (ix2 p j)) = _
  refine congrArg (Ideal.div (x0 (ix2 p j) + x1 (ix2 p j))) ?_
  refine (Cert.LibRows.broadcastTo_a1_ab_apply _ _ p j).trans ?_
  show max (Ideal.sqrt (shapeCast S2000x1 _ _ (ix2 p (0 : Fin 1)))) (Ideal.ofBits .f32 0x2B8CBCCC#32) = max (Ideal.sqrt _) Cert.Fm.eps
  refine congrArg (fun z => max (Ideal.sqrt z) Cert.Fm.eps) ?_
  refine (Cert.LibSlice.col_of_vec_apply _ _ p).trans ?_
  exact Cert.LibRows.rowsum_apply _ _ _ _ _ p

theorem pay4_1_apply (x0 x1 : Vec Ideal S2000x128 .f32) (x2 : Vec Ideal S128x128 .bf16) (x3 : Vec Ideal S1x128 .f32)
    (p : Fin 2000) (j : Fin 128) :
    (k4_pay1 x0 x1 x2 x3 : S2000x128.Idx → EReal) (ix2 p j)
      = Cert.Fm.lin (Cert.Fm.normd (Norm.rowsAdd (n := 2000) x0 x1)) (fun k q => (x2 : S128x128.Idx → EReal) (ix2 k q))
          (fun q => (x3 : S1x128.Idx → EReal) (ix2 (0 : Fin 1) q)) p j := by
  unfold k4_pay1
  simp only [shapeCast_self]
  unfold Cert.Fm.lin
  show max (matmul dot_S2000x128_S128x128_S2000x128_1_0_0_1_n_n none (truncf .bf16 (nbody4 x0 x1) bitsLt_bf16_f32) x2
        (constant (F := Ideal) S2000x128 .f32 0x00000000#32) (ix2 p j)
      + broadcastTo S2000x128 x3 _ (ix2 p j)) (Ideal.ofBits .f32 0x00000000#32) = _
  rw [Ideal.ofBits_zero_f32]
  refine congrArg (fun z => max z 0) ?_
  refine congrArg₂ (· + ·) ?_ (broadcastTo_1b_ab_apply x3 _ p j)
  refine (Cert.LibPlainDot.matmul_zero_apply (M := 2000) (K := 128) (N := 128) (φ₁ := .bf16) (φ₂ := .bf16)
    dot_S2000x128_S128x128_S2000x128_1_0_0_1_n_n.wf none (truncf .bf16 (nbody4 x0 x1) bitsLt_bf16_f32) x2 p j).trans ?_
  exact Finset.sum_congr rfl fun k _ => congrArg (· * x2 (ix2 k j)) (nbody4_apply x0 x1 p k)

theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

def row4 (t : Fin cfg4.N) (p : Fin 2000) : Fin 50000 :=
  ⟨t.val * 2000 + p.val, by have := t.isLt; have hN : cfg4.N = 25 := N_4; omega⟩

theorem iblk4_0_apply (c : Dev nD) (t : Fin cfg4.N) (p : Fin 2000) (k : Fin 128) :
    (iblk4 V c 0 t : S2000x128.Idx → EReal) (ix2 p k) = (V c main_v116 : S50000x128.Idx → EReal) (ix2 (row4 t p) k) := by
  obtain ⟨e0, e1, -⟩ := idx4 t
  show (V c main_v116 : S50000x128.Idx → EReal) (((cfg4.win 0).blk t).view.emb (ix2 p k)) = _
  refine congrArg (V c main_v116 : S50000x128.Idx → EReal) (funext fun a => Fin.ext ?_)
  match a with
  | ⟨0, _⟩ => show win4_0.index t (0 : Fin 2) * 2000 + 1 * p.val = t.val * 2000 + p.val; rw [e0]; omega
  | ⟨1, _⟩ => show win4_0.index t (1 : Fin 2) * 128 + 1 * k.val = k.val; rw [e1]; omega

theorem iblk4_1_apply (c : Dev nD) (t : Fin cfg4.N) (p : Fin 2000) (k : Fin 128) :
    (iblk4 V c 1 t : S2000x128.Idx → EReal) (ix2 p k) = (V c main_v92_0 : S50000x128.Idx → EReal) (ix2 (row4 t p) k) := by
  obtain ⟨-, -, e0, e1, -⟩ := idx4 t
  show (V c main_v92_0 : S50000x128.Idx → EReal) (((cfg4.win 1).blk t).view.emb (ix2 p k)) = _
  refine congrArg (V c main_v92_0 : S50000x128.Idx → EReal) (funext fun a => Fin.ext ?_)
  match a with
  | ⟨0, _⟩ => show win4_1.index t (0 : Fin 2) * 2000 + 1 * p.val = t.val * 2000 + p.val; rw [e0]; omega
  | ⟨1, _⟩ => show win4_1.index t (1 : Fin 2) * 128 + 1 * k.val = k.val; rw [e1]; omega

theorem iblk4_2_apply (c : Dev nD) (t : Fin cfg4.N) (k : Fin 128) (q : Fin 128) :
    (iblk4 V c 2 t : S128x128.Idx → EReal) (ix2 k q) = (V c main_v119 : S128x128.Idx → EReal) (ix2 k q) := by
  obtain ⟨-, -, -, -, e0, e1, -⟩ := idx4 t
  show (V c main_v119 : S128x128.Idx → EReal) (((cfg4.win 2).blk t).view.emb (ix2 k q)) = _
  refine congrArg (V c main_v119 : S128x128.Idx → EReal) (funext fun a => Fin.ext ?_)
  match a with
  | ⟨0, _⟩ => show win4_2.index t (0 : Fin 2) * 128 + 1 * k.val = k.val; rw [e0]; omega
  | ⟨1, _⟩ => show win4_2.index t (1 : Fin 2) * 128 + 1 * q.val = q.val; rw [e1]; omega

theorem iblk4_3_apply (c : Dev nD) (t : Fin cfg4.N) (q : Fin 128) :
    (iblk4 V c 3 t : S1x128.Idx → EReal) (ix2 (0 : Fin 1) q) = (V c main_v122 : S1x128.Idx → EReal) (ix2 (0 : Fin 1) q) := by
  obtain ⟨-, -, -, -, -, -, e0, e1, -⟩ := idx4 t
  show (V c main_v122 : S1x128.Idx → EReal) (((cfg4.win 3).blk t).view.emb (ix2 (0 : Fin 1) q)) = _
  refine congrArg (V c main_v122 : S1x128.Idx → EReal) (funext fun a => Fin.ext ?_)
  match a with
  | ⟨0, _⟩ => show win4_3.index t (0 : Fin 2) * 1 + 1 * 0 = 0; rw [e0]
  | ⟨1, _⟩ => show win4_3.index t (1 : Fin 2) * 128 + 1 * q.val = q.val; rw [e1]; omega

abbrev Y4 (c : Dev nD) : Fin 50000 → Fin 128 → EReal := Norm.rowsAdd (n := 50000) (V c main_v116) (V c main_v92_0)
abbrev W4 (c : Dev nD) : Fin 128 → Fin 128 → EReal := fun k q => (V c main_v119 : S128x128.Idx → EReal) (ix2 k q)
abbrev B4 (c : Dev nD) : Fin 128 → EReal := fun q => (V c main_v122 : S1x128.Idx → EReal) (ix2 (0 : Fin 1) q)

def G4_4 (c : Dev nD) : S50000x128.Idx → EReal := fun i => Cert.Fm.lin (Cert.Fm.normd (Y4 V c)) (W4 V c) (B4 V c) (i 0) (i 1)

theorem yblk4 (c : Dev nD) (t : Fin cfg4.N) (p : Fin 2000) (k : Fin 128) :
    Norm.rowsAdd (n := 2000) (iblk4 V c 0 t) (iblk4 V c 1 t) p k = Y4 V c (row4 t p) k :=
  congrArg₂ (fun a b : EReal => a + b) (iblk4_0_apply V c t p k) (iblk4_1_apply V c t p k)

theorem flushed4_4_eq (c : Dev nD) (t : Fin cfg4.N) :
    (dat4 (F := Ideal) V c).flushed 4 t = ((cfg4.win 4).blk t).view.read (Elt Ideal) (G4_4 V c) := by
  show (cfg4.win 4).cut (grid4.coords t) ((dat4 (F := Ideal) V c).after 4 t) = _
  rw [after4_4]
  unfold out4_4
  rw [View.canon_unit_zero hz4]
  simp only [View.ld_unit_zero (S := S2000x128) hz4, View.ld_unit_zero (S := S128x128) hz4, View.ld_unit_zero (S := S1x128) hz4]
  obtain ⟨-, -, -, -, -, -, -, -, e0, e1⟩ := idx4 t
  funext y
  obtain ⟨p, j, rfl⟩ : ∃ (p : Fin 2000) (j : Fin 128), y = ix2 p j := ⟨y 0, y 1, eq_ix2 y⟩
  have hout : ((cfg4.win 4).blk t).view.emb (ix2 p j) = (ix2 (row4 t p) j : S50000x128.Idx) :=
    funext fun a => Fin.ext (by
      match a with
      | ⟨0, _⟩ => show win4_4.index t (0 : Fin 2) * 2000 + 1 * p.val = t.val * 2000 + p.val; rw [e0]; omega
      | ⟨1, _⟩ => show win4_4.index t (1 : Fin 2) * 128 + 1 * j.val = j.val; rw [e1]; omega)
  show (k4_pay1 (iblk4 V c 0 t) (iblk4 V c 1 t) (iblk4 V c 2 t) (iblk4 V c 3 t) : S2000x128.Idx → EReal) (ix2 p j)
    = G4_4 V c (((cfg4.win 4).blk t).view.emb (ix2 p j))
  rw [hout]
  refine (pay4_1_apply _ _ _ _ p j).trans ?_
  show _ = Cert.Fm.lin (Cert.Fm.normd (Y4 V c)) (W4 V c) (B4 V c) (row4 t p) j
  exact Norm.lin_congr _ _ _ _ _ _ p (row4 t p)
    (fun k => Norm.normd_congr _ _ p (row4 t p) (fun k' => yblk4 V c t p k') k)
    (fun k q => iblk4_2_apply V c t k q) (fun q => iblk4_3_apply V c t q) j

theorem mem_blk4_4 (t : Fin cfg4.N) (i : S50000x128.Idx) :
    i ∈ ((cfg4.win 4).blk t).view.set
      ↔ ∀ a : Fin 2, win4_4.index t a * S2000x128.size a ≤ (i a).val ∧ (i a).val < win4_4.index t a * S2000x128.size a + S2000x128.size a := by
  show i ∈ ((View.whole main_v123).slice (win4_4.rect t)).set ↔ _
  rw [View.set_slice_whole, Rect.mem_set_unit]
  exact Iff.rfl

def pt4 (i : S50000x128.Idx) : Fin cfg4.N :=
  ⟨(i 0).val / 2000, by have hi0 : (i 0).val < 50000 := idx2_lt0 i; rw [show cfg4.N = 25 from N_4]; omega⟩

theorem covered4_4 (i : S50000x128.Idx) :
    ∃ t : Fin cfg4.N, (cfg4.win 4).flush t = true ∧ i ∈ ((cfg4.win 4).blk t).view.set := by
  have hi0 : (i 0).val < 50000 := idx2_lt0 i
  have hi1 : (i 1).val < 128 := idx2_lt1 i
  obtain ⟨-, -, -, -, -, -, -, -, e0, e1⟩ := idx4 (pt4 i)
  refine ⟨pt4 i, flush4_4 (pt4 i), ?_⟩
  rw [mem_blk4_4]
  intro a
  match a with
  | ⟨0, _⟩ =>
    show win4_4.index (pt4 i) (0 : Fin 2) * 2000 ≤ (i 0).val ∧ (i 0).val < win4_4.index (pt4 i) (0 : Fin 2) * 2000 + 2000
    rw [e0]; show (i 0).val / 2000 * 2000 ≤ (i 0).val ∧ (i 0).val < (i 0).val / 2000 * 2000 + 2000; omega
  | ⟨1, _⟩ =>
    show win4_4.index (pt4 i) (1 : Fin 2) * 128 ≤ (i 1).val ∧ (i 1).val < win4_4.index (pt4 i) (1 : Fin 2) * 128 + 128
    rw [e1]; omega

theorem final4_4 (c : Dev nD) (r : Fin 50000) (j : Fin 128) :
    ((dat4 (F := Ideal) V c).arrAt 4 cfg4.N : S50000x128.Idx → EReal) (ix2 r j)
      = Cert.Fm.lin (Cert.Fm.normd (Norm.rowsAdd (n := 50000) (V c main_v116) (V c main_v92_0)))
          (fun k q => (V c main_v119 : S128x128.Idx → EReal) (ix2 k q)) (fun q => (V c main_v122 : S1x128.Idx → EReal) (ix2 (0 : Fin 1) q)) r j :=
  congrFun ((dat4 (F := Ideal) V c).arrAt_eq_of_cover 4 (G4_4 V c) (fun t _ => flushed4_4_eq V c t) covered4_4) (ix2 r j)

end Cert.KernelIdeal.Val

end
-- ==== Proof.Val.K5.lean ====
import proofs.«425171_j32186484916934_3_alg».proof.Proof.Fr.R5
import proofs.«425171_j32186484916934_3_alg».proof.Proof.Fm
import proofs.«425171_j32186484916934_3_alg».proof.Proof.LibPlainDot
import proofs.«425171_j32186484916934_3_alg».proof.Proof.LibSlice
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 :=
  funext fun a => by match a with | ⟨0, _⟩ => rfl | ⟨1, _⟩ => rfl

theorem pay5_apply (x0 : Vec Ideal S5000x128 .f32) (x1 : Vec Ideal S128x128 .bf16) (x2 : Vec Ideal S1x128 .f32)
    (p : Fin 5000) (j : Fin 128) :
    (k5_pay1 x0 x1 x2 : S5000x128.Idx → EReal) (ix2 p j)
      = Cert.Fm.lin (fun r k => (x0 : S5000x128.Idx → EReal) (ix2 r k)) (fun k q => (x1 : S128x128.Idx → EReal) (ix2 k q))
          (fun q => (x2 : S1x128.Idx → EReal) (ix2 (0 : Fin 1) q)) p j := by
  unfold k5_pay1 Cert.Fm.lin
  simp only [maximumf_apply, addf_apply, broadcast_apply, shapeCast_self, broadcastTo_1b_ab_apply]
  rw [show (Scalar.ofBits (F := Ideal) .f32 0x00000000#32 : EReal) = 0 from Ideal.ofBits_zero_f32]
  refine congrArg (fun z : EReal => max (z + (x2 : S1x128.Idx → EReal) (ix2 (0 : Fin 1) j)) 0) ?_
  exact Cert.LibPlainDot.matmul_zero_apply (M := 5000) (K := 128) (N := 128)
    dot_S5000x128_S128x128_S5000x128_1_0_0_1_n_n_wf none (truncf .bf16 x0 bitsLt_bf16_f32) x1 p j

theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem xblk5 (c : Dev nD) (t : Fin cfg5.N) (p : Fin 5000) (k : Fin 128) (r : Fin 50000) (hr : r.val = t.val * 5000 + p.val) :
    (iblk5 V c 0 t : S5000x128.Idx → EReal) (ix2 p k) = (V c main_v123 : S50000x128.Idx → EReal) (ix2 r k) := by
  obtain ⟨e0, e1, -⟩ := idx5 t
  show (V c main_v123 : S50000x128.Idx → EReal) (((cfg5.win 0).blk t).view.emb (ix2 p k)) = _
  refine congrArg _ (funext fun a => Fin.ext ?_)
  match a with
  | ⟨0, _⟩ => show win5_0.index t (0 : Fin 2) * 5000 + 1 * p.val = r.val; rw [e0, hr]; omega
  | ⟨1, _⟩ => show win5_0.index t (1 : Fin 2) * 128 + 1 * k.val = k.val; rw [e1]; omega

theorem wblk5 (c : Dev nD) (t : Fin cfg5.N) (k : Fin 128) (q : Fin 128) :
    (iblk5 V c 1 t : S128x128.Idx → EReal) (ix2 k q) = (V c main_v126 : S128x128.Idx → EReal) (ix2 k q) := by
  obtain ⟨-, -, e0, e1, -⟩ := idx5 t
  show (V c main_v126 : S128x128.Idx → EReal) (((cfg5.win 1).blk t).view.emb (ix2 k q)) = _
  refine congrArg _ (funext fun a => Fin.ext ?_)
  match a with
  | ⟨0, _⟩ => show win5_1.index t (0 : Fin 2) * 128 + 1 * k.val = k.val; rw [e0]; omega
  | ⟨1, _⟩ => show win5_1.index t (1 : Fin 2) * 128 + 1 * q.val = q.val; rw [e1]; omega

theorem bblk5 (c : Dev nD) (t : Fin cfg5.N) (q : Fin 128) :
    (iblk5 V c 2 t : S1x128.Idx → EReal) (ix2 (0 : Fin 1) q) = (V c main_v129 : S1x128.Idx → EReal) (ix2 (0 : Fin 1) q) := by
  obtain ⟨-, -, -, -, e0, e1, -⟩ := idx5 t
  show (V c main_v129 : S1x128.Idx → EReal) (((cfg5.win 2).blk t).view.emb (ix2 (0 : Fin 1) q)) = _
  refine congrArg _ (funext fun a => Fin.ext ?_)
  match a with
  | ⟨0, _⟩ => show win5_2.index t (0 : Fin 2) * 1 + 1 * 0 = 0; rw [e0]
  | ⟨1, _⟩ => show win5_2.index t (1 : Fin 2) * 128 + 1 * q.val = q.val; rw [e1]; omega

def lin5 (c : Dev nD) : S50000x128.Idx → EReal := fun i =>
  Cert.Fm.lin (fun r k => (V c main_v123 : S50000x128.Idx → EReal) (ix2 r k)) (fun k q => (V c main_v126 : S128x128.Idx → EReal) (ix2 k q))
    (fun q => (V c main_v129 : S1x128.Idx → EReal) (ix2 (0 : Fin 1) q)) (i 0) (i 1)

theorem flushed5_3_eq (c : Dev nD) (t : Fin cfg5.N) :
    (dat5 (F := Ideal) V c).flushed 3 t = ((cfg5.win 3).blk t).view.read (Elt Ideal) (lin5 V c) := by
  show (cfg5.win 3).cut (grid5.coords t) ((dat5 (F := Ideal) V c).after 3 t) = _
  rw [after5_3]
  unfold out5_3
  rw [View.canon_unit_zero hz5]
  simp only [View.ld_unit_zero (S := S5000x128) hz5, View.ld_unit_zero (S := S128x128) hz5, View.ld_unit_zero (S := S1x128) hz5]
  funext y
  have hy0 : (y 0).val < 5000 := (y 0).isLt
  have hy1 : (y 1).val < 128 := (y 1).isLt
  have ht : t.val < 10 := by have h := t.isLt; have hN : cfg5.N = 10 := N_5; omega
  obtain ⟨-, -, -, -, -, -, e0, e1⟩ := idx5 t
  have hin : (cfg5.win 3).xinj (grid5.coords t) y = ix2 (⟨(y 0).val, hy0⟩ : Fin 5000) (⟨(y 1).val, hy1⟩ : Fin 128) :=
    funext fun a => by match a with | ⟨0, _⟩ => rfl | ⟨1, _⟩ => rfl
  have hout : ((cfg5.win 3).blk t).view.emb y
      = ix2 (⟨t.val * 5000 + (y 0).val, by omega⟩ : Fin 50000) (⟨(y 1).val, hy1⟩ : Fin 128) :=
    funext fun a => Fin.ext (by
      match a with
      | ⟨0, _⟩ => show win5_3.index t (0 : Fin 2) * 5000 + 1 * (y 0).val = t.val * 5000 + (y 0).val; rw [e0]; omega
      | ⟨1, _⟩ => show win5_3.index t (1 : Fin 2) * 128 + 1 * (y 1).val = (y 1).val; rw [e1]; omega)
  show (k5_pay1 (iblk5 V c 0 t) (iblk5 V c 1 t) (iblk5 V c 2 t) : S5000x128.Idx → EReal) ((cfg5.win 3).xinj (grid5.coords t) y)
    = lin5 V c (((cfg5.win 3).blk t).view.emb y)
  rw [hin, hout]
  refine (pay5_apply (iblk5 V c 0 t) (iblk5 V c 1 t) (iblk5 V c 2 t) _ _).trans ?_
  show Cert.Fm.lin _ _ _ _ _ = Cert.Fm.lin _ _ _ _ _
  unfold Cert.Fm.lin
  simp only [wblk5 V c t, bblk5 V c t]
  refine congrArg (fun z : EReal => max (z + _) 0) (Finset.sum_congr rfl fun k _ => ?_)
  rw [xblk5 V c t ⟨(y 0).val, hy0⟩ k ⟨t.val * 5000 + (y 0).val, by omega⟩ rfl]

theorem mem_blk5_3 (t : Fin cfg5.N) (i : S50000x128.Idx) :
    i ∈ ((cfg5.win 3).blk t).view.set
      ↔ ∀ a : Fin 2, win5_3.index t a * S5000x128.size a ≤ (i a).val ∧ (i a).val < win5_3.index t a * S5000x128.size a + S5000x128.size a := by
  show i ∈ ((View.whole main_v130).slice (win5_3.rect t)).set ↔ _
  rw [View.set_slice_whole, Rect.mem_set_unit]
  exact Iff.rfl

theorem cover5_3_arr (i : S50000x128.Idx) :
    ∃ t : Fin cfg5.N, (cfg5.win 3).flush t = true ∧ i ∈ ((cfg5.win 3).blk t).view.set := by
  have hi0 : (i 0).val < 50000 := idx2_lt0 i
  have hi1 : (i 1).val < 128 := idx2_lt1 i
  have hN : cfg5.N = 10 := N_5
  obtain ⟨-, -, -, -, -, -, e0, e1⟩ := idx5 ⟨(i 0).val / 5000, by rw [hN]; omega⟩
  refine ⟨⟨(i 0).val / 5000, by rw [hN]; omega⟩, flush5_3 _, ?_⟩
  rw [mem_blk5_3]
  intro a
  match a with
  | ⟨0, _⟩ =>
    show win5_3.index ⟨(i 0).val / 5000, _⟩ (0 : Fin 2) * 5000 ≤ (i 0).val
      ∧ (i 0).val < win5_3.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win5_3.index ⟨(i 0).val / 5000, _⟩ (1 : Fin 2) * 128 ≤ (i 1).val
      ∧ (i 1).val < win5_3.index ⟨(i 0).val / 5000, _⟩ (1 : Fin 2) * 128 + 128
    rw [e1]; omega

theorem final5_3 (c : Dev nD) (r : Fin 50000) (j : Fin 128) :
    ((dat5 (F := Ideal) V c).arrAt 3 cfg5.N : S50000x128.Idx → EReal) (ix2 r j)
      = Cert.Fm.lin (fun r k => (V c main_v123 : S50000x128.Idx → EReal) (ix2 r k)) (fun k j => (V c main_v126 : S128x128.Idx → EReal) (ix2 k j))
          (fun j => (V c main_v129 : S1x128.Idx → EReal) (ix2 (0 : Fin 1) j)) r j :=
  congrFun ((dat5 (F := Ideal) V c).arrAt_eq_of_cover 3 (lin5 V c) (fun t _ => flushed5_3_eq V c t) cover5_3_arr) (ix2 r j)

end Cert.KernelIdeal.Val

end
-- ==== Proof.Val.K6.lean ====
import proofs.«425171_j32186484916934_3_alg».proof.Proof.Fr.R6
import proofs.«425171_j32186484916934_3_alg».proof.Proof.Fm
import proofs.«425171_j32186484916934_3_alg».proof.Proof.LibPlainDot
import proofs.«425171_j32186484916934_3_alg».proof.Proof.LibSlice
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

def hot6 (b : BitVec 32) (g : Fin 1024) : EReal := if b = BitVec.ofNat 32 g.val then 1 else 0

theorem hot6_word (b : BitVec 32) (g : Fin 1024) :
    ((((IntOp.cmpi .eq b (BitVec.ofNat 32 g.val)).setWidth 32).toInt : ℝ) : EReal) = hot6 b g := by
  unfold hot6
  by_cases h : b = BitVec.ofNat 32 g.val
  · have e : IntOp.cmpi .eq b (BitVec.ofNat 32 g.val) = 1#1 := by
      show BitVec.ofBool (b == BitVec.ofNat 32 g.val) = 1#1
      rw [h, beq_self_eq_true]; rfl
    rw [if_pos h, e, show ((1#1 : BitVec 1).setWidth 32).toInt = 1 from by decide]
    norm_num
  · have e : IntOp.cmpi .eq b (BitVec.ofNat 32 g.val) = 0#1 := by
      show BitVec.ofBool (b == BitVec.ofNat 32 g.val) = 0#1
      rw [beq_false_of_ne h]; rfl
    rw [if_neg h, e, show ((0#1 : BitVec 1).setWidth 32).toInt = 0 from by decide]
    norm_num

theorem word_eq_iff (b : BitVec 32) (g : Fin 1024) : b = BitVec.ofNat 32 g.val ↔ b.toInt = (g.val : Int) := by
  have hg : g.val < 1024 := g.isLt
  have hn : (BitVec.ofNat 32 g.val).toNat = g.val := by rw [BitVec.toNat_ofNat]; omega
  have e : (BitVec.ofNat 32 g.val).toInt = (g.val : Int) := by
    rw [BitVec.toInt_eq_toNat_of_lt (by rw [hn]; omega), hn]
  constructor
  · intro h; rw [h, e]
  · intro h; exact BitVec.eq_of_toInt_eq (h.trans e.symm)

theorem pay1_6_apply (h : Fin 128) (g : Fin 1024) : (k6_pay1 (F := Ideal) : S128x1024.Idx → EReal) (ix2 h g) = 0 := by
  unfold k6_pay1
  simp only [shapeCast_self, broadcast_apply]
  exact Ideal.ofBits_zero_f32

theorem col_broadcast_apply {α : Type} {a b : ℕ} (v : (⟨2, ![a, 1]⟩ : Shape).Idx → α)
    (hb : (⟨2, ![a, 1]⟩ : Shape).Broadcasts ⟨2, ![a, b]⟩) (p : Fin a) (q : Fin b) :
    broadcastTo ⟨2, ![a, b]⟩ v hb (ix2 p q) = v (ix2 p (0 : Fin 1)) := by
  refine broadcastTo_apply v hb (ix2 p q) (ix2 p (0 : Fin 1)) fun ax => ?_
  match ax with
  | ⟨0, _⟩ =>
    show p.val = if a = 1 then 0 else p.val
    split
    · have := p.isLt; omega
    · rfl
  | ⟨1, _⟩ => rfl

theorem pay2_6_apply (v3 : Vec Ideal S2000x1 .i32) (v11 : Vec Ideal S2000x128 .f32) (v15 : Vec Ideal S128x1024 .f32)
    (h : Fin 128) (g : Fin 1024) :
    (k6_pay2 v3 v11 v15 : S128x1024.Idx → EReal) (ix2 h g)
      = (v15 : S128x1024.Idx → EReal) (ix2 h g)
        + ∑ p : Fin 2000, (v11 : S2000x128.Idx → EReal) (ix2 p h) * hot6 ((v3 : S2000x1.Idx → BitVec 32) (ix2 p (0 : Fin 1))) g := by
  unfold k6_pay2
  simp only [shapeCast_self, addf_apply]
  refine congrArg (fun z : EReal => (v15 : S128x1024.Idx → EReal) (ix2 h g) + z) ?_
  refine (Cert.LibPlainDot.matmul_zero_apply (M := 128) (K := 2000) (N := 1024)
    dot_S128x2000_S2000x1024_S128x1024_1_0_0_1_n_n_wf none _ _ h g).trans ?_
  refine Finset.sum_congr rfl fun p _ => ?_
  refine congrArg₂ (· * ·) ?_ ?_
  · exact transpose_ix2_apply (a := 2000) (b := 128) _ _ h p
  · show ((((IntOp.cmpi .eq (broadcastTo S2000x1024 v3 broadcasts_S2000x1_S2000x1024 (ix2 p g))
        (iota .tc S2000x1024 32 [1] iota_S2000x1024_d1_w32 (ix2 p g))).setWidth 32).toInt : ℝ) : EReal) = _
    rw [iota_single_apply, col_broadcast_apply (a := 2000) (b := 1024) v3 _ p g]
    exact hot6_word _ g

theorem pay3_6_apply (v24 : Vec Ideal S128x1024 .f32) (v27 : Vec Ideal S128x1 .bf16) (v30 : Vec Ideal S1x1 .f32) (g : Fin 1024) :
    (k6_pay3 v24 v27 v30 : S1024x1.Idx → EReal) (ix2 g (0 : Fin 1))
      = (∑ h : Fin 128, (v24 : S128x1024.Idx → EReal) (ix2 h g) * (v27 : S128x1.Idx → EReal) (ix2 h (0 : Fin 1)))
        + (v30 : S1x1.Idx → EReal) (ix2 (0 : Fin 1) (0 : Fin 1)) := by
  unfold k6_pay3
  simp only [shapeCast_self, addf_apply]
  refine congrArg₂ (· + ·) ?_ ?_
  · refine (Cert.LibPlainDot.matmul_zero_apply (M := 1024) (K := 128) (N := 1) (φ₁ := .bf16) (φ₂ := .bf16)
      dot_S1024x128_S128x1_S1024x1_1_0_0_1_n_n_wf none _ _ g (0 : Fin 1)).trans ?_
    refine Finset.sum_congr rfl fun h _ => ?_
    refine congrArg₂ (· * ·) ?_ rfl
    exact transpose_ix2_apply (a := 128) (b := 1024) _ _ g h
  · exact broadcastTo_1b_ab_apply (a := 1024) (b := 1) v30 _ g (0 : Fin 1)

def row6 (t : Fin 25) (p : Fin 2000) : Fin 50000 := ⟨t.val * 2000 + p.val, by have := t.isLt; have := p.isLt; omega⟩

def rowEquiv6 : Fin 25 × Fin 2000 ≃ Fin 50000 where
  toFun x := row6 x.1 x.2
  invFun n := (⟨n.val / 2000, by have := n.isLt; omega⟩, ⟨n.val % 2000, by omega⟩)
  left_inv x := by
    obtain ⟨t, p⟩ := x
    have := t.isLt; have := p.isLt
    refine Prod.ext (Fin.ext ?_) (Fin.ext ?_)
    · show (t.val * 2000 + p.val) / 2000 = t.val; omega
    · show (t.val * 2000 + p.val) % 2000 = p.val; omega
  right_inv n := Fin.ext (by show n.val / 2000 * 2000 + n.val % 2000 = n.val; omega)

theorem sum_rows6 (f : Fin 50000 → EReal) : ∑ t : Fin 25, ∑ p : Fin 2000, f (row6 t p) = ∑ n : Fin 50000, f n := by
  rw [← Equiv.sum_comp rowEquiv6 f, Fintype.sum_prod_type]
  rfl

theorem sum_hot6 (x : Fin 50000 → EReal) (bid : Fin 50000 → BitVec 32) (g : Fin 1024) :
    ∑ n : Fin 50000, x n * hot6 (bid n) g = ∑ n ∈ Finset.univ.filter (fun n : Fin 50000 => (bid n).toInt = (g.val : Int)), x n := by
  rw [Finset.sum_filter]
  refine Finset.sum_congr rfl fun n _ => ?_
  unfold hot6
  by_cases h : bid n = BitVec.ofNat 32 g.val
  · rw [if_pos h, if_pos ((word_eq_iff _ g).mp h), mul_one]
  · rw [if_neg h, if_neg (fun h' => h ((word_eq_iff _ g).mpr h')), mul_zero]

theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

theorem xblk6 (c : Dev nD) (t : Fin cfg6.N) (p : Fin 2000) (h : Fin 128) (r : Fin 50000) (hr : r.val = t.val * 2000 + p.val) :
    (iblk6 V c 0 t : S2000x128.Idx → EReal) (ix2 p h) = (V c main_v130 : S50000x128.Idx → EReal) (ix2 r h) := by
  obtain ⟨e0, e1, -⟩ := idx6 t
  show (V c main_v130 : S50000x128.Idx → EReal) (((cfg6.win 0).blk t).view.emb (ix2 p h)) = _
  refine congrArg _ (funext fun a => Fin.ext ?_)
  match a with
  | ⟨0, _⟩ => show win6_0.index t (0 : Fin 2) * 2000 + 1 * p.val = r.val; rw [e0, hr]; omega
  | ⟨1, _⟩ => show win6_0.index t (1 : Fin 2) * 128 + 1 * h.val = h.val; rw [e1]; omega

theorem bblk6 (c : Dev nD) (t : Fin cfg6.N) (p : Fin 2000) (r : Fin 50000) (hr : r.val = t.val * 2000 + p.val) :
    (iblk6 V c 1 t : S2000x1.Idx → BitVec 32) (ix2 p (0 : Fin 1)) = (V c main_v5 : S50000x1.Idx → BitVec 32) (ix2 r (0 : Fin 1)) := by
  obtain ⟨-, -, e0, e1, -⟩ := idx6 t
  show (V c main_v5 : S50000x1.Idx → BitVec 32) (((cfg6.win 1).blk t).view.emb (ix2 p (0 : Fin 1))) = _
  refine congrArg _ (funext fun a => Fin.ext ?_)
  match a with
  | ⟨0, _⟩ => show win6_1.index t (0 : Fin 2) * 2000 + 1 * p.val = r.val; rw [e0, hr]; omega
  | ⟨1, _⟩ => show win6_1.index t (1 : Fin 2) * 1 + 1 * 0 = 0; rw [e1]

theorem wblk6 (c : Dev nD) (t : Fin cfg6.N) (h : Fin 128) :
    (iblk6 V c 2 t : S128x1.Idx → EReal) (ix2 h (0 : Fin 1)) = (V c main_v131 : S128x1.Idx → EReal) (ix2 h (0 : Fin 1)) := by
  obtain ⟨-, -, -, -, e0, e1, -⟩ := idx6 t
  show (V c main_v131 : S128x1.Idx → EReal) (((cfg6.win 2).blk t).view.emb (ix2 h (0 : Fin 1))) = _
  refine congrArg _ (funext fun a => Fin.ext ?_)
  match a with
  | ⟨0, _⟩ => show win6_2.index t (0 : Fin 2) * 128 + 1 * h.val = h.val; rw [e0]; omega
  | ⟨1, _⟩ => show win6_2.index t (1 : Fin 2) * 1 + 1 * 0 = 0; rw [e1]

theorem cblk6 (c : Dev nD) (t : Fin cfg6.N) :
    (iblk6 V c 3 t : S1x1.Idx → EReal) (ix2 (0 : Fin 1) (0 : Fin 1)) = (V c main_v132 : S1x1.Idx → EReal) (ix2 (0 : Fin 1) (0 : Fin 1)) := by
  obtain ⟨-, -, -, -, -, -, e0, e1, -⟩ := idx6 t
  show (V c main_v132 : S1x1.Idx → EReal) (((cfg6.win 3).blk t).view.emb (ix2 (0 : Fin 1) (0 : Fin 1))) = _
  refine congrArg _ (funext fun a => Fin.ext ?_)
  match a with
  | ⟨0, _⟩ => show win6_3.index t (0 : Fin 2) * 1 + 1 * 0 = 0; rw [e0]
  | ⟨1, _⟩ => show win6_3.index t (1 : Fin 2) * 1 + 1 * 0 = 0; rw [e1]

abbrev X6 (c : Dev nD) : Fin 50000 → Fin 128 → EReal := fun n h => (V c main_v130 : S50000x128.Idx → EReal) (ix2 n h)
abbrev B6 (c : Dev nD) : Fin 50000 → BitVec 32 := fun n => (V c main_v5 : S50000x1.Idx → BitVec 32) (ix2 n (0 : Fin 1))
abbrev W6 (c : Dev nD) : Fin 128 → EReal := fun h => (V c main_v131 : S128x1.Idx → EReal) (ix2 h (0 : Fin 1))
abbrev b6 (c : Dev nD) : EReal := (V c main_v132 : S1x1.Idx → EReal) (ix2 (0 : Fin 1) (0 : Fin 1))

def term6 (c : Dev nD) (t : ℕ) (h : Fin 128) (g : Fin 1024) : EReal :=
  if ht : t < 25 then ∑ p : Fin 2000, X6 V c (row6 ⟨t, ht⟩ p) h * hot6 (B6 V c (row6 ⟨t, ht⟩ p)) g else 0

theorem step6 (c : Dev nD) (t : Fin cfg6.N) (a : Vec Ideal S128x1024 .f32) (h : Fin 128) (g : Fin 1024) :
    (k6_pay2 (iblk6 V c 1 t) (iblk6 V c 0 t) a : S128x1024.Idx → EReal) (ix2 h g)
      = (a : S128x1024.Idx → EReal) (ix2 h g) + term6 V c t.val h g := by
  have ht : t.val < 25 := by have h' := t.isLt; have hN : cfg6.N = 25 := N_6; omega
  refine (pay2_6_apply (iblk6 V c 1 t) (iblk6 V c 0 t) a h g).trans ?_
  refine congrArg (fun z : EReal => (a : S128x1024.Idx → EReal) (ix2 h g) + z) ?_
  unfold term6; rw [dif_pos ht]
  refine Finset.sum_congr rfl fun p _ => ?_
  rw [xblk6 V c t p h (row6 ⟨t.val, ht⟩ p) rfl, bblk6 V c t p (row6 ⟨t.val, ht⟩ p) rfl]

theorem acc6_closed (c : Dev nD) : ∀ (n : ℕ), n < 25 → ∀ (h : Fin 128) (g : Fin 1024),
    (acc6 V c n : S128x1024.Idx → EReal) (ix2 h g) = ∑ t ∈ Finset.range (n + 1), term6 V c t h g
  | 0, _, h, g => by
    rw [acc6_zero V c, Finset.sum_range_one]
    refine (step6 V c ⟨0, by decide⟩ (k6_pay1 (F := Ideal)) h g).trans ?_
    rw [pay1_6_apply, zero_add]
  | n + 1, hn, h, g => by
    have hN : cfg6.N = 25 := N_6
    rw [acc6_succ V c n (by rw [hN]; exact hn), Finset.sum_range_succ]
    refine (step6 V c ⟨n + 1, by rw [hN]; exact hn⟩ (acc6 V c n) h g).trans ?_
    rw [acc6_closed c n (by omega) h g]

theorem acc6_last (c : Dev nD) (h : Fin 128) (g : Fin 1024) :
    (acc6 V c 24 : S128x1024.Idx → EReal) (ix2 h g) = Cert.Fm.seg (X6 V c) (B6 V c) g h := by
  rw [acc6_closed V c 24 (by decide) h g]
  show ∑ t ∈ Finset.range 25, term6 V c t h g = _
  rw [Finset.sum_range]
  unfold Cert.Fm.seg
  rw [← sum_hot6 (fun n => X6 V c n h) (B6 V c) g, ← sum_rows6]
  refine Finset.sum_congr rfl fun t _ => ?_
  unfold term6; rw [dif_pos t.isLt]

def out6 (c : Dev nD) : S1024x1.Idx → EReal := fun i => Cert.Fm.out (X6 V c) (B6 V c) (W6 V c) (b6 V c) (i 0)

theorem flushed6_4_eq (c : Dev nD) (t : Fin cfg6.N) (hf : (cfg6.win 4).flush t = true) :
    (dat6 (F := Ideal) V c).flushed 4 t = ((cfg6.win 4).blk t).view.read (Elt Ideal) (out6 V c) := by
  have hN : cfg6.N = 25 := N_6
  have ht : t.val = 24 := by have h1 := (flush6_4 t).mp hf; have h2 := t.isLt; omega
  show (cfg6.win 4).cut (grid6.coords t) ((dat6 (F := Ideal) V c).after 4 t) = _
  rw [after6_4, ht]
  unfold out6_4
  rw [View.canon_unit_zero hz6]
  simp only [View.ld_unit_zero (S := S128x1024) hz6, View.ld_unit_zero (S := S128x1) hz6, View.ld_unit_zero (S := S1x1) hz6]
  funext y
  have hy0 : (y 0).val < 1024 := (y 0).isLt
  have hy1 : (y 1).val < 1 := (y 1).isLt
  obtain ⟨-, -, -, -, -, -, -, -, e0, e1⟩ := idx6 t
  have hin : (cfg6.win 4).xinj (grid6.coords t) y = ix2 (⟨(y 0).val, hy0⟩ : Fin 1024) (0 : Fin 1) :=
    funext fun a => Fin.ext (by
      match a with
      | ⟨0, _⟩ => rfl
      | ⟨1, _⟩ => show (y 1).val = 0; omega)
  have hout : ((cfg6.win 4).blk t).view.emb y = ix2 (⟨(y 0).val, hy0⟩ : Fin 1024) (0 : Fin 1) :=
    funext fun a => Fin.ext (by
      match a with
      | ⟨0, _⟩ => show win6_4.index t (0 : Fin 2) * 1024 + 1 * (y 0).val = (y 0).val; rw [e0]; omega
      | ⟨1, _⟩ => show win6_4.index t (1 : Fin 2) * 1 + 1 * (y 1).val = 0; rw [e1]; omega)
  show (k6_pay3 (acc6 V c 24) (iblk6 V c 2 t) (iblk6 V c 3 t) : S1024x1.Idx → EReal) ((cfg6.win 4).xinj (grid6.coords t) y)
    = out6 V c (((cfg6.win 4).blk t).view.emb y)
  rw [hin, hout]
  refine (pay3_6_apply (acc6 V c 24) (iblk6 V c 2 t) (iblk6 V c 3 t) _).trans ?_
  show _ = Cert.Fm.out _ _ _ _ _
  unfold Cert.Fm.out
  rw [cblk6 V c t]
  refine congrArg (fun z : EReal => z + b6 V c) (Finset.sum_congr rfl fun h _ => ?_)
  rw [acc6_last V c h _, wblk6 V c t h]

theorem mem_blk6_4 (t : Fin cfg6.N) (i : S1024x1.Idx) :
    i ∈ ((cfg6.win 4).blk t).view.set
      ↔ ∀ a : Fin 2, win6_4.index t a * S1024x1.size a ≤ (i a).val ∧ (i a).val < win6_4.index t a * S1024x1.size a + S1024x1.size a := by
  show i ∈ ((View.whole main_v133).slice (win6_4.rect t)).set ↔ _
  rw [View.set_slice_whole, Rect.mem_set_unit]
  exact Iff.rfl

theorem cover6_4_arr (i : S1024x1.Idx) :
    ∃ t : Fin cfg6.N, (cfg6.win 4).flush t = true ∧ i ∈ ((cfg6.win 4).blk t).view.set := by
  have hi0 : (i 0).val < 1024 := idx2_lt0 i
  have hi1 : (i 1).val < 1 := idx2_lt1 i
  have hN : cfg6.N = 25 := N_6
  obtain ⟨-, -, -, -, -, -, -, -, e0, e1⟩ := idx6 ⟨24, by rw [hN]; omega⟩
  refine ⟨⟨24, by rw [hN]; omega⟩, (flush6_4 _).mpr rfl, ?_⟩
  rw [mem_blk6_4]
  intro a
  match a with
  | ⟨0, _⟩ =>
    show win6_4.index ⟨24, _⟩ (0 : Fin 2) * 1024 ≤ (i 0).val ∧ (i 0).val < win6_4.index ⟨24, _⟩ (0 : Fin 2) * 1024 + 1024
    rw [e0]; omega
  | ⟨1, _⟩ =>
    show win6_4.index ⟨24, _⟩ (1 : Fin 2) * 1 ≤ (i 1).val ∧ (i 1).val < win6_4.index ⟨24, _⟩ (1 : Fin 2) * 1 + 1
    rw [e1]; omega

theorem final6_4 (c : Dev nD) (g : Fin 1024) :
    ((dat6 (F := Ideal) V c).arrAt 4 cfg6.N : S1024x1.Idx → EReal) (ix2 g (0 : Fin 1))
      = Cert.Fm.out (fun n h => (V c main_v130 : S50000x128.Idx → EReal) (ix2 n h))
          (fun n => (V c main_v5 : S50000x1.Idx → BitVec 32) (ix2 n (0 : Fin 1)))
          (fun h => (V c main_v131 : S128x1.Idx → EReal) (ix2 h (0 : Fin 1)))
          ((V c main_v132 : S1x1.Idx → EReal) (ix2 (0 : Fin 1) (0 : Fin 1))) g :=
  congrFun ((dat6 (F := Ideal) V c).arrAt_eq_of_cover 4 (out6 V c) (fun t hf => flushed6_4_eq V c t hf) cover6_4_arr) (ix2 g (0 : Fin 1))

end Cert.KernelIdeal.Val

end
-- ==== Proof.LibIndex.lean ====
import Idealize.ShloMosaic.PureOps.Ideal
import Idealize.ShloMosaic.Lib.ValueIdx

noncomputable section

namespace Cert.LibIndex

open Idealize.ShloMosaic Idealize.ShloMosaic.ValueIdx

abbrev rowGatherDims (N T C : Nat)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

section Gather
variable {N T C w : Nat}
  (wf : GatherDims.WF ⟨2, ![N, C]⟩ ⟨2, ![T, 1]⟩ ⟨2, ![T, C]⟩ [1] [0] [] [0] [] 1 ![1, C])

theorem rowGather_siIdx (t : Fin T) (j : Fin C) (c : Fin (rowGatherDims N T C wf).startIndexMap.length) :
    (rowGatherDims N T C wf).siIdx (ix2 t j) c = ix2 t (0 : Fin 1) := by
  funext b
  refine Fin.ext ?_
  match b with
  | ⟨0, _⟩ => rfl
  | ⟨1, _⟩ =>
    have hc : c.val < 1 := c.isLt
    show c.val = 0
    omega

theorem rowGather_row_start (idx : IVec ⟨2, ![T, 1]⟩ w) (t : Fin T) (j : Fin C) :
    (rowGatherDims N T C wf).start (ix2 t j) idx 0 = min (idx (ix2 t (0 : Fin 1))).toInt.toNat (N - 1) := by
  unfold GatherDims.start
  rw [dif_pos (show (0 : Fin 2) ∈ (rowGatherDims N T C wf).startIndexMap from List.mem_singleton.mpr rfl),
    rowGather_siIdx]
  rfl

theorem rowGather_row_off (t : Fin T) (j : Fin C) : (rowGatherDims N T C wf).offCoord (ix2 t j) 0 = 0 :=
  GatherDims.offCoord_eq_zero _ _ _ (fun h => ((GatherDims.mem_sKept _ _).mp h).1 (List.mem_singleton.mpr rfl))

theorem rowGather_col_start (idx : IVec ⟨2, ![T, 1]⟩ w) (t : Fin T) (j : Fin C) :
    (rowGatherDims N T C wf).start (ix2 t j) idx 1 = 0 := by
  unfold GatherDims.start
  rw [dif_neg]
  intro h
  exact absurd (congrArg Fin.val (List.mem_singleton.mp h)) Nat.one_ne_zero

theorem rowGather_col_off (t : Fin T) (j : Fin C) :
    (rowGatherDims N T C wf).offCoord (ix2 t j) 1 = j.val := rfl

end Gather

theorem rowGather_apply {α : Type} {N T C w : Nat} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (t : Fin T) (j : Fin C) :
    Host.gather (rowGatherDims N T C wf) x idx (ix2 t j)
      = x (ix2 (⟨min (idx (ix2 t (0 : Fin 1))).toInt.toNat (N - 1), by omega⟩ : Fin N) j) := by
  have hb : ∀ a, (rowGatherDims N T C wf).batchCoord (ix2 t j) a = 0 :=
    fun a => GatherDims.batchCoord_eq_zero _ _ a List.not_mem_nil
  unfold Host.gather
  congr 1
  funext a
  refine Fin.ext ?_
  match a with
  | ⟨0, _⟩ =>
    show (rowGatherDims N T C wf).start (ix2 t j) idx 0 + (rowGatherDims N T C wf).batchCoord (ix2 t j) 0
        + (rowGatherDims N T C wf).offCoord (ix2 t j) 0 = min (idx (ix2 t (0 : Fin 1))).toInt.toNat (N - 1)
    rw [hb, rowGather_row_off, rowGather_row_start]
    rfl
  | ⟨1, _⟩ =>
    show (rowGatherDims N T C wf).start (ix2 t j) idx 1 + (rowGatherDims N T C wf).batchCoord (ix2 t j) 1
        + (rowGatherDims N T C wf).offCoord (ix2 t j) 1 = j.val
    rw [hb, rowGather_col_off, rowGather_col_start]
    omega

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some.injEq]
    constructor
    · intro he a
      have h1 := hin a
      have h2 : (d.start j idx a + (d.window j a : Int)).toNat = (i a).val := by rw [← he]
      omega
    · intro hall
      funext a
      refine Fin.ext ?_
      have h1 := hall a
      show (d.start j idx a + (d.window j a : Int)).toNat = (i a).val
      omega
  · rename_i hout
    constructor
    · intro he
      cases he
    · intro hall
      refine absurd (fun a => ?_) hout
      have h1 := hall a
      have h2 := (i a).isLt
      omega

abbrev rowScatterDims (N T H : Nat)
    (wf : ScatterDims.WF ⟨2, ![N, H]⟩ ⟨2, ![T, 1]⟩ ⟨2, ![T, H]⟩ [1] [0] [0] 1) :
    ScatterDims ⟨2, ![N, H]⟩ ⟨2, ![T, 1]⟩ ⟨2, ![T, H]⟩ where
  updateWindowDims := [1]
  insertedWindowDims := [0]
  scatterDimsToOperandDims := [0]
  indexVectorDim := 1
  wf := wf

section RowScatter
variable {N T H w : Nat} (wf : ScatterDims.WF ⟨2, ![N, H]⟩ ⟨2, ![T, 1]⟩ ⟨2, ![T, H]⟩ [1] [0] [0] 1)

theorem rowScatter_siIdx (t : Fin T) (k : Fin H) (c : Fin (rowScatterDims N T H wf).scatterDimsToOperandDims.length) :
    (rowScatterDims N T H wf).siIdx (ix2 t k) c = ix2 t (0 : Fin 1) := by
  funext b
  refine Fin.ext ?_
  match b with
  | ⟨0, _⟩ => rfl
  | ⟨1, _⟩ =>
    have hc : c.val < 1 := c.isLt
    show c.val = 0
    omega

theorem rowScatter_row_start (idx : IVec ⟨2, ![T, 1]⟩ w) (t : Fin T) (k : Fin H) :
    (rowScatterDims N T H wf).start (ix2 t k) idx 0 = (idx (ix2 t (0 : Fin 1))).toInt := by
  unfold ScatterDims.start
  rw [dif_pos (show (0 : Fin 2) ∈ (rowScatterDims N T H wf).scatterDimsToOperandDims from List.mem_singleton.mpr rfl),
    rowScatter_siIdx]

theorem rowScatter_row_window (t : Fin T) (k : Fin H) : (rowScatterDims N T H wf).window (ix2 t k) 0 = 0 := rfl

theorem rowScatter_col_start (idx : IVec ⟨2, ![T, 1]⟩ w) (t : Fin T) (k : Fin H) :
    (rowScatterDims N T H wf).start (ix2 t k) idx 1 = 0 := by
  unfold ScatterDims.start
  rw [dif_neg]
  intro h
  exact absurd (congrArg Fin.val (List.mem_singleton.mp h)) Nat.one_ne_zero

theorem rowScatter_col_window (t : Fin T) (k : Fin H) : (rowScatterDims N T H wf).window (ix2 t k) 1 = k.val := rfl

theorem rowScatter_lands_iff (idx : IVec ⟨2, ![T, 1]⟩ w) (t : Fin T) (k : Fin H) (n : Fin N) (h : Fin H) :
    (rowScatterDims N T H wf).resultIdx? (ix2 t k) idx = some (ix2 n h)
      ↔ (idx (ix2 t (0 : Fin 1))).toInt = (n.val : Int) ∧ k = h := by
  rw [resultIdx?_eq_some_iff]
  constructor
  · intro hall
    have h0 := hall 0
    have h1 := hall 1
    rw [rowScatter_row_start, rowScatter_row_window] at h0
    rw [rowScatter_col_start, rowScatter_col_window] at h1
    have h0' : (idx (ix2 t (0 : Fin 1))).toInt + ((0 : Nat) : Int) = (n.val : Int) := h0
    have h1' : (0 : Int) + (k.val : Int) = (h.val : Int) := h1
    exact ⟨by omega, Fin.ext (by omega)⟩
  · rintro ⟨h0, rfl⟩ a
    match a with
    | ⟨0, _⟩ =>
      show (rowScatterDims N T H wf).start (ix2 t k) idx 0 + (((rowScatterDims N T H wf).window (ix2 t k) 0 : Nat) : Int)
        = (n.val : Int)
      rw [rowScatter_row_start, rowScatter_row_window]
      omega
    | ⟨1, _⟩ =>
      show (rowScatterDims N T H wf).start (ix2 t k) idx 1 + (((rowScatterDims N T H wf).window (ix2 t k) 1 : Nat) : Int)
        = (k.val : Int)
      rw [rowScatter_col_start, rowScatter_col_window]
      omega

end RowScatter

theorem rowScatterAdd_apply {N T H w : Nat}
    (wf : ScatterDims.WF ⟨2, ![N, H]⟩ ⟨2, ![T, 1]⟩ ⟨2, ![T, H]⟩ [1] [0] [0] 1)
    (x : (⟨2, ![N, H]⟩ : Shape).Idx → EReal) (idx : IVec ⟨2, ![T, 1]⟩ w) (upd : (⟨2, ![T, H]⟩ : Shape).Idx → EReal)
    (n : Fin N) (h : Fin H) :
    Ideal.hostScatterAdd (rowScatterDims N T H wf) x idx upd (ix2 n h)
      = x (ix2 n h) + ∑ t ∈ Finset.univ.filter (fun t : Fin T => (idx (ix2 t (0 : Fin 1))).toInt = (n.val : Int)), upd (ix2 t h) := by
  unfold Ideal.hostScatterAdd
  congr 1
  refine Finset.sum_nbij' (fun y => (y 0 : Fin T)) (fun t => ix2 t h) ?_ ?_ ?_ ?_ ?_
  · intro y hy
    obtain ⟨t, k, rfl⟩ : ∃ t k, y = ix2 t k := ⟨y 0, y 1, eq_ix2 y⟩
    exact Finset.mem_filter.mpr
      ⟨Finset.mem_univ _, ((rowScatter_lands_iff wf idx t k n h).mp (Finset.mem_filter.mp hy).2).1⟩
  · intro t ht
    exact Finset.mem_filter.mpr
      ⟨Finset.mem_univ _, (rowScatter_lands_iff wf idx t h n h).mpr ⟨(Finset.mem_filter.mp ht).2, rfl⟩⟩
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl
  · intro t _
    rfl
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl

abbrev vecScatterDims (N T : Nat)
    (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section VecScatter
variable {N T w : Nat} (wf : ScatterDims.WF ⟨1, ![N]⟩ ⟨2, ![T, 1]⟩ ⟨1, ![T]⟩ [] [0] [0] 1)

theorem vecScatter_siIdx (t : Fin T) (c : Fin (vecScatterDims N T wf).scatterDimsToOperandDims.length) :
    (vecScatterDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

theorem vecScatter_start (idx : IVec ⟨2, ![T, 1]⟩ w) (t : Fin T) :
    (vecScatterDims N T wf).start (ix1 t) idx 0 = (idx (ix2 t (0 : Fin 1))).toInt := by
  unfold ScatterDims.start
  rw [dif_pos (show (0 : Fin 1) ∈ (vecScatterDims N T wf).scatterDimsToOperandDims from List.mem_singleton.mpr rfl),
    vecScatter_siIdx]

theorem vecScatter_window (t : Fin T) : (vecScatterDims N T wf).window (ix1 t) 0 = 0 := rfl

theorem vecScatter_lands_iff (idx : IVec ⟨2, ![T, 1]⟩ w) (t : Fin T) (n : Fin N) :
    (vecScatterDims N T wf).resultIdx? (ix1 t) idx = some (ix1 n) ↔ (idx (ix2 t (0 : Fin 1))).toInt = (n.val : Int) := by
  rw [resultIdx?_eq_some_iff]
  constructor
  · intro hall
    have h0 := hall 0
    rw [vecScatter_start, vecScatter_window] at h0
    have h0' : (idx (ix2 t (0 : Fin 1))).toInt + ((0 : Nat) : Int) = (n.val : Int) := h0
    omega
  · intro h0 a
    match a with
    | ⟨0, _⟩ =>
      show (vecScatterDims N T wf).start (ix1 t) idx 0 + (((vecScatterDims N T wf).window (ix1 t) 0 : Nat) : Int)
        = (n.val : Int)
      rw [vecScatter_start, vecScatter_window]
      omega

end VecScatter

end Cert.LibIndex

end
-- ==== Proof.Val.HostSmall.lean ====
import proofs.«425171_j32186484916934_3_alg».proof.Proof.Gen.KernelIdeal.Launch
import proofs.«425171_j32186484916934_3_alg».proof.Proof.LibSlice
import proofs.«425171_j32186484916934_3_alg».proof.Proof.LibIndex
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem

variable (Vp : Valuation τ sig (Elt Ideal))

theorem h0_v4 (r : Fin 50000) :
    (StableHlo.after (hostOps0 (F := Ideal)) Vp (Proc.devRef .tc main_v4) : S50000x1.Idx → BitVec 32) (ix2 r (0 : Fin 1))
      = (Vp (Proc.devRef .tc main_arg0) : S50000.Idx → BitVec 32) (ix1 r) := by
  have e : (StableHlo.after (hostOps0 (F := Ideal)) Vp (Proc.devRef .tc main_v4) : S50000x1.Idx → BitVec 32)
      = shapeCast S50000x1 (Vp (Proc.devRef .tc main_arg0) : S50000.Idx → BitVec 32) shapeCasts_S50000_S50000x1 := by
    show StableHlo.after hostOps0 Vp (Proc.devRef .tc main_v4) = _
    after_results <;> rfl
  rw [e]
  exact Cert.LibSlice.col_of_vec_apply _ _ r

theorem h0_v5 (r : Fin 50000) :
    (StableHlo.after (hostOps0 (F := Ideal)) Vp (Proc.devRef .tc main_v5) : S50000x1.Idx → BitVec 32) (ix2 r (0 : Fin 1))
      = (Vp (Proc.devRef .tc main_arg3) : S50000.Idx → BitVec 32) (ix1 r) := by
  have e : (StableHlo.after (hostOps0 (F := Ideal)) Vp (Proc.devRef .tc main_v5) : S50000x1.Idx → BitVec 32)
      = shapeCast S50000x1 (Vp (Proc.devRef .tc main_arg3) : S50000.Idx → BitVec 32) shapeCasts_S50000_S50000x1 := by
    show StableHlo.after hostOps0 Vp (Proc.devRef .tc main_v5) = _
    after_results <;> rfl
  rw [e]
  exact Cert.LibSlice.col_of_vec_apply _ _ r

theorem h0_c :
    (StableHlo.after (hostOps0 (F := Ideal)) Vp (Proc.devRef .tc main_c) : S_.Idx → BitVec 32) = constantI S_ 32 0#32 := by
  show StableHlo.after hostOps0 Vp (Proc.devRef .tc main_c) = _
  after_results <;> rfl

theorem h01_v6 (hc : (Vp (Proc.devRef .tc main_c) : S_.Idx → BitVec 32) = constantI S_ 32 0#32) (k j : Fin 128) :
    (StableHlo.after (hostOps0_1 (F := Ideal)) Vp (Proc.devRef .tc main_v6) : S128x128.Idx → EReal) (ix2 k j)
      = if h : k.val < 100 then ((Vp (Proc.devRef .tc main_arg4) : S100x128.Idx → EReal) (ix2 ⟨k.val, h⟩ j) : EReal) else (0 : EReal) := by
  have e : (StableHlo.after (hostOps0_1 (F := Ideal)) Vp (Proc.devRef .tc main_v6) : S128x128.Idx → EReal)
      = pad S128x128 ![0, 0] ![28, 0] ![0, 0] (Vp (Proc.devRef .tc main_arg4) : S100x128.Idx → EReal)
          (sitofp (F := Ideal) .f32 (Vp (Proc.devRef .tc main_c) : S_.Idx → BitVec 32)) pads_S100x128_S128x128_0280_000 h_S_ := by
    show StableHlo.after hostOps0_1 Vp (Proc.devRef .tc main_v6) = _
    after_results <;> rfl
  rw [e, hc]
  by_cases h : k.val < 100
  · rw [dif_pos h]
    refine pad_apply_of_inside _ _ _ _ _ _ _ (ix2 k j) (ix2 ⟨k.val, h⟩ j) (fun a => ?_)
    match a with
    | ⟨0, _⟩ => show k.val = 0 + k.val * (0 + 1); omega
    | ⟨1, _⟩ => show j.val = 0 + j.val * (0 + 1); omega
  · rw [dif_neg h]
    refine (pad_apply_of_not_inside _ _ _ _ _ _ _ (ix2 k j) (0 : Fin 2) (fun hin => h ?_)).trans ?_
    · have h2 : (k.val - 0) / (0 + 1) < 100 := hin.2.2
      omega
    · exact sitofp_zero (φ := .f32)

theorem h02_v7 :
    (StableHlo.after (hostOps0_2 (F := Ideal)) Vp (Proc.devRef .tc main_v7) : S128x128.Idx → EReal)
      = (Vp (Proc.devRef .tc main_v6) : S128x128.Idx → EReal) := by
  have e : (StableHlo.after (hostOps0_2 (F := Ideal)) Vp (Proc.devRef .tc main_v7) : S128x128.Idx → EReal)
      = truncf (F := Ideal) (s := S128x128) (φ := .f32) .bf16 (Vp (Proc.devRef .tc main_v6)) bitsLt_bf16_f32 := by
    show StableHlo.after hostOps0_2 Vp (Proc.devRef .tc main_v7) = _
    after_results <;> rfl
  rw [e]
  exact Cert.LibSlice.truncf_ideal _ _

theorem h6_v131 :
    (StableHlo.after (hostOps6 (F := Ideal)) Vp (Proc.devRef .tc main_v131) : S128x1.Idx → EReal)
      = (Vp (Proc.devRef .tc main_arg10) : S128x1.Idx → EReal) := by
  have e : (StableHlo.after (hostOps6 (F := Ideal)) Vp (Proc.devRef .tc main_v131) : S128x1.Idx → EReal)
      = truncf (F := Ideal) (s := S128x1) (φ := .f32) .bf16 (Vp (Proc.devRef .tc main_arg10)) bitsLt_bf16_f32 := by
    show StableHlo.after hostOps6 Vp (Proc.devRef .tc main_v131) = _
    after_results <;> rfl
  rw [e]
  exact Cert.LibSlice.truncf_ideal _ _

theorem h6_v132 :
    (StableHlo.after (hostOps6 (F := Ideal)) Vp (Proc.devRef .tc main_v132) : S1x1.Idx → EReal) (ix2 (0 : Fin 1) (0 : Fin 1))
      = (Vp (Proc.devRef .tc main_arg11) : S1.Idx → EReal) (ix1 (0 : Fin 1)) := by
  have e : (StableHlo.after (hostOps6 (F := Ideal)) Vp (Proc.devRef .tc main_v132) : S1x1.Idx → EReal)
      = shapeCast S1x1 (Vp (Proc.devRef .tc main_arg11) : S1.Idx → EReal) shapeCasts_S1_S1x1 := by
    show StableHlo.after hostOps6 Vp (Proc.devRef .tc main_v132) = _
    after_results <;> rfl
  rw [e]
  exact Cert.LibSlice.row_of_vec_apply _ _ (0 : Fin 1)

theorem h7_v134 (g : Fin 1024) :
    (StableHlo.after (hostOps7 (F := Ideal)) Vp (Proc.devRef .tc main_v134) : S1024.Idx → EReal) (ix1 g)
      = (Vp (Proc.devRef .tc main_v133) : S1024x1.Idx → EReal) (ix2 g (0 : Fin 1)) := by
  have e : (StableHlo.after (hostOps7 (F := Ideal)) Vp (Proc.devRef .tc main_v134) : S1024.Idx → EReal)
      = shapeCast S1024 (Vp (Proc.devRef .tc main_v133) : S1024x1.Idx → EReal) shapeCasts_S1024x1_S1024 := by
    show StableHlo.after hostOps7 Vp (Proc.devRef .tc main_v134) = _
    after_results <;> rfl
  rw [e]
  refine shapeCast_apply _ shapeCasts_S1024x1_S1024 (ix1 g) (ix2 g (0 : Fin 1)) ?_
  rw [Shape.rowMajor_val_two, Shape.rowMajor_val_one]
  show g.val * 1 + (0 : Nat) = g.val
  omega

end Cert.KernelIdeal.Val

end
-- ==== Proof.Val.HostGamma.lean ====
import proofs.«425171_j32186484916934_3_alg».proof.Proof.Gen.KernelIdeal.Launch
import proofs.«425171_j32186484916934_3_alg».proof.Proof.LibSlice
import proofs.«425171_j32186484916934_3_alg».proof.Proof.LibIndex
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem

variable (x0 : IVec S50000 32) (x5 : FVec Ideal S3x100x1 .f32)

def sigm (g : Ideal .f32) : Ideal .f32 :=
  FloatOps.hostDivf (FloatOps.ofBits .f32 0x3F800000#32)
    (FloatOps.addf (FloatOps.ofBits .f32 0x3F800000#32) (FloatOps.hostUnary .exp (FloatOps.hostNegf g)))

def wrapIdx : IVec S50000x1 32 :=
  broadcastInDim S50000x1 ![0] bcast_S50000_S50000x1_0
    (select (cmpi .slt x0 (broadcastInDim S50000 ![] bcast_S_S50000 (constantI S_ 32 0#32)))
      (addi x0 (broadcastInDim S50000 ![] bcast_S_S50000 (constantI S_ 32 100#32))) x0)

def atomRow (n : Fin 50000) : Fin 100 :=
  ⟨min (wrapIdx x0 (ix2 n (0 : Fin 1))).toInt.toNat (100 - 1), by omega⟩

def sigTable : FVec Ideal S100x3 .f32 :=
  transpose S100x3 [1, 0]
    (shapeCast S3x100
      (Host.divf (broadcastInDim S3x100x1 ![] bcast_S_S3x100x1 (constant (F := Ideal) S_ .f32 0x3F800000#32))
        (addf (broadcastInDim S3x100x1 ![] bcast_S_S3x100x1 (constant (F := Ideal) S_ .f32 0x3F800000#32))
          (Host.exp (Host.negf x5))))
      shapeCasts_S3x100x1_S3x100)
    transposes_S3x100_S100x3_1_0

def gamTable : FVec Ideal S50000x3 .f32 :=
  Host.gather gather_S100x3_S50000x1_S50000x3_1_0_n_n_0_1_13 (sigTable x5) (wrapIdx x0)

set_option maxHeartbeats 3200000 in
theorem h1_v23 (Vp : Valuation τ sig (Elt Ideal)) :
    (StableHlo.after (hostOps1 (F := Ideal)) Vp (Proc.devRef .tc main_v23) : S50000x3.Idx → EReal)
      = gamTable (Vp (Proc.devRef .tc main_arg0)) (Vp (Proc.devRef .tc main_arg5)) := by
  show StableHlo.after hostOps1 Vp (Proc.devRef .tc main_v23) = _
  after_results <;> rfl

theorem sigTable_apply (a : Fin 100) (l : Fin 3) : sigTable x5 (ix2 a l) = sigm (x5 (ix3 l a (0 : Fin 1))) := by
  unfold sigTable
  refine (transpose_apply [1, 0] _ transposes_S3x100_S100x3_1_0 (ix2 a l) (ix2 l a) (fun b => ?_)).trans ?_
  · match b with
    | ⟨0, _⟩ => rfl
    | ⟨1, _⟩ => rfl
  refine (shapeCast_apply _ shapeCasts_S3x100x1_S3x100 (ix2 l a) (ix3 l a (0 : Fin 1)) ?_).trans ?_
  · rw [Shape.rowMajor_val_three, Shape.rowMajor_val_two]
    show (l.val * 100 + a.val) * 1 + (0 : Nat) = l.val * 100 + a.val
    omega
  rfl

theorem gamTable_apply (n : Fin 50000) (l : Fin 3) :
    gamTable x0 x5 (ix2 n l) = sigm (x5 (ix3 l (atomRow x0 n) (0 : Fin 1))) := by
  unfold gamTable
  rw [show gather_S100x3_S50000x1_S50000x3_1_0_n_n_0_1_13
      = Cert.LibIndex.rowGatherDims 100 50000 3 Cert.KernelIdeal.Gen.gather_S100x3_S50000x1_S50000x3_1_0_n_n_0_1_13_wf from rfl,
    Cert.LibIndex.rowGather_apply (by decide)]
  exact sigTable_apply x5 _ l

theorem gamCol_apply (l : Fin 3) (hs : S50000x3.Slices ![0, l.val] S50000x1) (n : Fin 50000) :
    extractStridedSlice S50000x1 ![0, l.val] (gamTable x0 x5) hs (ix2 n (0 : Fin 1))
      = sigm (x5 (ix3 l (atomRow x0 n) (0 : Fin 1))) := by
  refine (extractStridedSlice_apply _ _ hs (ix2 n (0 : Fin 1)) (ix2 n l) (fun a => ?_)).trans (gamTable_apply x0 x5 n l)
  match a with
  | ⟨0, _⟩ => show n.val = 0 + n.val; omega
  | ⟨1, _⟩ => show l.val = l.val + 0; omega

theorem layerSig_apply (l : Fin 3) (hs : S3x100x1.Slices ![l.val, 0, 0] (⟨3, ![1, 100, 1]⟩ : Shape)) (hc : (⟨3, ![1, 100, 1]⟩ : Shape).ShapeCasts (⟨2, ![100, 1]⟩ : Shape))
    (hb : S_.BroadcastsInDim (⟨2, ![100, 1]⟩ : Shape) (![] : Fin 0 → Fin (⟨2, ![100, 1]⟩ : Shape).rank)) (a : Fin 100) :
    Host.divf (broadcastInDim (⟨2, ![100, 1]⟩ : Shape) ![] hb (constant (F := Ideal) S_ .f32 0x3F800000#32))
        (addf (broadcastInDim (⟨2, ![100, 1]⟩ : Shape) ![] hb (constant (F := Ideal) S_ .f32 0x3F800000#32))
          (Host.exp (Host.negf (shapeCast (⟨2, ![100, 1]⟩ : Shape) (extractStridedSlice (⟨3, ![1, 100, 1]⟩ : Shape) ![l.val, 0, 0] x5 hs) hc))))
        (ix2 a (0 : Fin 1))
      = sigm (x5 (ix3 l a (0 : Fin 1))) := by
  show sigm (shapeCast (⟨2, ![100, 1]⟩ : Shape) (extractStridedSlice (⟨3, ![1, 100, 1]⟩ : Shape) ![l.val, 0, 0] x5 hs) hc (ix2 a (0 : Fin 1))) = _
  rw [Cert.LibSlice.mat_slice_apply x5 l 0 (by omega) hs hc a (0 : Fin 1)]
  exact congrArg (fun r : Fin 100 => sigm (x5 (ix3 l r (0 : Fin 1)))) (Fin.ext (Nat.zero_add _))

theorem layerGather_apply
    (wf : GatherDims.WF ⟨2, ![100, 1]⟩ ⟨2, ![50000, 1]⟩ ⟨2, ![50000, 1]⟩ [1] [0] [] [0] [] 1 ![1, 1])
    (T : FVec Ideal (⟨2, ![100, 1]⟩ : Shape) .f32) (n : Fin 50000) :
    Host.gather (Cert.LibIndex.rowGatherDims 100 50000 1 wf) T (wrapIdx x0) (ix2 n (0 : Fin 1))
      = T (ix2 (atomRow x0 n) (0 : Fin 1)) :=
  Cert.LibIndex.rowGather_apply (by decide) wf T (wrapIdx x0) n (0 : Fin 1)

end Cert.KernelIdeal.Val

end
-- ==== Proof.Val.HostRead.lean ====
import proofs.«425171_j32186484916934_3_alg».proof.Proof.Gen.KernelIdeal.Launch
import proofs.«425171_j32186484916934_3_alg».proof.Proof.RefRead
import proofs.«425171_j32186484916934_3_alg».proof.Proof.Val.HostSmall
import proofs.«425171_j32186484916934_3_alg».proof.Proof.Val.HostGamma
import proofs.«425171_j32186484916934_3_alg».proof.Proof.LibSlice
import proofs.«425171_j32186484916934_3_alg».proof.Proof.LibIndex
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem

variable (Vp : Valuation τ sig (Elt Ideal))

theorem h0_v1 :
    (StableHlo.after (hostOps0 (F := Ideal)) Vp (Proc.devRef .tc main_v1) : S800000.Idx → BitVec 32)
      = Cert.ReferenceIdeal.Read.val_main_v1 (F := Ideal) (Vp (Proc.devRef .tc main_arg1)) := by
  show StableHlo.after hostOps0 Vp (Proc.devRef .tc main_v1) = _
  after_results <;> rfl

theorem h0_v3 :
    (StableHlo.after (hostOps0 (F := Ideal)) Vp (Proc.devRef .tc main_v3) : S800000.Idx → BitVec 32)
      = Cert.ReferenceIdeal.Read.val_main_v3 (F := Ideal) (Vp (Proc.devRef .tc main_arg1)) := by
  show StableHlo.after hostOps0 Vp (Proc.devRef .tc main_v3) = _
  after_results <;> rfl

set_option maxHeartbeats 3200000 in
theorem h1_v26 :
    (StableHlo.after (hostOps1 (F := Ideal)) Vp (Proc.devRef .tc main_v26) : S128x128.Idx → EReal)
      = Cert.ReferenceIdeal.Read.val_main_v12 (F := Ideal) (Vp (Proc.devRef .tc main_arg6)) := by
  show StableHlo.after hostOps1 Vp (Proc.devRef .tc main_v26) = _
  after_results <;> rfl

set_option maxHeartbeats 3200000 in
theorem h1_v29 (j : Fin 128) :
    (StableHlo.after (hostOps1 (F := Ideal)) Vp (Proc.devRef .tc main_v29) : S1x128.Idx → EReal) (ix2 (0 : Fin 1) j)
      = Cert.ReferenceIdeal.Read.val_main_v15 (F := Ideal) (Vp (Proc.devRef .tc main_arg7)) (ix1 j) := by
  have e : (StableHlo.after (hostOps1 (F := Ideal)) Vp (Proc.devRef .tc main_v29) : S1x128.Idx → EReal)
      = shapeCast S1x128 (Cert.ReferenceIdeal.Read.val_main_v15 (F := Ideal) (Vp (Proc.devRef .tc main_arg7)))
          shapeCasts_S128_S1x128 := by
    show StableHlo.after hostOps1 Vp (Proc.devRef .tc main_v29) = _
    after_results <;> rfl
  rw [e]
  exact Cert.LibSlice.row_of_vec_apply _ _ j

theorem h5_v126 :
    (StableHlo.after (hostOps5 (F := Ideal)) Vp (Proc.devRef .tc main_v126) : S128x128.Idx → EReal)
      = Cert.ReferenceIdeal.Read.val_main_v180 (F := Ideal) (Vp (Proc.devRef .tc main_arg8)) := by
  show StableHlo.after hostOps5 Vp (Proc.devRef .tc main_v126) = _
  after_results <;> rfl

theorem h5_v129 (j : Fin 128) :
    (StableHlo.after (hostOps5 (F := Ideal)) Vp (Proc.devRef .tc main_v129) : S1x128.Idx → EReal) (ix2 (0 : Fin 1) j)
      = Cert.ReferenceIdeal.Read.val_main_v183 (F := Ideal) (Vp (Proc.devRef .tc main_arg9)) (ix1 j) := by
  have e : (StableHlo.after (hostOps5 (F := Ideal)) Vp (Proc.devRef .tc main_v129) : S1x128.Idx → EReal)
      = shapeCast S1x128 (Cert.ReferenceIdeal.Read.val_main_v183 (F := Ideal) (Vp (Proc.devRef .tc main_arg9)))
          shapeCasts_S128_S1x128 := by
    show StableHlo.after hostOps5 Vp (Proc.devRef .tc main_v129) = _
    after_results <;> rfl
  rw [e]
  exact Cert.LibSlice.row_of_vec_apply _ _ j

variable (x0 : IVec S50000 32) (x5 : FVec Ideal S3x100x1 .f32)

private theorem eq_col (i : S50000x1.Idx) : i = ix2 (i 0) (0 : Fin 1) := by
  have h : i 1 = (0 : Fin 1) := Fin.ext (by have h1 := idx2_lt1 i; show (i 1).val = 0; omega)
  exact (eq_ix2 i).trans (congrArg (ix2 (i 0)) h)

theorem gam_col0 :
    extractStridedSlice S50000x1 ![0, 0] (gamTable x0 x5) slices_S50000x3_S50000x1_0_0
      = Cert.ReferenceIdeal.Read.val_main_v34 (F := Ideal) x0 x5 := by
  funext i
  rw [eq_col i]
  refine (gamCol_apply x0 x5 (0 : Fin 3) slices_S50000x3_S50000x1_0_0 (i 0)).trans (Eq.symm ?_)
  refine (layerGather_apply x0 Cert.ReferenceIdeal.Gen.gather_S100x1_S50000x1_S50000x1_1_0_n_n_0_1_11_wf
    (Cert.ReferenceIdeal.Read.val_main_v27 (F := Ideal) x5) (i 0)).trans ?_
  exact layerSig_apply x5 (0 : Fin 3) Cert.ReferenceIdeal.Gen.slices_S3x100x1_S1x100x1_0_0_0
    Cert.ReferenceIdeal.Gen.shapeCasts_S1x100x1_S100x1 Cert.ReferenceIdeal.Gen.bcast_S_S100x1 _

theorem gam_col1 :
    extractStridedSlice S50000x1 ![0, 1] (gamTable x0 x5) slices_S50000x3_S50000x1_0_1
      = Cert.ReferenceIdeal.Read.val_main_v87 (F := Ideal) x0 x5 := by
  funext i
  rw [eq_col i]
  refine (gamCol_apply x0 x5 (1 : Fin 3) slices_S50000x3_S50000x1_0_1 (i 0)).trans (Eq.symm ?_)
  refine (layerGather_apply x0 Cert.ReferenceIdeal.Gen.gather_S100x1_S50000x1_S50000x1_1_0_n_n_0_1_11_wf
    (Cert.ReferenceIdeal.Read.val_main_v80 (F := Ideal) x5) (i 0)).trans ?_
  exact layerSig_apply x5 (1 : Fin 3) Cert.ReferenceIdeal.Gen.slices_S3x100x1_S1x100x1_1_0_0
    Cert.ReferenceIdeal.Gen.shapeCasts_S1x100x1_S100x1 Cert.ReferenceIdeal.Gen.bcast_S_S100x1 _

theorem gam_col2 :
    extractStridedSlice S50000x1 ![0, 2] (gamTable x0 x5) slices_S50000x3_S50000x1_0_2
      = Cert.ReferenceIdeal.Read.val_main_v140 (F := Ideal) x0 x5 := by
  funext i
  rw [eq_col i]
  refine (gamCol_apply x0 x5 (2 : Fin 3) slices_S50000x3_S50000x1_0_2 (i 0)).trans (Eq.symm ?_)
  refine (layerGather_apply x0 Cert.ReferenceIdeal.Gen.gather_S100x1_S50000x1_S50000x1_1_0_n_n_0_1_11_wf
    (Cert.ReferenceIdeal.Read.val_main_v133 (F := Ideal) x5) (i 0)).trans ?_
  exact layerSig_apply x5 (2 : Fin 3) Cert.ReferenceIdeal.Gen.slices_S3x100x1_S1x100x1_2_0_0
    Cert.ReferenceIdeal.Gen.shapeCasts_S1x100x1_S100x1 Cert.ReferenceIdeal.Gen.bcast_S_S100x1 _

end Cert.KernelIdeal.Val

end
-- ==== Proof.Stage.lean ====
import proofs.«425171_j32186484916934_3_alg».proof.Proof.Gen.ReferenceIdeal

noncomputable section

namespace Cert.Stage

open Cert.ReferenceIdeal Cert.ReferenceIdeal.Facts₀ Idealize.ShloMosaic

variable {F : FTy → Type} [FloatOps F]

def zeros : FVec F S50000x128 .f32 :=
  broadcastInDim S50000x128 ![] bcast_S_S50000x128 (constant S_ .f32 0x00000000#32)

def biasRows (b : FVec F S128 .f32) : FVec F S50000x128 .f32 :=
  broadcastInDim S50000x128 ![0, 1] bcast_S1x128_S50000x128_0_1 (broadcastInDim S1x128 ![1] bcast_S128_S1x128_1 b)

def linRelu (x : FVec F S50000x128 .f32) (w : FVec F S128x128 .f32) (b : FVec F S128 .f32) : FVec F S50000x128 .f32 :=
  maximumf (addf (Host.dotGeneral dot_S50000x128_S128x128_S50000x128_1_0_0_1_n_n none x w) (biasRows b)) zeros

def rowNorm (y : FVec F S50000x128 .f32) : FVec F S50000x1 .f32 :=
  maximumf
    (Host.sqrt (broadcastInDim S50000x1 ![0] bcast_S50000_S50000x1_0
      (Host.reduceAdd (mulf y y) (constant S_ .f32 0x00000000#32) reducesTo_S50000x128_S50000_d1 h_S_)))
    (broadcastInDim S50000x1 ![] bcast_S_S50000x1 (constant S_ .f32 0x2B8CBCCC#32))

def normalize (y : FVec F S50000x128 .f32) : FVec F S50000x128 .f32 :=
  Host.divf y (broadcastInDim S50000x128 ![0, 1] bcast_S50000x1_S50000x128_0_1 (rowNorm y))

def wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

def edge (h : FVec F S50000x128 .f32) (gamcol : FVec F S50000x1 .f32) (ea : FVec F S800000x1 .f32)
    (src dst : IVec S800000 32) : FVec F S50000x128 .f32 :=
  Host.scatterAdd scatter_S50000x128_S800000x1_S800000x128_1_0_0_1 zeros
    (broadcastInDim S800000x1 ![0] bcast_S800000_S800000x1_0 dst)
    (mulf
      (broadcastInDim S800000x128 ![0, 1] bcast_S800000x1_S800000x128_0_1
        (Host.exp (mulf (Host.negf (Host.gather gather_S50000x1_S800000x1_S800000x1_1_0_n_n_0_1_11 gamcol (wrapCol dst)))
          (mulf ea ea))))
      (Host.gather gather_S50000x128_S800000x1_S800000x128_1_0_n_n_0_1_1128 h (wrapCol src)))

def readout (x : FVec F S50000x128 .f32) (bid : IVec S50000 32) (wp : FVec F S128x1 .f32) (wb : FVec F S1 .f32) :
    FVec F S1024 .f32 :=
  shapeCast _
    (addf
      (Host.dotGeneral dot_S1024x128_S128x1_S1024x1_1_0_0_1_n_n none
        (Host.scatterAdd scatter_S1024x128_S50000x1_S50000x128_1_0_0_1
          (broadcastInDim S1024x128 ![] bcast_S_S1024x128 (constant S_ .f32 0x00000000#32))
          (broadcastInDim S50000x1 ![0] bcast_S50000_S50000x1_0 bid) x)
        wp)
      (broadcastInDim S1024x1 ![0, 1] bcast_S1x1_S1024x1_0_1 (broadcastInDim S1x1 ![1] bcast_S1_S1x1_1 wb)))
    shapeCasts_S1024x1_S1024

end Cert.Stage

end
-- ==== Proof.Val.HostEdge.lean ====
import proofs.«425171_j32186484916934_3_alg».proof.Proof.Gen.KernelIdeal.Launch
import proofs.«425171_j32186484916934_3_alg».proof.Proof.Stage
import proofs.«425171_j32186484916934_3_alg».proof.Proof.RefRead
import proofs.«425171_j32186484916934_3_alg».proof.Proof.LibSlice
import Idealize.ShloMosaic.Lib.StableHlo.Run
import Idealize.ShloMosaic.Lib.ValueIdx
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

section Generic
variable {F : FTy → Type} [FloatOps F]

theorem edge_hostOps2 (Vp : Valuation τ sig (Elt F)) :
    (StableHlo.after hostOps2 Vp (Proc.devRef .tc main_v54) : (⟨S50000x128, .f32⟩ : BufTy).Contents (Elt F))
      = Cert.Stage.edge (F := F) (Vp (Proc.devRef .tc main_v30))
          (extractStridedSlice S50000x1 ![0, 0] (Vp (Proc.devRef .tc main_v23)) slices_S50000x3_S50000x1_0_0)
          (Vp (Proc.devRef .tc main_arg2)) (Vp (Proc.devRef .tc main_v1)) (Vp (Proc.devRef .tc main_v3)) := by
  show StableHlo.after hostOps2 Vp (Proc.devRef .tc main_v54) = _
  after_results_simp
  rfl

theorem weight_hostOps2 (Vp : Valuation τ sig (Elt F)) :
    (StableHlo.after hostOps2 Vp (Proc.devRef .tc main_v57) : (⟨S128x128, .bf16⟩ : BufTy).Contents (Elt F))
      = truncf .bf16 (shapeCast S128x128
          (extractStridedSlice S1x128x128 ![1, 0, 0] (Vp (Proc.devRef .tc main_arg6)) slices_S3x128x128_S1x128x128_1_0_0)
          shapeCasts_S1x128x128_S128x128) bitsLt_bf16_f32 := by
  show StableHlo.after hostOps2 Vp (Proc.devRef .tc main_v57) = _
  after_results_simp
  rfl

theorem bias_hostOps2 (Vp : Valuation τ sig (Elt F)) :
    (StableHlo.after hostOps2 Vp (Proc.devRef .tc main_v60) : (⟨S1x128, .f32⟩ : BufTy).Contents (Elt F))
      = shapeCast S1x128 (shapeCast S128
          (extractStridedSlice S1x128 ![1, 0] (Vp (Proc.devRef .tc main_arg7)) slices_S3x128_S1x128_1_0)
          shapeCasts_S1x128_S128) shapeCasts_S128_S1x128 := by
  show StableHlo.after hostOps2 Vp (Proc.devRef .tc main_v60) = _
  after_results_simp
  rfl

theorem edge_hostOps3 (Vp : Valuation τ sig (Elt F)) :
    (StableHlo.after hostOps3 Vp (Proc.devRef .tc main_v85) : (⟨S50000x128, .f32⟩ : BufTy).Contents (Elt F))
      = Cert.Stage.edge (F := F) (Vp (Proc.devRef .tc main_v61_1))
          (extractStridedSlice S50000x1 ![0, 1] (Vp (Proc.devRef .tc main_v23)) slices_S50000x3_S50000x1_0_1)
          (Vp (Proc.devRef .tc main_arg2)) (Vp (Proc.devRef .tc main_v1)) (Vp (Proc.devRef .tc main_v3)) := by
  show StableHlo.after hostOps3 Vp (Proc.devRef .tc main_v85) = _
  after_results_simp
  rfl

theorem weight_hostOps3 (Vp : Valuation τ sig (Elt F)) :
    (StableHlo.after hostOps3 Vp (Proc.devRef .tc main_v88) : (⟨S128x128, .bf16⟩ : BufTy).Contents (Elt F))
      = truncf .bf16 (shapeCast S128x128
          (extractStridedSlice S1x128x128 ![2, 0, 0] (Vp (Proc.devRef .tc main_arg6)) slices_S3x128x128_S1x128x128_2_0_0)
          shapeCasts_S1x128x128_S128x128) bitsLt_bf16_f32 := by
  show StableHlo.after hostOps3 Vp (Proc.devRef .tc main_v88) = _
  after_results_simp
  rfl

theorem bias_hostOps3 (Vp : Valuation τ sig (Elt F)) :
    (StableHlo.after hostOps3 Vp (Proc.devRef .tc main_v91) : (⟨S1x128, .f32⟩ : BufTy).Contents (Elt F))
      = shapeCast S1x128 (shapeCast S128
          (extractStridedSlice S1x128 ![2, 0] (Vp (Proc.devRef .tc main_arg7)) slices_S3x128_S1x128_2_0)
          shapeCasts_S1x128_S128) shapeCasts_S128_S1x128 := by
  show StableHlo.after hostOps3 Vp (Proc.devRef .tc main_v91) = _
  after_results_simp
  rfl

theorem edge_hostOps4 (Vp : Valuation τ sig (Elt F)) :
    (StableHlo.after hostOps4 Vp (Proc.devRef .tc main_v116) : (⟨S50000x128, .f32⟩ : BufTy).Contents (Elt F))
      = Cert.Stage.edge (F := F) (Vp (Proc.devRef .tc main_v92_1))
          (extractStridedSlice S50000x1 ![0, 2] (Vp (Proc.devRef .tc main_v23)) slices_S50000x3_S50000x1_0_2)
          (Vp (Proc.devRef .tc main_arg2)) (Vp (Proc.devRef .tc main_v1)) (Vp (Proc.devRef .tc main_v3)) := by
  show StableHlo.after hostOps4 Vp (Proc.devRef .tc main_v116) = _
  after_results_simp
  rfl

theorem weight_hostOps4 (Vp : Valuation τ sig (Elt F)) :
    (StableHlo.after hostOps4 Vp (Proc.devRef .tc main_v119) : (⟨S128x128, .bf16⟩ : BufTy).Contents (Elt F))
      = truncf .bf16 (shapeCast S128x128
          (extractStridedSlice S1x128x128 ![0, 0, 0] (Vp (Proc.devRef .tc main_arg8)) slices_S2x128x128_S1x128x128_0_0_0)
          shapeCasts_S1x128x128_S128x128) bitsLt_bf16_f32 := by
  show StableHlo.after hostOps4 Vp (Proc.devRef .tc main_v119) = _
  after_results_simp
  rfl

theorem bias_hostOps4 (Vp : Valuation τ sig (Elt F)) :
    (StableHlo.after hostOps4 Vp (Proc.devRef .tc main_v122) : (⟨S1x128, .f32⟩ : BufTy).Contents (Elt F))
      = shapeCast S1x128 (shapeCast S128
          (extractStridedSlice S1x128 ![0, 0] (Vp (Proc.devRef .tc main_arg9)) slices_S2x128_S1x128_0_0)
          shapeCasts_S1x128_S128) shapeCasts_S128_S1x128 := by
  show StableHlo.after hostOps4 Vp (Proc.devRef .tc main_v122) = _
  after_results_simp
  rfl

end Generic

theorem h2_v54 (Vp : Valuation τ sig (Elt Ideal)) :
    (StableHlo.after hostOps2 Vp (Proc.devRef .tc main_v54) : S50000x128.Idx → EReal)
      = Cert.Stage.edge (F := Ideal) (Vp (Proc.devRef .tc main_v30))
          (extractStridedSlice S50000x1 ![0, 0] (Vp (Proc.devRef .tc main_v23)) slices_S50000x3_S50000x1_0_0)
          (Vp (Proc.devRef .tc main_arg2)) (Vp (Proc.devRef .tc main_v1)) (Vp (Proc.devRef .tc main_v3)) :=
  edge_hostOps2 (F := Ideal) Vp

theorem h3_v85 (Vp : Valuation τ sig (Elt Ideal)) :
    (StableHlo.after hostOps3 Vp (Proc.devRef .tc main_v85) : S50000x128.Idx → EReal)
      = Cert.Stage.edge (F := Ideal) (Vp (Proc.devRef .tc main_v61_1))
          (extractStridedSlice S50000x1 ![0, 1] (Vp (Proc.devRef .tc main_v23)) slices_S50000x3_S50000x1_0_1)
          (Vp (Proc.devRef .tc main_arg2)) (Vp (Proc.devRef .tc main_v1)) (Vp (Proc.devRef .tc main_v3)) :=
  edge_hostOps3 (F := Ideal) Vp

theorem h4_v116 (Vp : Valuation τ sig (Elt Ideal)) :
    (StableHlo.after hostOps4 Vp (Proc.devRef .tc main_v116) : S50000x128.Idx → EReal)
      = Cert.Stage.edge (F := Ideal) (Vp (Proc.devRef .tc main_v92_1))
          (extractStridedSlice S50000x1 ![0, 2] (Vp (Proc.devRef .tc main_v23)) slices_S50000x3_S50000x1_0_2)
          (Vp (Proc.devRef .tc main_arg2)) (Vp (Proc.devRef .tc main_v1)) (Vp (Proc.devRef .tc main_v3)) :=
  edge_hostOps4 (F := Ideal) Vp

theorem h2_v57 (Vp : Valuation τ sig (Elt Ideal)) :
    (StableHlo.after hostOps2 Vp (Proc.devRef .tc main_v57) : S128x128.Idx → EReal)
      = Cert.ReferenceIdeal.Read.val_main_v65 (F := Ideal) (Vp (Proc.devRef .tc main_arg6)) :=
  (weight_hostOps2 (F := Ideal) Vp).trans (Cert.LibSlice.truncf_ideal _ _)

theorem h2_v60 (Vp : Valuation τ sig (Elt Ideal)) (j : Fin 128) :
    (StableHlo.after hostOps2 Vp (Proc.devRef .tc main_v60) : S1x128.Idx → EReal) (ix2 (0 : Fin 1) j)
      = Cert.ReferenceIdeal.Read.val_main_v68 (F := Ideal) (Vp (Proc.devRef .tc main_arg7)) (ix1 j) :=
  (congrFun (bias_hostOps2 (F := Ideal) Vp) (ix2 (0 : Fin 1) j)).trans (Cert.LibSlice.row_of_vec_apply _ _ j)

theorem h3_v88 (Vp : Valuation τ sig (Elt Ideal)) :
    (StableHlo.after hostOps3 Vp (Proc.devRef .tc main_v88) : S128x128.Idx → EReal)
      = Cert.ReferenceIdeal.Read.val_main_v118 (F := Ideal) (Vp (Proc.devRef .tc main_arg6)) :=
  (weight_hostOps3 (F := Ideal) Vp).trans (Cert.LibSlice.truncf_ideal _ _)

theorem h3_v91 (Vp : Valuation τ sig (Elt Ideal)) (j : Fin 128) :
    (StableHlo.after hostOps3 Vp (Proc.devRef .tc main_v91) : S1x128.Idx → EReal) (ix2 (0 : Fin 1) j)
      = Cert.ReferenceIdeal.Read.val_main_v121 (F := Ideal) (Vp (Proc.devRef .tc main_arg7)) (ix1 j) :=
  (congrFun (bias_hostOps3 (F := Ideal) Vp) (ix2 (0 : Fin 1) j)).trans (Cert.LibSlice.row_of_vec_apply _ _ j)

theorem h4_v119 (Vp : Valuation τ sig (Elt Ideal)) :
    (StableHlo.after hostOps4 Vp (Proc.devRef .tc main_v119) : S128x128.Idx → EReal)
      = Cert.ReferenceIdeal.Read.val_main_v171 (F := Ideal) (Vp (Proc.devRef .tc main_arg8)) :=
  (weight_hostOps4 (F := Ideal) Vp).trans (Cert.LibSlice.truncf_ideal _ _)

theorem h4_v122 (Vp : Valuation τ sig (Elt Ideal)) (j : Fin 128) :
    (StableHlo.after hostOps4 Vp (Proc.devRef .tc main_v122) : S1x128.Idx → EReal) (ix2 (0 : Fin 1) j)
      = Cert.ReferenceIdeal.Read.val_main_v174 (F := Ideal) (Vp (Proc.devRef .tc main_arg9)) (ix1 j) :=
  (congrFun (bias_hostOps4 (F := Ideal) Vp) (ix2 (0 : Fin 1) j)).trans (Cert.LibSlice.row_of_vec_apply _ _ j)

end Cert.KernelIdeal.Val

end
-- ==== Proof.Val.StageAt.lean ====
import proofs.«425171_j32186484916934_3_alg».proof.Proof.Stage
import proofs.«425171_j32186484916934_3_alg».proof.Proof.Fm
import proofs.«425171_j32186484916934_3_alg».proof.Proof.LibPlainDot
import proofs.«425171_j32186484916934_3_alg».proof.Proof.LibIndex
import Idealize.ShloMosaic.Lib.ValueIdx
import Idealize.ShloMosaic.Lib.Pipeline.Value
import Idealize.ShloMosaic.Lib.ValueLayout
import Idealize.ShloMosaic.PureOps.Ideal.Laws

noncomputable section

namespace Cert.Stage

open Cert.ReferenceIdeal Cert.ReferenceIdeal.Facts₀ Idealize.ShloMosaic Idealize.ShloMosaic.ValueIdx

theorem zeros_apply (i : S50000x128.Idx) : zeros (F := Ideal) i = 0 := by
  unfold zeros
  refine (broadcastInDim_apply _ bcast_S_S50000x128 _ i (fun a => a.elim0) (fun a => a.elim0)).trans ?_
  show Ideal.ofBits .f32 0x00000000#32 = 0
  exact Ideal.ofBits_zero_f32

theorem biasRows_apply (b : FVec Ideal S128 .f32) (r : Fin 50000) (j : Fin 128) :
    biasRows (F := Ideal) b (ix2 r j) = b (ix1 j) := by
  unfold biasRows
  refine (broadcastInDim_apply _ bcast_S1x128_S50000x128_0_1 _ (ix2 r j) (ix2 (0 : Fin 1) j) (fun a => match a with
    | ⟨0, _⟩ => by show (0 : Nat) = if (1 : Nat) = 1 then 0 else _; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

theorem linRelu_apply (x : FVec Ideal S50000x128 .f32) (w : FVec Ideal S128x128 .f32) (b : FVec Ideal S128 .f32)
    (r : Fin 50000) (j : Fin 128) :
    linRelu (F := Ideal) x w b (ix2 r j)
      = Cert.Fm.lin (fun r k => x (ix2 r k)) (fun k j => w (ix2 k j)) (fun j => b (ix1 j)) r j := by
  unfold linRelu Cert.Fm.lin
  rw [maximumf_apply, addf_apply, biasRows_apply, zeros_apply]
  refine congrArg (fun t => max (t + b (ix1 j)) 0) ?_
  exact Cert.LibPlainDot.dotGeneral_apply dot_S50000x128_S128x128_S50000x128_1_0_0_1_n_n_wf none .single x w r j

theorem sumSq_apply (y : FVec Ideal S50000x128 .f32) (r : Fin 50000) :
    Host.reduceAdd (mulf y y) (constant S_ .f32 0x00000000#32) reducesTo_S50000x128_S50000_d1 h_S_ (ix1 r)
      = ∑ k : Fin 128, y (ix2 r k) * y (ix2 r k) := by
  simp only [Host.reduceAdd, Ideal.hostReduceAdd_def]
  rw [Ideal.hostReduceAdd_single reducesTo_S50000x128_S50000_d1 (by decide)]
  show Ideal.ofBits .f32 0x00000000#32 + _ = _
  rw [Ideal.ofBits_zero_f32, zero_add]
  refine Finset.sum_congr rfl fun k _ => ?_
  exact congrArg (fun i => y i * y i) (funext fun a => Fin.ext (by match a with | ⟨0, _⟩ => rfl | ⟨1, _⟩ => rfl))

theorem hostSqrt_apply {s : Shape} {φ : FTy} (v : FVec Ideal s φ) (i : s.Idx) : Host.sqrt v i = Ideal.sqrt (v i) := rfl
theorem hostDivf_apply {s : Shape} {φ : FTy} (a b : FVec Ideal s φ) (i : s.Idx) :
    Host.divf a b i = Ideal.div (a i) (b i) := rfl

theorem rowNorm_apply (y : FVec Ideal S50000x128 .f32) (r : Fin 50000) :
    rowNorm (F := Ideal) y (ix2 r (0 : Fin 1)) = Cert.Fm.nrm (fun r k => y (ix2 r k)) r := by
  unfold rowNorm Cert.Fm.nrm Cert.Fm.eps
  rw [maximumf_apply, hostSqrt_apply]
  refine congrArg₂ max ?_ ?_
  · refine congrArg Ideal.sqrt ?_
    refine (broadcastInDim_apply _ bcast_S50000_S50000x1_0 _ (ix2 r (0 : Fin 1)) (ix1 r) (fun a => match a with
      | ⟨0, _⟩ => by show r.val = if (50000 : Nat) = 1 then 0 else r.val; rw [if_neg (by decide)])).trans ?_
    exact sumSq_apply y r
  · exact broadcastInDim_apply _ bcast_S_S50000x1 _ (ix2 r (0 : Fin 1)) (fun a => a.elim0) (fun a => a.elim0)

theorem normalize_apply (y : FVec Ideal S50000x128 .f32) (r : Fin 50000) (j : Fin 128) :
    normalize (F := Ideal) y (ix2 r j) = Cert.Fm.normd (fun r k => y (ix2 r k)) r j := by
  unfold normalize Cert.Fm.normd
  rw [hostDivf_apply]
  refine congrArg (Ideal.div (y (ix2 r j))) ?_
  refine (broadcastInDim_apply _ bcast_S50000x1_S50000x128_0_1 _ (ix2 r j) (ix2 r (0 : Fin 1)) (fun a => match a with
    | ⟨0, _⟩ => by show r.val = if (50000 : Nat) = 1 then 0 else r.val; rw [if_neg (by decide)]
    | ⟨1, _⟩ => by show (0 : Nat) = if (1 : Nat) = 1 then 0 else _; rw [if_pos rfl])).trans ?_
  exact rowNorm_apply y r

theorem idCol_apply (bid : IVec S50000 32) (n : Fin 50000) :
    broadcastInDim S50000x1 ![0] bcast_S50000_S50000x1_0 bid (ix2 n (0 : Fin 1)) = bid (ix1 n) :=
  broadcastInDim_apply _ bcast_S50000_S50000x1_0 bid (ix2 n (0 : Fin 1)) (ix1 n) (fun a => match a with
    | ⟨0, _⟩ => by show n.val = if (50000 : Nat) = 1 then 0 else n.val; rw [if_neg (by decide)])

theorem segSum_apply (x : FVec Ideal S50000x128 .f32) (bid : IVec S50000 32) (g : Fin 1024) (h : Fin 128) :
    Host.scatterAdd scatter_S1024x128_S50000x1_S50000x128_1_0_0_1
        (broadcastInDim S1024x128 ![] bcast_S_S1024x128 (constant (F := Ideal) S_ .f32 0x00000000#32))
        (broadcastInDim S50000x1 ![0] bcast_S50000_S50000x1_0 bid) x (ix2 g h)
      = Cert.Fm.seg (fun n h => x (ix2 n h)) (fun n => bid (ix1 n)) g h := by
  unfold Cert.Fm.seg
  refine (Cert.LibIndex.rowScatterAdd_apply scatter_S1024x128_S50000x1_S50000x128_1_0_0_1_wf _ _ x g h).trans ?_
  rw [broadcastInDim_apply _ bcast_S_S1024x128 _ (ix2 g h) (fun a => a.elim0) (fun a => a.elim0)]
  show Ideal.ofBits .f32 0x00000000#32 + _ = _
  rw [Ideal.ofBits_zero_f32, zero_add]
  refine Finset.sum_congr (Finset.filter_congr fun n _ => ?_) (fun _ _ => rfl)
  rw [idCol_apply]

theorem readout_apply (x : FVec Ideal S50000x128 .f32) (bid : IVec S50000 32) (wp : FVec Ideal S128x1 .f32)
    (wb : FVec Ideal S1 .f32) (g : Fin 1024) :
    readout (F := Ideal) x bid wp wb (ix1 g)
      = Cert.Fm.out (fun n h => x (ix2 n h)) (fun n => bid (ix1 n)) (fun h => wp (ix2 h (0 : Fin 1)))
          (wb (ix1 (0 : Fin 1))) g := by
  unfold readout Cert.Fm.out
  refine (shapeCast_apply _ shapeCasts_S1024x1_S1024 (ix1 g) (ix2 g (0 : Fin 1)) ?_).trans ?_
  · rw [Shape.rowMajor_val_two, Shape.rowMajor_val_one]
    show g.val * 1 + 0 = g.val
    omega
  rw [addf_apply]
  refine congrArg₂ (· + ·) ?_ ?_
  · refine (Cert.LibPlainDot.dotGeneral_apply dot_S1024x128_S128x1_S1024x1_1_0_0_1_n_n_wf none .single _ wp g
      (0 : Fin 1)).trans ?_
    refine Finset.sum_congr rfl fun h _ => ?_
    exact congrArg (· * wp (ix2 h (0 : Fin 1))) (segSum_apply x bid g h)
  · refine (broadcastInDim_apply _ bcast_S1x1_S1024x1_0_1 _ (ix2 g (0 : Fin 1)) (ix2 (0 : Fin 1) (0 : Fin 1))
      (fun a => match a with
      | ⟨0, _⟩ => by show (0 : Nat) = if (1 : Nat) = 1 then 0 else _; rw [if_pos rfl]
      | ⟨1, _⟩ => by show (0 : Nat) = if (1 : Nat) = 1 then 0 else _; rw [if_pos rfl])).trans ?_
    exact broadcastInDim_apply _ bcast_S1_S1x1_1 wb (ix2 (0 : Fin 1) (0 : Fin 1)) (ix1 (0 : Fin 1)) (fun a => match a with
      | ⟨0, _⟩ => by show (0 : Nat) = if (1 : Nat) = 1 then 0 else _; rw [if_pos rfl])

end Cert.Stage

end
-- ==== Proof.Val.EmbedRef.lean ====
import proofs.«425171_j32186484916934_3_alg».proof.Proof.RefRead
import proofs.«425171_j32186484916934_3_alg».proof.Proof.LibIndex

noncomputable section

namespace Cert.Stage

open Cert.ReferenceIdeal Cert.ReferenceIdeal.Facts₀ Cert.ReferenceIdeal.Read Idealize.ShloMosaic Idealize.ShloMosaic.ValueIdx

theorem toNat_eq_of_toInt (w : BitVec 32) (h0 : 0 ≤ w.toInt) (h1 : w.toInt < 100) :
    w.toNat < 100 ∧ w.toInt = (w.toNat : Int) := by
  have hc := BitVec.toInt_eq_toNat_cond w
  have hl := w.isLt
  by_cases h : 2 * w.toNat < 2 ^ 32
  · rw [if_pos h] at hc
    exact ⟨by omega, hc⟩
  · rw [if_neg h] at hc
    omega

theorem wrapped_index_apply (x0 : IVec S50000 32) (r : Fin 50000) (h0 : 0 ≤ (x0 (ix1 r)).toInt) :
    val_main_v9 (F := Ideal) x0 (ix2 r (0 : Fin 1)) = x0 (ix1 r) := by
  have e9 : idx_main_v9 (ix2 r (0 : Fin 1)) = ix1 r := funext fun a => Fin.ext (by match a with | ⟨0, _⟩ => rfl)
  rw [val_main_v9_apply, e9, val_main_v8_apply, val_main_v5_apply, val_main_v4_apply, val_main_c_apply]
  have hs : (x0 (ix1 r)).slt 0#32 = false := by
    apply Bool.eq_false_iff.mpr
    intro hs
    have hlt := BitVec.slt_iff_toInt_lt.mp hs
    rw [BitVec.toInt_zero] at hlt
    omega
  have hc : IntOp.cmpi .slt (x0 (ix1 r)) 0#32 = 0#1 := by
    show BitVec.ofBool ((x0 (ix1 r)).slt 0#32) = 0#1
    rw [hs]
    rfl
  rw [hc, select_zero]

theorem embed_apply (x0 : IVec S50000 32) (x4 : FVec Ideal S100x128 .f32) (r : Fin 50000) (j : Fin 128)
    (h0 : 0 ≤ (x0 (ix1 r)).toInt) (h1 : (x0 (ix1 r)).toInt < 100) :
    Cert.ReferenceIdeal.Read.val_main_v10 (F := Ideal) x0 x4 (ix2 r j)
      = x4 (ix2 ⟨(x0 (ix1 r)).toNat, (toNat_eq_of_toInt _ h0 h1).1⟩ j) := by
  obtain ⟨hn, hi⟩ := toNat_eq_of_toInt _ h0 h1
  unfold Cert.ReferenceIdeal.Read.val_main_v10
  refine (Cert.LibIndex.rowGather_apply (N := 100) (by decide) gather_S100x128_S50000x1_S50000x128_1_0_n_n_0_1_1128_wf
    x4 (val_main_v9 (F := Ideal) x0) r j).trans ?_
  refine congrArg x4 (funext fun a => Fin.ext ?_)
  match a with
  | ⟨0, _⟩ =>
    show min (val_main_v9 (F := Ideal) x0 (ix2 r (0 : Fin 1))).toInt.toNat (100 - 1) = (x0 (ix1 r)).toNat
    rw [wrapped_index_apply x0 r h0, hi]
    omega
  | ⟨1, _⟩ => rfl

end Cert.Stage

end
-- ==== Proof.Net.lean ====
import proofs.«425171_j32186484916934_3_alg».proof.Proof.RefRead
import proofs.«425171_j32186484916934_3_alg».proof.Proof.Stage

set_option maxRecDepth 16384

noncomputable section

namespace Cert.Net

open Cert.ReferenceIdeal Cert.ReferenceIdeal.Read Cert.Stage Idealize.ShloMosaic

variable {F : FTy → Type} [FloatOps F]
variable (x0 : IVec S50000 32) (x1 : IVec S2x800000 32) (x2 : FVec F S800000x1 .f32) (x3 : IVec S50000 32)
  (x4 : FVec F S100x128 .f32) (x5 : FVec F S3x100x1 .f32) (x6 : FVec F S3x128x128 .f32) (x7 : FVec F S3x128 .f32)
  (x8 : FVec F S2x128x128 .f32) (x9 : FVec F S2x128 .f32) (x10 : FVec F S128x1 .f32) (x11 : FVec F S1 .f32)

theorem H0_eq : (val_main_v19 (F := F) x0 x4 x6 x7) = linRelu (val_main_v10 (F := F) x0 x4) (val_main_v12 (F := F) x6) (val_main_v15 (F := F) x7) := rfl
theorem A0_eq : (val_main_v57 (F := F) x0 x1 x2 x4 x5 x6 x7) = edge (val_main_v19 (F := F) x0 x4 x6 x7) (val_main_v34 (F := F) x0 x5) x2 (val_main_v1 (F := F) x1) (val_main_v3 (F := F) x1) := rfl
theorem X1_eq : (val_main_v63 (F := F) x0 x1 x2 x4 x5 x6 x7) = normalize (addf (val_main_v57 (F := F) x0 x1 x2 x4 x5 x6 x7) (val_main_v10 (F := F) x0 x4)) := rfl
theorem H1_eq : (val_main_v72 (F := F) x0 x1 x2 x4 x5 x6 x7) = linRelu (val_main_v63 (F := F) x0 x1 x2 x4 x5 x6 x7) (val_main_v65 (F := F) x6) (val_main_v68 (F := F) x7) := rfl
theorem A1_eq : (val_main_v110 (F := F) x0 x1 x2 x4 x5 x6 x7) = edge (val_main_v72 (F := F) x0 x1 x2 x4 x5 x6 x7) (val_main_v87 (F := F) x0 x5) x2 (val_main_v1 (F := F) x1) (val_main_v3 (F := F) x1) := rfl
theorem X2_eq : (val_main_v116 (F := F) x0 x1 x2 x4 x5 x6 x7) = normalize (addf (val_main_v110 (F := F) x0 x1 x2 x4 x5 x6 x7) (val_main_v63 (F := F) x0 x1 x2 x4 x5 x6 x7)) := rfl
theorem H2_eq : (val_main_v125 (F := F) x0 x1 x2 x4 x5 x6 x7) = linRelu (val_main_v116 (F := F) x0 x1 x2 x4 x5 x6 x7) (val_main_v118 (F := F) x6) (val_main_v121 (F := F) x7) := rfl
theorem A2_eq : (val_main_v163 (F := F) x0 x1 x2 x4 x5 x6 x7) = edge (val_main_v125 (F := F) x0 x1 x2 x4 x5 x6 x7) (val_main_v140 (F := F) x0 x5) x2 (val_main_v1 (F := F) x1) (val_main_v3 (F := F) x1) := rfl
theorem X3_eq : (val_main_v169 (F := F) x0 x1 x2 x4 x5 x6 x7) = normalize (addf (val_main_v163 (F := F) x0 x1 x2 x4 x5 x6 x7) (val_main_v116 (F := F) x0 x1 x2 x4 x5 x6 x7)) := rfl
theorem H3_eq : (val_main_v178 (F := F) x0 x1 x2 x4 x5 x6 x7 x8 x9) = linRelu (val_main_v169 (F := F) x0 x1 x2 x4 x5 x6 x7) (val_main_v171 (F := F) x8) (val_main_v174 (F := F) x9) := rfl
theorem H4_eq : (val_main_v187 (F := F) x0 x1 x2 x4 x5 x6 x7 x8 x9) = linRelu (val_main_v178 (F := F) x0 x1 x2 x4 x5 x6 x7 x8 x9) (val_main_v180 (F := F) x8) (val_main_v183 (F := F) x9) := rfl
theorem out_eq : (val_main_v195 (F := F) x0 x1 x2 x3 x4 x5 x6 x7 x8 x9 x10 x11) = readout (val_main_v187 (F := F) x0 x1 x2 x4 x5 x6 x7 x8 x9) x3 x10 x11 := rfl

end Cert.Net

end
-- ==== Proof.Val.Chain.lean ====
import proofs.«425171_j32186484916934_3_alg».proof.Proof.Fr.Run
import proofs.«425171_j32186484916934_3_alg».proof.Proof.Val.Carry
import proofs.«425171_j32186484916934_3_alg».proof.Proof.Val.K0
import proofs.«425171_j32186484916934_3_alg».proof.Proof.Val.K1
import proofs.«425171_j32186484916934_3_alg».proof.Proof.Val.K2
import proofs.«425171_j32186484916934_3_alg».proof.Proof.Val.K3
import proofs.«425171_j32186484916934_3_alg».proof.Proof.Val.K4
import proofs.«425171_j32186484916934_3_alg».proof.Proof.Val.K5
import proofs.«425171_j32186484916934_3_alg».proof.Proof.Val.K6
import proofs.«425171_j32186484916934_3_alg».proof.Proof.Val.HostSmall
import proofs.«425171_j32186484916934_3_alg».proof.Proof.Val.HostGamma
import proofs.«425171_j32186484916934_3_alg».proof.Proof.Val.HostRead
import proofs.«425171_j32186484916934_3_alg».proof.Proof.Val.HostEdge
import proofs.«425171_j32186484916934_3_alg».proof.Proof.Val.StageAt
import proofs.«425171_j32186484916934_3_alg».proof.Proof.Val.EmbedRef
import proofs.«425171_j32186484916934_3_alg».proof.Proof.Net

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe

variable (m : (ℓ : Loc nD τ sig) → Buf (Elt Ideal) ℓ) (c : Dev nD)

abbrev x0 : S50000.Idx → BitVec 32 := Fr.W0 m c (Proc.devRef .tc main_arg0)
abbrev x1 : S2x800000.Idx → BitVec 32 := Fr.W0 m c (Proc.devRef .tc main_arg1)
abbrev x2 : S800000x1.Idx → EReal := Fr.W0 m c (Proc.devRef .tc main_arg2)
abbrev x3 : S50000.Idx → BitVec 32 := Fr.W0 m c (Proc.devRef .tc main_arg3)
abbrev x4 : S100x128.Idx → EReal := Fr.W0 m c (Proc.devRef .tc main_arg4)
abbrev x5 : S3x100x1.Idx → EReal := Fr.W0 m c (Proc.devRef .tc main_arg5)
abbrev x6 : S3x128x128.Idx → EReal := Fr.W0 m c (Proc.devRef .tc main_arg6)
abbrev x7 : S3x128.Idx → EReal := Fr.W0 m c (Proc.devRef .tc main_arg7)
abbrev x8 : S2x128x128.Idx → EReal := Fr.W0 m c (Proc.devRef .tc main_arg8)
abbrev x9 : S2x128.Idx → EReal := Fr.W0 m c (Proc.devRef .tc main_arg9)
abbrev x10 : S128x1.Idx → EReal := Fr.W0 m c (Proc.devRef .tc main_arg10)
abbrev x11 : S1.Idx → EReal := Fr.W0 m c (Proc.devRef .tc main_arg11)

theorem lin_ext {n : Nat} {x x' : Fin n → Fin 128 → EReal} {w w' : Fin 128 → Fin 128 → EReal} {b b' : Fin 128 → EReal}
    (hx : ∀ r k, x r k = x' r k) (hw : ∀ k j, w k j = w' k j) (hb : ∀ j, b j = b' j) (r : Fin n) (j : Fin 128) :
    Cert.Fm.lin x w b r j = Cert.Fm.lin x' w' b' r j := by
  obtain rfl : x = x' := funext fun r => funext (hx r)
  obtain rfl : w = w' := funext fun k => funext (hw k)
  obtain rfl : b = b' := funext hb
  rfl

theorem normd_ext {n : Nat} {y y' : Fin n → Fin 128 → EReal} (hy : ∀ r k, y r k = y' r k) (r : Fin n) (j : Fin 128) :
    Cert.Fm.normd y r j = Cert.Fm.normd y' r j := by
  obtain rfl : y = y' := funext fun r => funext (hy r)
  rfl

theorem out_ext {x x' : Fin 50000 → Fin 128 → EReal} {bid bid' : Fin 50000 → BitVec 32} {wp wp' : Fin 128 → EReal} {wb wb' : EReal}
    (hx : ∀ n h, x n h = x' n h) (hb : ∀ n, bid n = bid' n) (hw : ∀ h, wp h = wp' h) (hwb : wb = wb') (g : Fin 1024) :
    Cert.Fm.out x bid wp wb g = Cert.Fm.out x' bid' wp' wb' g := by
  obtain rfl : x = x' := funext fun n => funext (hx n)
  obtain rfl : bid = bid' := funext hb
  obtain rfl : wp = wp' := funext hw
  subst hwb
  rfl

theorem toNat_of_toInt_range (x : BitVec 32) (h0 : 0 ≤ x.toInt) (h1 : x.toInt < 100) : x.toNat < 100 := by
  have h := BitVec.toInt_eq_toNat_cond x
  have hlt := x.isLt
  split at h <;> omega

theorem C0 (hx : ∀ r : Fin 50000, 0 ≤ (x0 m c (ix1 r)).toInt ∧ (x0 m c (ix1 r)).toInt < 100) :
    (Fr.W4 m c (Proc.devRef .tc main_v8) : S50000x128.Idx → EReal) = (Cert.ReferenceIdeal.Read.val_main_v10 (F := Ideal) (x0 m c) (x4 m c)) := by
  funext i
  obtain ⟨r, j, rfl⟩ : ∃ (r : Fin 50000) (j : Fin 128), i = ix2 r j := ⟨i 0, i 1, eq_ix2 i⟩
  obtain ⟨h0, h1⟩ := hx r
  have hv4 : (Fr.U3 m c main_v4 : S50000x1.Idx → BitVec 32) (ix2 r (0 : Fin 1)) = x0 m c (ix1 r) :=
    (congrFun (carry_main_v4_1_3 m c) _).trans (h0_v4 (Fr.W0 m c) r)
  have hnat : (x0 m c (ix1 r)).toNat < 100 := toNat_of_toInt_range _ h0 h1
  have hk : ((Fr.U3 m c main_v4 : S50000x1.Idx → BitVec 32) (ix2 r (0 : Fin 1))).toNat = (x0 m c (ix1 r)).toNat :=
    congrArg BitVec.toNat hv4
  have hlt' : ((Fr.U3 m c main_v4 : S50000x1.Idx → BitVec 32) (ix2 r (0 : Fin 1))).toNat < 100 := by omega
  have hlt : ((Fr.U3 m c main_v4 : S50000x1.Idx → BitVec 32) (ix2 r (0 : Fin 1))).toNat < 128 := by omega
  refine ((congrFun (Fr.W4_arr m c 2) (ix2 r j)).trans (final0_2 (Fr.U3 m) c r j hlt)).trans ?_
  rw [Cert.Stage.embed_apply (x0 m c) (x4 m c) r j h0 h1]
  refine (congrFun (h02_v7 (Fr.W2 m c)) _).trans ?_
  refine (h01_v6 (Fr.W1 m c) (h0_c (Fr.W0 m c)) ⟨_, hlt⟩ j).trans ?_
  rw [dif_pos (show (⟨_, hlt⟩ : Fin 128).val < 100 from hlt')]
  refine (congrFun (carry_main_arg4_0_1 m c) _).trans ?_
  exact congrArg (fun k : Fin 100 => x4 m c (ix2 k j)) (Fin.ext hk)

theorem w0_eq : (Fr.U5 m c main_v26 : S128x128.Idx → EReal) = (Cert.ReferenceIdeal.Read.val_main_v12 (F := Ideal) (x6 m c)) :=
  (h1_v26 (Fr.W4 m c)).trans (congrArg _ (carry_main_arg6_0_4 m c))
theorem b0_eq (j : Fin 128) : (Fr.U5 m c main_v29 : S1x128.Idx → EReal) (ix2 (0 : Fin 1) j) = (Cert.ReferenceIdeal.Read.val_main_v15 (F := Ideal) (x7 m c)) (ix1 j) :=
  (h1_v29 (Fr.W4 m c) j).trans (congrFun (congrArg _ (carry_main_arg7_0_4 m c)) _)

theorem C1 (hx : ∀ r : Fin 50000, 0 ≤ (x0 m c (ix1 r)).toInt ∧ (x0 m c (ix1 r)).toInt < 100) :
    (Fr.W6 m c (Proc.devRef .tc main_v30) : S50000x128.Idx → EReal) = (Cert.ReferenceIdeal.Read.val_main_v19 (F := Ideal) (x0 m c) (x4 m c) (x6 m c) (x7 m c)) := by
  funext i
  obtain ⟨r, j, rfl⟩ : ∃ (r : Fin 50000) (j : Fin 128), i = ix2 r j := ⟨i 0, i 1, eq_ix2 i⟩
  refine ((congrFun (Fr.W6_arr m c 3) (ix2 r j)).trans (final1_3 (Fr.U5 m) c r j)).trans ?_
  rw [Cert.Net.H0_eq, Cert.Stage.linRelu_apply]
  refine lin_ext (fun r k => ?_) (fun k j => congrFun (w0_eq m c) (ix2 k j)) (fun j => b0_eq m c j) r j
  exact (congrFun (carry_main_v8_4_5 m c) (ix2 r k)).trans (congrFun (C0 m c hx) (ix2 r k))

theorem src_eq : (Fr.W1 m c (Proc.devRef .tc main_v1) : S800000.Idx → BitVec 32) = (Cert.ReferenceIdeal.Read.val_main_v1 (F := Ideal) (x1 m c)) := h0_v1 (Fr.W0 m c)
theorem dst_eq : (Fr.W1 m c (Proc.devRef .tc main_v3) : S800000.Idx → BitVec 32) = (Cert.ReferenceIdeal.Read.val_main_v3 (F := Ideal) (x1 m c)) := h0_v3 (Fr.W0 m c)

theorem gam_eq : (Fr.W5 m c (Proc.devRef .tc main_v23) : S50000x3.Idx → EReal) = gamTable (x0 m c) (x5 m c) := by
  refine (h1_v23 (Fr.W4 m c)).trans ?_
  rw [carry_main_arg0_0_4 m c, carry_main_arg5_0_4 m c]

theorem C2 (hx : ∀ r : Fin 50000, 0 ≤ (x0 m c (ix1 r)).toInt ∧ (x0 m c (ix1 r)).toInt < 100) :
    (Fr.W7 m c (Proc.devRef .tc main_v54) : S50000x128.Idx → EReal) = (Cert.ReferenceIdeal.Read.val_main_v57 (F := Ideal) (x0 m c) (x1 m c) (x2 m c) (x4 m c) (x5 m c) (x6 m c) (x7 m c)) := by
  refine (h2_v54 (Fr.W6 m c)).trans ?_
  rw [Cert.Net.A0_eq, C1 m c hx, carry_main_v23_5_6 m c, gam_eq m c, carry_main_arg2_0_6 m c, carry_main_v1_1_6 m c,
    carry_main_v3_1_6 m c, src_eq m c, dst_eq m c, gam_col0]

theorem Y1_at (hx : ∀ r : Fin 50000, 0 ≤ (x0 m c (ix1 r)).toInt ∧ (x0 m c (ix1 r)).toInt < 100) (r : Fin 50000) (k : Fin 128) :
    Norm.rowsAdd (n := 50000) (Fr.U7 m c main_v54) (Fr.U7 m c main_v8) r k
      = (Cert.ReferenceIdeal.Read.val_main_v57 (F := Ideal) (x0 m c) (x1 m c) (x2 m c) (x4 m c) (x5 m c) (x6 m c) (x7 m c)) (ix2 r k) + (Cert.ReferenceIdeal.Read.val_main_v10 (F := Ideal) (x0 m c) (x4 m c)) (ix2 r k) := by
  rw [Norm.rowsAdd_apply]
  exact congrArg₂ (fun a b : EReal => a + b) (congrFun (C2 m c hx) (ix2 r k)) ((congrFun (carry_main_v8_4_7 m c) (ix2 r k)).trans (congrFun (C0 m c hx) (ix2 r k)))

theorem C3a (hx : ∀ r : Fin 50000, 0 ≤ (x0 m c (ix1 r)).toInt ∧ (x0 m c (ix1 r)).toInt < 100) :
    (Fr.W8 m c (Proc.devRef .tc main_v61_0) : S50000x128.Idx → EReal) = (Cert.ReferenceIdeal.Read.val_main_v63 (F := Ideal) (x0 m c) (x1 m c) (x2 m c) (x4 m c) (x5 m c) (x6 m c) (x7 m c)) := by
  funext i
  obtain ⟨r, j, rfl⟩ : ∃ (r : Fin 50000) (j : Fin 128), i = ix2 r j := ⟨i 0, i 1, eq_ix2 i⟩
  refine ((congrFun (Fr.W8_arr m c 4) (ix2 r j)).trans (final2_4 (Fr.U7 m) c r j)).trans ?_
  rw [Cert.Net.X1_eq, Cert.Stage.normalize_apply]
  exact normd_ext (fun r k => (Y1_at m c hx r k).trans (ValueIdx.addf_apply _ _ _).symm) r j

theorem w1_eq : (Fr.U7 m c main_v57 : S128x128.Idx → EReal) = (Cert.ReferenceIdeal.Read.val_main_v65 (F := Ideal) (x6 m c)) :=
  (h2_v57 (Fr.W6 m c)).trans (congrArg _ (carry_main_arg6_0_6 m c))
theorem b1_eq (j : Fin 128) : (Fr.U7 m c main_v60 : S1x128.Idx → EReal) (ix2 (0 : Fin 1) j) = (Cert.ReferenceIdeal.Read.val_main_v68 (F := Ideal) (x7 m c)) (ix1 j) :=
  (h2_v60 (Fr.W6 m c) j).trans (congrFun (congrArg _ (carry_main_arg7_0_6 m c)) _)

theorem C3b (hx : ∀ r : Fin 50000, 0 ≤ (x0 m c (ix1 r)).toInt ∧ (x0 m c (ix1 r)).toInt < 100) :
    (Fr.W8 m c (Proc.devRef .tc main_v61_1) : S50000x128.Idx → EReal) = (Cert.ReferenceIdeal.Read.val_main_v72 (F := Ideal) (x0 m c) (x1 m c) (x2 m c) (x4 m c) (x5 m c) (x6 m c) (x7 m c)) := by
  funext i
  obtain ⟨r, j, rfl⟩ : ∃ (r : Fin 50000) (j : Fin 128), i = ix2 r j := ⟨i 0, i 1, eq_ix2 i⟩
  refine ((congrFun (Fr.W8_arr m c 5) (ix2 r j)).trans (final2_5 (Fr.U7 m) c r j)).trans ?_
  rw [Cert.Net.H1_eq, Cert.Stage.linRelu_apply]
  refine lin_ext (fun r k => ?_) (fun k j => congrFun (w1_eq m c) (ix2 k j)) (fun j => b1_eq m c j) r j
  exact ((final2_4 (Fr.U7 m) c r k).symm.trans (congrFun (Fr.W8_arr m c 4) (ix2 r k)).symm).trans (congrFun (C3a m c hx) (ix2 r k))

theorem C4 (hx : ∀ r : Fin 50000, 0 ≤ (x0 m c (ix1 r)).toInt ∧ (x0 m c (ix1 r)).toInt < 100) :
    (Fr.W9 m c (Proc.devRef .tc main_v85) : S50000x128.Idx → EReal) = (Cert.ReferenceIdeal.Read.val_main_v110 (F := Ideal) (x0 m c) (x1 m c) (x2 m c) (x4 m c) (x5 m c) (x6 m c) (x7 m c)) := by
  refine (h3_v85 (Fr.W8 m c)).trans ?_
  rw [Cert.Net.A1_eq, C3b m c hx, carry_main_v23_5_8 m c, gam_eq m c, carry_main_arg2_0_8 m c, carry_main_v1_1_8 m c,
    carry_main_v3_1_8 m c, src_eq m c, dst_eq m c, gam_col1]

theorem Y2_at (hx : ∀ r : Fin 50000, 0 ≤ (x0 m c (ix1 r)).toInt ∧ (x0 m c (ix1 r)).toInt < 100) (r : Fin 50000) (k : Fin 128) :
    Norm.rowsAdd (n := 50000) (Fr.U9 m c main_v85) (Fr.U9 m c main_v61_0) r k
      = (Cert.ReferenceIdeal.Read.val_main_v110 (F := Ideal) (x0 m c) (x1 m c) (x2 m c) (x4 m c) (x5 m c) (x6 m c) (x7 m c)) (ix2 r k) + (Cert.ReferenceIdeal.Read.val_main_v63 (F := Ideal) (x0 m c) (x1 m c) (x2 m c) (x4 m c) (x5 m c) (x6 m c) (x7 m c)) (ix2 r k) := by
  rw [Norm.rowsAdd_apply]
  exact congrArg₂ (fun a b : EReal => a + b) (congrFun (C4 m c hx) (ix2 r k)) ((congrFun (carry_main_v61_0_8_9 m c) (ix2 r k)).trans (congrFun (C3a m c hx) (ix2 r k)))

theorem C5a (hx : ∀ r : Fin 50000, 0 ≤ (x0 m c (ix1 r)).toInt ∧ (x0 m c (ix1 r)).toInt < 100) :
    (Fr.W10 m c (Proc.devRef .tc main_v92_0) : S50000x128.Idx → EReal) = (Cert.ReferenceIdeal.Read.val_main_v116 (F := Ideal) (x0 m c) (x1 m c) (x2 m c) (x4 m c) (x5 m c) (x6 m c) (x7 m c)) := by
  funext i
  obtain ⟨r, j, rfl⟩ : ∃ (r : Fin 50000) (j : Fin 128), i = ix2 r j := ⟨i 0, i 1, eq_ix2 i⟩
  refine ((congrFun (Fr.W10_arr m c 4) (ix2 r j)).trans (final3_4 (Fr.U9 m) c r j)).trans ?_
  rw [Cert.Net.X2_eq, Cert.Stage.normalize_apply]
  exact normd_ext (fun r k => (Y2_at m c hx r k).trans (ValueIdx.addf_apply _ _ _).symm) r j

theorem w2_eq : (Fr.U9 m c main_v88 : S128x128.Idx → EReal) = (Cert.ReferenceIdeal.Read.val_main_v118 (F := Ideal) (x6 m c)) :=
  (h3_v88 (Fr.W8 m c)).trans (congrArg _ (carry_main_arg6_0_8 m c))
theorem b2_eq (j : Fin 128) : (Fr.U9 m c main_v91 : S1x128.Idx → EReal) (ix2 (0 : Fin 1) j) = (Cert.ReferenceIdeal.Read.val_main_v121 (F := Ideal) (x7 m c)) (ix1 j) :=
  (h3_v91 (Fr.W8 m c) j).trans (congrFun (congrArg _ (carry_main_arg7_0_8 m c)) _)

theorem C5b (hx : ∀ r : Fin 50000, 0 ≤ (x0 m c (ix1 r)).toInt ∧ (x0 m c (ix1 r)).toInt < 100) :
    (Fr.W10 m c (Proc.devRef .tc main_v92_1) : S50000x128.Idx → EReal) = (Cert.ReferenceIdeal.Read.val_main_v125 (F := Ideal) (x0 m c) (x1 m c) (x2 m c) (x4 m c) (x5 m c) (x6 m c) (x7 m c)) := by
  funext i
  obtain ⟨r, j, rfl⟩ : ∃ (r : Fin 50000) (j : Fin 128), i = ix2 r j := ⟨i 0, i 1, eq_ix2 i⟩
  refine ((congrFun (Fr.W10_arr m c 5) (ix2 r j)).trans (final3_5 (Fr.U9 m) c r j)).trans ?_
  rw [Cert.Net.H2_eq, Cert.Stage.linRelu_apply]
  refine lin_ext (fun r k => ?_) (fun k j => congrFun (w2_eq m c) (ix2 k j)) (fun j => b2_eq m c j) r j
  exact ((final3_4 (Fr.U9 m) c r k).symm.trans (congrFun (Fr.W10_arr m c 4) (ix2 r k)).symm).trans (congrFun (C5a m c hx) (ix2 r k))

theorem C6 (hx : ∀ r : Fin 50000, 0 ≤ (x0 m c (ix1 r)).toInt ∧ (x0 m c (ix1 r)).toInt < 100) :
    (Fr.W11 m c (Proc.devRef .tc main_v116) : S50000x128.Idx → EReal) = (Cert.ReferenceIdeal.Read.val_main_v163 (F := Ideal) (x0 m c) (x1 m c) (x2 m c) (x4 m c) (x5 m c) (x6 m c) (x7 m c)) := by
  refine (h4_v116 (Fr.W10 m c)).trans ?_
  rw [Cert.Net.A2_eq, C5b m c hx, carry_main_v23_5_10 m c, gam_eq m c, carry_main_arg2_0_10 m c, carry_main_v1_1_10 m c,
    carry_main_v3_1_10 m c, src_eq m c, dst_eq m c, gam_col2]

theorem Y3_at (hx : ∀ r : Fin 50000, 0 ≤ (x0 m c (ix1 r)).toInt ∧ (x0 m c (ix1 r)).toInt < 100) (r : Fin 50000) (k : Fin 128) :
    Norm.rowsAdd (n := 50000) (Fr.U11 m c main_v116) (Fr.U11 m c main_v92_0) r k
      = (Cert.ReferenceIdeal.Read.val_main_v163 (F := Ideal) (x0 m c) (x1 m c) (x2 m c) (x4 m c) (x5 m c) (x6 m c) (x7 m c)) (ix2 r k) + (Cert.ReferenceIdeal.Read.val_main_v116 (F := Ideal) (x0 m c) (x1 m c) (x2 m c) (x4 m c) (x5 m c) (x6 m c) (x7 m c)) (ix2 r k) := by
  rw [Norm.rowsAdd_apply]
  exact congrArg₂ (fun a b : EReal => a + b) (congrFun (C6 m c hx) (ix2 r k)) ((congrFun (carry_main_v92_0_10_11 m c) (ix2 r k)).trans (congrFun (C5a m c hx) (ix2 r k)))

theorem w3_eq : (Fr.U11 m c main_v119 : S128x128.Idx → EReal) = (Cert.ReferenceIdeal.Read.val_main_v171 (F := Ideal) (x8 m c)) :=
  (h4_v119 (Fr.W10 m c)).trans (congrArg _ (carry_main_arg8_0_10 m c))
theorem b3_eq (j : Fin 128) : (Fr.U11 m c main_v122 : S1x128.Idx → EReal) (ix2 (0 : Fin 1) j) = (Cert.ReferenceIdeal.Read.val_main_v174 (F := Ideal) (x9 m c)) (ix1 j) :=
  (h4_v122 (Fr.W10 m c) j).trans (congrFun (congrArg _ (carry_main_arg9_0_10 m c)) _)

theorem C7 (hx : ∀ r : Fin 50000, 0 ≤ (x0 m c (ix1 r)).toInt ∧ (x0 m c (ix1 r)).toInt < 100) :
    (Fr.W12 m c (Proc.devRef .tc main_v123) : S50000x128.Idx → EReal) = (Cert.ReferenceIdeal.Read.val_main_v178 (F := Ideal) (x0 m c) (x1 m c) (x2 m c) (x4 m c) (x5 m c) (x6 m c) (x7 m c) (x8 m c) (x9 m c)) := by
  funext i
  obtain ⟨r, j, rfl⟩ : ∃ (r : Fin 50000) (j : Fin 128), i = ix2 r j := ⟨i 0, i 1, eq_ix2 i⟩
  refine ((congrFun (Fr.W12_arr m c 4) (ix2 r j)).trans (final4_4 (Fr.U11 m) c r j)).trans ?_
  rw [Cert.Net.H3_eq, Cert.Stage.linRelu_apply]
  refine lin_ext (fun r k => ?_) (fun k j => congrFun (w3_eq m c) (ix2 k j)) (fun j => b3_eq m c j) r j
  rw [Cert.Net.X3_eq, Cert.Stage.normalize_apply]
  exact normd_ext (fun r k => (Y3_at m c hx r k).trans (ValueIdx.addf_apply _ _ _).symm) r k

theorem w4_eq : (Fr.U13 m c main_v126 : S128x128.Idx → EReal) = (Cert.ReferenceIdeal.Read.val_main_v180 (F := Ideal) (x8 m c)) :=
  (h5_v126 (Fr.W12 m c)).trans (congrArg _ (carry_main_arg8_0_12 m c))
theorem b4_eq (j : Fin 128) : (Fr.U13 m c main_v129 : S1x128.Idx → EReal) (ix2 (0 : Fin 1) j) = (Cert.ReferenceIdeal.Read.val_main_v183 (F := Ideal) (x9 m c)) (ix1 j) :=
  (h5_v129 (Fr.W12 m c) j).trans (congrFun (congrArg _ (carry_main_arg9_0_12 m c)) _)

theorem C8 (hx : ∀ r : Fin 50000, 0 ≤ (x0 m c (ix1 r)).toInt ∧ (x0 m c (ix1 r)).toInt < 100) :
    (Fr.W14 m c (Proc.devRef .tc main_v130) : S50000x128.Idx → EReal) = (Cert.ReferenceIdeal.Read.val_main_v187 (F := Ideal) (x0 m c) (x1 m c) (x2 m c) (x4 m c) (x5 m c) (x6 m c) (x7 m c) (x8 m c) (x9 m c)) := by
  funext i
  obtain ⟨r, j, rfl⟩ : ∃ (r : Fin 50000) (j : Fin 128), i = ix2 r j := ⟨i 0, i 1, eq_ix2 i⟩
  refine ((congrFun (Fr.W14_arr m c 3) (ix2 r j)).trans (final5_3 (Fr.U13 m) c r j)).trans ?_
  rw [Cert.Net.H4_eq, Cert.Stage.linRelu_apply]
  refine lin_ext (fun r k => ?_) (fun k j => congrFun (w4_eq m c) (ix2 k j)) (fun j => b4_eq m c j) r j
  exact (congrFun (carry_main_v123_12_13 m c) (ix2 r k)).trans (congrFun (C7 m c hx) (ix2 r k))

theorem C9 (hx : ∀ r : Fin 50000, 0 ≤ (x0 m c (ix1 r)).toInt ∧ (x0 m c (ix1 r)).toInt < 100) :
    (Fr.W17 m c (Proc.devRef .tc main_v134) : S1024.Idx → EReal) = (Cert.ReferenceIdeal.Read.val_main_v195 (F := Ideal) (x0 m c) (x1 m c) (x2 m c) (x3 m c) (x4 m c) (x5 m c) (x6 m c) (x7 m c) (x8 m c) (x9 m c) (x10 m c) (x11 m c)) := by
  funext i
  obtain ⟨g, rfl⟩ : ∃ g : Fin 1024, i = ix1 g := ⟨i 0, eq_ix1 i⟩
  refine (h7_v134 (Fr.W16 m c) g).trans ?_
  refine ((congrFun (Fr.W16_arr m c 4) (ix2 g (0 : Fin 1))).trans (final6_4 (Fr.U15 m) c g)).trans ?_
  rw [Cert.Net.out_eq, Cert.Stage.readout_apply]
  refine out_ext (fun n h => ?_) (fun n => ?_) (fun h => ?_) ?_ g
  · exact (congrFun (carry_main_v130_14_15 m c) (ix2 n h)).trans (congrFun (C8 m c hx) (ix2 n h))
  · exact (congrFun (carry_main_v5_1_15 m c) _).trans (h0_v5 (Fr.W0 m c) n)
  · exact (congrFun (h6_v131 (Fr.W14 m c)) _).trans (congrFun (carry_main_arg10_0_14 m c) _)
  · exact (h6_v132 (Fr.W14 m c)).trans (congrFun (carry_main_arg11_0_14 m c) _)

end Cert.KernelIdeal.Val

end
-- ==== Proof.Val.PreRange.lean ====
import proofs.«425171_j32186484916934_3_alg».proof.Defs
import proofs.«425171_j32186484916934_3_alg».proof.Proof.Gen.Pre_finite_inputs
import proofs.«425171_j32186484916934_3_alg».proof.Proof.Gen.KernelIdeal
import Idealize.ShloMosaic.Lib.ReduceAll
import Idealize.ShloMosaic.Lib.StableHlo.Predicate
import Idealize.ShloMosaic.Lib.ValueIdx

noncomputable section

namespace Cert.KernelIdeal.Val

open Cert.KernelIdeal Cert.KernelIdeal.Gen
open Idealize.ShloMosaic Idealize.ShloMosaic.TcCoe Idealize.ShloMosaic.ValueIdx
open Idealize.SL.Sem

theorem range_of_entry (x : BitVec 32)
    (e : IntOp.andi (IntOp.cmpi .sge x 0#32) (IntOp.cmpi .slt x 100#32) = 1#1) : 0 ≤ x.toInt ∧ x.toInt < 100 := by
  obtain ⟨hge, hlt⟩ := IntOp.andi_eq_one.1 e
  have h0 : (0#32 : BitVec 32).toInt = 0 := by decide
  have h100 : (100#32 : BitVec 32).toInt = 100 := by decide
  constructor
  · have := (StableHlo.Predicate.ofBool_eq_one_iff _).1 hge
    simp only [BitVec.sle, decide_eq_true_eq, h0] at this
    exact this
  · have := (StableHlo.Predicate.ofBool_eq_one_iff _).1 hlt
    simp only [BitVec.slt, decide_eq_true_eq, h100] at this
    exact this

theorem range_of_all (A : IVec S50000 32) (hb : S_.BroadcastsInDim S50000 (![] : Fin 0 → Fin S50000.rank))
    (hr : S50000.ReducesTo [0] S_) (h0 : 0 < S_.numel)
    (e : Host.reduce IntOp.andi
        (andi (cmpi .sge A (broadcastInDim S50000 ![] hb (constantI S_ 32 0#32)))
          (cmpi .slt A (broadcastInDim S50000 ![] hb (constantI S_ 32 100#32))))
        (constantI S_ 1 1#1) hr h0 ix0 = 1#1) (r : Fin 50000) :
    0 ≤ (A (ix1 r)).toInt ∧ (A (ix1 r)).toInt < 100 := by
  haveI : Subsingleton S_.Idx := ⟨fun a b => funext fun d => d.elim0⟩
  exact range_of_entry (A (ix1 r)) (Host.reduce_andi_all _ _ hr h0 ix0 e (ix1 r))

theorem xori_range (m : (ℓ : Loc nD τ sig) → Buf (Elt Ideal) ℓ) (h : Cert.Pre_KernelIdeal m) (c : Dev nD) (r : Fin 50000) :
    0 ≤ ((m ((c.tc : Thread nD τ).loc main_arg0) : S50000.Idx → BitVec 32) (ix1 r)).toInt
      ∧ ((m ((c.tc : Thread nD τ).loc main_arg0) : S50000.Idx → BitVec 32) (ix1 r)).toInt < 100 := by
  have e := congrFun (h c) ValueIdx.ix0
  dsimp only [Cert.Pre_finite_inputs.fn, Cert.Pre_finite_inputs.fn_part1, Cert.Pre_finite_inputs.fn_part2] at e
  exact range_of_all _ _ _ _ (IntOp.andi_eq_one.1 e).2 r

end Cert.KernelIdeal.Val

end
-- ==== Proof.lean ====
import proofs.«425171_j32186484916934_3_alg».proof.Defs
import proofs.«425171_j32186484916934_3_alg».proof.Proof.Gen.Kernel
import proofs.«425171_j32186484916934_3_alg».proof.Proof.Gen.KernelIdeal
import proofs.«425171_j32186484916934_3_alg».proof.Proof.Gen.ReferenceIdeal
import proofs.«425171_j32186484916934_3_alg».proof.Proof.Gen.Pre_finite_inputs
import proofs.«425171_j32186484916934_3_alg».proof.Proof.RefRun.Run
import proofs.«425171_j32186484916934_3_alg».proof.Proof.Fr.Run
import proofs.«425171_j32186484916934_3_alg».proof.Proof.FrK.Run
import proofs.«425171_j32186484916934_3_alg».proof.Proof.Val.Chain
import proofs.«425171_j32186484916934_3_alg».proof.Proof.Val.PreRange
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Fr.run_result (F := Bits) m ρ)
theorem frame_ki : Cert.frame_KernelIdeal := fun m ρ _ =>
  (θ_run Cert.KernelIdeal.defs _ _).mono (fun _ h c => (h c).2) (Cert.KernelIdeal.Fr.run_result (F := Ideal) m ρ)
theorem frame_ri : Cert.frame_ReferenceIdeal := fun m ρ _ =>
  (θ_run Cert.ReferenceIdeal.defs _ _).mono (fun _ h c => (h c).2) (Cert.ReferenceIdeal.RunW.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Fr.W17 (F := Ideal) m c (Proc.devRef .tc Cert.KernelIdeal.main_v134),
    Cert.KernelIdeal.Fr.run_result (F := Ideal) m ρ, ?_⟩
  refine (θ_run Cert.ReferenceIdeal.defs _ _).mono (fun _ h c => ⟨(h c).1.trans ?_, (h c).2⟩)
    (Cert.ReferenceIdeal.RunW.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact (Cert.KernelIdeal.Val.C9 m c (fun r => Cert.KernelIdeal.Val.xori_range m hpre c r)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
